-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v15_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S2048x1024 : Shape := ⟨2, ![2048, 1024]⟩
abbrev S50257x1024 : Shape := ⟨2, ![50257, 1024]⟩
abbrev S2048x2048 : Shape := ⟨2, ![2048, 2048]⟩
abbrev S2048 : Shape := ⟨1, ![2048]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S2048 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S2048x1024 .f32) (main_arg3 : FVec F S50257x1024 .f32) (main_arg4 : FVec F S2048x2048 .f32) (main_arg5 : FVec F S2048 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S2048x1024 .f32 := Host.absf main_arg2
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S2048x1024 : Shape := ⟨2, ![2048, 1024]⟩
abbrev S50257x1024 : Shape := ⟨2, ![50257, 1024]⟩
abbrev S2048x2048 : Shape := ⟨2, ![2048, 2048]⟩
abbrev S2048 : Shape := ⟨1, ![2048]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1024 : Shape := ⟨2, ![1, 1024]⟩
abbrev S1x2048 : Shape := ⟨2, ![1, 2048]⟩
abbrev S1x3072 : Shape := ⟨2, ![1, 3072]⟩
abbrev S256x1024 : Shape := ⟨2, ![256, 1024]⟩
abbrev S256x2048 : Shape := ⟨2, ![256, 2048]⟩
abbrev S1x256 : Shape := ⟨2, ![1, 256]⟩
abbrev S1x1 : Shape := ⟨2, ![1, 1]⟩
abbrev S1024x256 : Shape := ⟨2, ![1024, 256]⟩
abbrev S1024x1024 : Shape := ⟨2, ![1024, 1024]⟩
abbrev S768x1024 : Shape := ⟨2, ![768, 1024]⟩
abbrev S1024x768 : Shape := ⟨2, ![1024, 768]⟩
abbrev S1x768 : Shape := ⟨2, ![1, 768]⟩
abbrev S1x50257 : Shape := ⟨2, ![1, 50257]⟩
abbrev S1x51200 : Shape := ⟨2, ![1, 51200]⟩

abbrev nBuf : Space → Nat
  | .hbm => 57
  | .vmem => 27
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S2048x1024, .f32⟩
  | .hbm, ⟨3, _⟩ => ⟨S50257x1024, .f32⟩
  | .hbm, ⟨4, _⟩ => ⟨S2048x2048, .f32⟩
  | .hbm, ⟨5, _⟩ => ⟨S2048, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1x2048, .f32⟩
  | .hbm, ⟨33, _⟩ => ⟨S1x1024, .f32⟩
  | .hbm, ⟨34, _⟩ => ⟨S1x3072, .f32⟩
  | .hbm, ⟨35, _⟩ => ⟨S1x3072, .f32⟩
  | .hbm, ⟨36, _⟩ => ⟨S1x1024, .f32⟩
  | .hbm, ⟨37, _⟩ => ⟨S1x2048, .f32⟩
  | .hbm, ⟨38, _⟩ => ⟨S1x50257, .f32⟩
  | .hbm, ⟨39, _⟩ => ⟨S1x51200, .f32⟩
  | .hbm, ⟨40, _⟩ => ⟨S1x50257, .f32⟩
  | .hbm, ⟨41, _⟩ => ⟨S_, .f32⟩
  | .hbm, ⟨42, _⟩ => ⟨S1, .f32⟩
  | .hbm, ⟨43, _⟩ => ⟨S_, .f32⟩
  | .hbm, ⟨44, _⟩ => ⟨S1, .f32⟩
  | .hbm, ⟨45, _⟩ => ⟨S1, .f32⟩
  | .hbm, ⟨46, _⟩ => ⟨S1x1, .f32⟩
  | .hbm, ⟨47, _⟩ => ⟨S1x50257, .f32⟩
  | .hbm, ⟨48, _⟩ => ⟨S1x50257, .f32⟩
  | .hbm, ⟨49, _⟩ => ⟨S1x50257, .f32⟩
  | .hbm, ⟨50, _⟩ => ⟨S_, .f32⟩
  | .hbm, ⟨51, _⟩ => ⟨S1, .f32⟩
  | .hbm, ⟨52, _⟩ => ⟨S1x1, .f32⟩
  | .hbm, ⟨53, _⟩ => ⟨S1x1, .f32⟩
  | .hbm, ⟨54, _⟩ => ⟨S1x50257, .f32⟩
  | .hbm, ⟨55, _⟩ => ⟨S1x50257, .f32⟩
  | .hbm, ⟨56, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S1x256, .f32⟩
  | .local _ .vmem, ⟨7, _⟩ => ⟨S1x256, .f32⟩
  | .local _ .vmem, ⟨8, _⟩ => ⟨S1024x2048, .f32⟩
  | .local _ .vmem, ⟨9, _⟩ => ⟨S1x1024, .f32⟩
  | .local _ .vmem, ⟨10, _⟩ => ⟨S3072x1024, .f32⟩
  | .local _ .vmem, ⟨11, _⟩ => ⟨S3072x1024, .f32⟩
  | .local _ .vmem, ⟨12, _⟩ => ⟨S1x3072, .f32⟩
  | .local _ .vmem, ⟨13, _⟩ => ⟨S1x3072, .f32⟩
  | .local _ .vmem, ⟨14, _⟩ => ⟨S1x1024, .f32⟩
  | .local _ .vmem, ⟨15, _⟩ => ⟨S1x2048, .f32⟩
  | .local _ .vmem, ⟨16, _⟩ => ⟨S1x1, .f32⟩
  | .local _ .vmem, ⟨17, _⟩ => ⟨S1x1, .f32⟩
  | .local _ .vmem, ⟨18, _⟩ => ⟨S1x1024, .f32⟩
  | .local _ .vmem, ⟨19, _⟩ => ⟨S1x2048, .f32⟩
  | .local _ .vmem, ⟨20, _⟩ => ⟨S1x1024, .f32⟩
  | .local _ .vmem, ⟨21, _⟩ => ⟨S2048x1024, .f32⟩
  | .local _ .vmem, ⟨22, _⟩ => ⟨S2048x1024, .f32⟩
  | .local _ .vmem, ⟨23, _⟩ => ⟨S1x2048, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_c_2 : Ref sig .tc := ⟨.hbm, 21, rfl⟩
abbrev main_v4 : Ref sig .tc := ⟨.hbm, 22, rfl⟩
abbrev main_c_3 : Ref sig .tc := ⟨.hbm, 23, rfl⟩
abbrev main_c_4 : Ref sig .tc := ⟨.hbm, 24, rfl⟩
abbrev main_v5 : Ref sig .tc := ⟨.hbm, 25, rfl⟩
abbrev main_c_5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15_0 : Ref sig .tc := ⟨.hbm, 36, rfl⟩
abbrev main_v15_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_cst : Ref sig .tc := ⟨.hbm, 41, rfl⟩
abbrev main_call0_v0 : Ref sig .tc := ⟨.hbm, 42, rfl⟩
abbrev main_call0_cst_0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_cst_1 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_v19 : Ref sig .tc := ⟨.hbm, 55, rfl⟩
abbrev main_v20 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc1_sem0_0 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c256_i32 : BitVec 32 := 256#32
  let v21 : BitVec 32 := Scalar.muli arg0 c256_i32
  v21
def k0_off1 (i : grid0.Coords) : Fin 2 → Nat :=
  let c0_10 : Index := 0#32
  let arg0 : BitVec 32 := BitVec.ofNat 32 (i 0).val
  let c256_i32 : BitVec 32 := 256#32
  let v21 : BitVec 32 := Scalar.muli arg0 c256_i32
  let v22 : BitVec 32 := v21
  let v23 : Index := Scalar.indexCast v22
  ![0, v23.toNat]
def k0_cond2 (i : grid0.Coords) : BitVec 1 :=
  let arg0 : BitVec 32 := BitVec.ofNat 32 (i 0).val
  let c7_i32 : BitVec 32 := 7#32
  let v59 : BitVec 1 := Scalar.cmpi .eq arg0 c7_i32
  let v60 : BitVec 32 := Scalar.extui v59
  let c0_i32_30 : BitVec 32 := 0#32
  let v61 : BitVec 1 := Scalar.cmpi .ne v60 c0_i32_30
  v61

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3072x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1_S_ : S1.ShapeCasts S_
  sliceFits_S50257x1024_S1x1024 : S50257x1024.Slices (fun _ => 0) S1x1024
  h_S_ : 0 < S_.numel
  shapeCasts_S1x1024_S1024 : S1x1024.ShapeCasts S1024
  shapeCasts_S1024_S1x1024 : S1024.ShapeCasts S1x1024
  shapeCasts_S1x1x1024_S1x1024 : S1x1x1024.ShapeCasts S1x1024
  shapeCasts_S2048_S1x2048 : S2048.ShapeCasts S1x2048
  shapeCasts_S3072_S1x3072 : S3072.ShapeCasts S1x3072
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S256x2048_S256x1024_0_0 : ∀ a, (![0, 0] : Fin 2 → Nat) a + S256x1024.size a ≤ S256x2048.size a
  h_S256x1024 : 0 < S256x1024.numel
  inb_S256x2048_S256x1024_0_1024 : ∀ a, (![0, 1024] : Fin 2 → Nat) a + S256x1024.size a ≤ S256x2048.size a
  transposes_S256x1024_p1_0_S1024x256 : S256x1024.Transposes [1, 0] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S1x256_S1 : S1x256.Reduces [1] S1
  shapeCasts_S1_S1x1 : S1.ShapeCasts S1x1
  broadcasts_S1x1_S1x256 : S1x1.Broadcasts S1x256
  inb_S256x1024_S256x1024_0_0 : ∀ a, (![0, 0] : Fin 2 → Nat) a + S256x1024.size a ≤ S256x1024.size a
  broadcasts_S1x1_S1x1024 : S1x1.Broadcasts S1x1024
  inb_S1x2048_S1x2048_0_0 : ∀ a, (![0, 0] : Fin 2 → Nat) a + S1x2048.size a ≤ S1x2048.size a
  h_S1x2048 : 0 < S1x2048.numel
  broadcasts_S1x1_S1x2048 : S1x1.Broadcasts S1x2048
  inb_S1024x2048_S1024x1024_0_0 : ∀ a, (![0, 0] : Fin 2 → Nat) a + S1024x1024.size a ≤ S1024x2048.size a
  h_S1024x1024 : 0 < S1024x1024.numel
  inb_S1024x2048_S1024x1024_0_1024 : ∀ a, (![0, 1024] : Fin 2 → Nat) a + S1024x1024.size a ≤ S1024x2048.size a
  transposes_S1024x1024_p1_0_S1024x1024 : S1024x1024.Transposes [1, 0] S1024x1024
  inb_S3072x1024_S768x1024_0_0 : ∀ a, (![0, 0] : Fin 2 → Nat) a + S768x1024.size a ≤ S3072x1024.size a
  h_S768x1024 : 0 < S768x1024.numel
  transposes_S768x1024_p1_0_S1024x768 : S768x1024.Transposes [1, 0] S1024x768
  inb_S3072x1024_S768x1024_768_0 : ∀ a, (![768, 0] : Fin 2 → Nat) a + S768x1024.size a ≤ S3072x1024.size a
  inb_S3072x1024_S768x1024_1536_0 : ∀ a, (![1536, 0] : Fin 2 → Nat) a + S768x1024.size a ≤ S3072x1024.size a
  inb_S3072x1024_S768x1024_2304_0 : ∀ a, (![2304, 0] : Fin 2 → Nat) a + S768x1024.size a ≤ S3072x1024.size a
  concatenates_S1x768_S1x768_S1x768_S1x768_S1x3072_d1 : Shape.Concatenates [S1x768, S1x768, S1x768, S1x768] S1x3072 1
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  shapeCasts_S50257_S1x50257 : S50257.ShapeCasts S1x50257
  inb_S2048x1024_S2048x1024_0_0 : ∀ a, (![0, 0] : Fin 2 → Nat) a + S2048x1024.size a ≤ S2048x1024.size a
  h_S2048x1024 : 0 < S2048x1024.numel
  transposes_S2048x1024_p1_0_S1024x2048 : S2048x1024.Transposes [1, 0] S1024x2048
  shapeCasts_S1x2048_S1x2048 : S1x2048.ShapeCasts S1x2048
  slices_S1x51200_S1x50257_0_0 : S1x51200.Slices ![0, 0] S1x50257
  reducesTo_S1x50257_S1_d1 : S1x50257.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  shapeCasts_S1x1024_S1x1x1024 : S1x1024.ShapeCasts S1x1x1024
  dot_S1x1024_S1024x256_S1x256_1_0_0_1_n_n_wf : DotDims.WF S1x1024 S1024x256 S1x256 [1] [0] [0] [1] [] []
  dot_S1x256_S256x1024_S1x1024_1_0_0_1_n_n_wf : DotDims.WF S1x256 S256x1024 S1x1024 [1] [0] [0] [1] [] []
  dot_S1x1024_S1024x1024_S1x1024_1_0_0_1_n_n_wf : DotDims.WF S1x1024 S1024x1024 S1x1024 [1] [0] [0] [1] [] []
  dot_S1x1024_S1024x768_S1x768_1_0_0_1_n_n_wf : DotDims.WF S1x1024 S1024x768 S1x768 [1] [0] [0] [1] [] []
  dot_S1x1024_S1024x2048_S1x2048_1_0_0_1_n_n_wf : DotDims.WF S1x1024 S1024x2048 S1x2048 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256.size a ≤ S1x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x1024.size a
  hwx0_2 : ∀ i : grid0.Coords, EltTy.bits .f32 = 32 ∨ (Rect.block (s := S2048x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .f32 = 32 ∨ (Rect.block (s := S2048x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x2048.size a
  hwx0_4 : ∀ i : grid0.Coords, EltTy.bits .f32 = 32 ∨ (Rect.block (s := S1x2048) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3072x1024.size a ≤ S3072x1024.size a
  hwx0_7 : ∀ i : grid0.Coords, EltTy.bits .f32 = 32 ∨ (Rect.block (s := S3072x1024) S3072x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3072x1024.size a ≤ S3072x1024.size a
  hwx0_8 : ∀ i : grid0.Coords, EltTy.bits .f32 = 32 ∨ (Rect.block (s := S3072x1024) S3072x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x3072.size a ≤ S1x3072.size a
  hwx0_9 : ∀ i : grid0.Coords, EltTy.bits .f32 = 32 ∨ (Rect.block (s := S1x3072) S1x3072.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3072.size a ≤ S1x3072.size a
  hwx0_10 : ∀ i : grid0.Coords, EltTy.bits .f32 = 32 ∨ (Rect.block (s := S1x3072) S1x3072.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2048.size a ≤ S1x2048.size a
  hwx0_12 : ∀ i : grid0.Coords, EltTy.bits .f32 = 32 ∨ (Rect.block (s := S1x2048) S1x2048.size (cc0_transform_12 i) (hinb0_12 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048x1024.size a < S50257x1024.size a
  hwx1_1 : ∀ i : grid1.Coords, EltTy.bits .f32 = 32 ∨ (Rect.unit (s := S50257x1024) (fun a => cc1_transform_1 i a * S2048x1024.size a) (fun a => (Pipeline.Clip.of (cc1_transform_1 i a) (S2048x1024.size a) (S50257x1024.size a)).extent (S2048x1024.size a)) fun a => Pipeline.Clip.inb (Pipeline.Clip.ok_of (hstart1_1 i a))).WholeWords (EltTy.packing .f32)
  hwxs1_1 : ∀ i : grid1.Coords, EltTy.bits .f32 = 32 ∨ (Rect.unit (s := S2048x1024) (fun _ => 0) (fun a => (Pipeline.Clip.of (cc1_transform_1 i a) (S2048x1024.size a) (S50257x1024.size a)).extent (S2048x1024.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x2048.size a < S1x50257.size a
  hwx1_2 : ∀ i : grid1.Coords, EltTy.bits .f32 = 32 ∨ (Rect.unit (s := S1x50257) (fun a => cc1_transform_2 i a * S1x2048.size a) (fun a => (Pipeline.Clip.of (cc1_transform_2 i a) (S1x2048.size a) (S1x50257.size a)).extent (S1x2048.size a)) fun a => Pipeline.Clip.inb (Pipeline.Clip.ok_of (hstart1_2 i a))).WholeWords (EltTy.packing .f32)
  hwxs1_2 : ∀ i : grid1.Coords, EltTy.bits .f32 = 32 ∨ (Rect.unit (s := S1x2048) (fun _ => 0) (fun a => (Pipeline.Clip.of (cc1_transform_2 i a) (S1x2048.size a) (S1x50257.size a)).extent (S1x2048.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x51200.size a
  hwx1_3 : ∀ i : grid1.Coords, EltTy.bits .f32 = 32 ∨ (Rect.block (s := S1x51200) S1x2048.size (cc1_transform_3 i) (hinb1_3 i)).WholeWords (EltTy.packing .f32)

variable [Facts₀]

def dot_S1x1024_S1024x256_S1x256_1_0_0_1_n_n : DotDims S1x1024 S1024x256 S1x256 where
  lhsContracting := [1]
  rhsContracting := [0]
  lhsNonContracting := [0]
  rhsNonContracting := [1]
  lhsBatch := []
  rhsBatch := []
  wf := dot_S1x1024_S1024x256_S1x256_1_0_0_1_n_n_wf
def dot_S1x256_S256x1024_S1x1024_1_0_0_1_n_n : DotDims S1x256 S256x1024 S1x1024 where
  lhsContracting := [1]
  rhsContracting := [0]
  lhsNonContracting := [0]
  rhsNonContracting := [1]
  lhsBatch := []
  rhsBatch := []
  wf := dot_S1x256_S256x1024_S1x1024_1_0_0_1_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S1x1024_S1024x768_S1x768_1_0_0_1_n_n : DotDims S1x1024 S1024x768 S1x768 where
  lhsContracting := [1]
  rhsContracting := [0]
  lhsNonContracting := [0]
  rhsNonContracting := [1]
  lhsBatch := []
  rhsBatch := []
  wf := dot_S1x1024_S1024x768_S1x768_1_0_0_1_n_n_wf
def dot_S1x1024_S1024x2048_S1x2048_1_0_0_1_n_n : DotDims S1x1024 S1024x2048 S1x2048 where
  lhsContracting := [1]
  rhsContracting := [0]
  lhsNonContracting := [0]
  rhsNonContracting := [1]
  lhsBatch := []
  rhsBatch := []
  wf := dot_S1x1024_S1024x2048_S1x2048_1_0_0_1_n_n_wf

abbrev win0_0 : Pipeline.Window sig grid0 :=
  Pipeline.Window.ofSpec (Memref.whole main_v9) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S3072x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S3072x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x3072.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x3072.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15_0) S1x1024.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15_1) S1x2048.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | 12 => fun i => !(k0_cond2 i == 1#1) | ⟨_ + 13, h⟩ => absurd h (Nat.not_lt.2 (Nat.le_add_left _ _))

abbrev win1_0 : Pipeline.Window sig grid1 :=
  Pipeline.Window.ofSpec (Memref.whole main_v15_0) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg12) S2048x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v16) S1x2048.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_v17) S1x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S2048x1024 : Shape := ⟨2, ![2048, 1024]⟩
abbrev S50257x1024 : Shape := ⟨2, ![50257, 1024]⟩
abbrev S2048x2048 : Shape := ⟨2, ![2048, 2048]⟩
abbrev S2048 : Shape := ⟨1, ![2048]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1024 : Shape := ⟨2, ![1, 1024]⟩
abbrev S1x2048 : Shape := ⟨2, ![1, 2048]⟩
abbrev S1x1 : Shape := ⟨2, ![1, 1]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 121
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S2048x1024, .f32⟩
  | .hbm, ⟨3, _⟩ => ⟨S50257x1024, .f32⟩
  | .hbm, ⟨4, _⟩ => ⟨S2048x2048, .f32⟩
  | .hbm, ⟨5, _⟩ => ⟨S2048, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1x2048, .f32⟩
  | .hbm, ⟨33, _⟩ => ⟨S2048x2048, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S1x1, .f32⟩
  | .hbm, ⟨43, _⟩ => ⟨S1x2048, .f32⟩
  | .hbm, ⟨44, _⟩ => ⟨S1x2048, .f32⟩
  | .hbm, ⟨45, _⟩ => ⟨S1x2048, .f32⟩
  | .hbm, ⟨46, _⟩ => ⟨S_, .f32⟩
  | .hbm, ⟨47, _⟩ => ⟨S1, .f32⟩
  | .hbm, ⟨48, _⟩ => ⟨S1x1, .f32⟩
  | .hbm, ⟨49, _⟩ => ⟨S1x2048, .f32⟩
  | .hbm, ⟨50, _⟩ => ⟨S1x2048, .f32⟩
  | .hbm, ⟨51, _⟩ => ⟨S1x1024, .f32⟩
  | .hbm, ⟨52, _⟩ => ⟨S1x2048, .f32⟩
  | .hbm, ⟨53, _⟩ => ⟨S2048x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1024x3072, .f32⟩
  | .hbm, ⟨61, _⟩ => ⟨S1x3072, .f32⟩
  | .hbm, ⟨62, _⟩ => ⟨S1x3072, .f32⟩
  | .hbm, ⟨63, _⟩ => ⟨S1x3072, .f32⟩
  | .hbm, ⟨64, _⟩ => ⟨S1024x3072, .f32⟩
  | .hbm, ⟨65, _⟩ => ⟨S1x3072, .f32⟩
  | .hbm, ⟨66, _⟩ => ⟨S1x3072, .f32⟩
  | .hbm, ⟨67, _⟩ => ⟨S1x3072, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S_, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S_, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S1x1024, .f32⟩
  | .hbm, ⟨101, _⟩ => ⟨S1024x50257, .f32⟩
  | .hbm, ⟨102, _⟩ => ⟨S1x50257, .f32⟩
  | .hbm, ⟨103, _⟩ => ⟨S1x50257, .f32⟩
  | .hbm, ⟨104, _⟩ => ⟨S1x50257, .f32⟩
  | .hbm, ⟨105, _⟩ => ⟨S_, .f32⟩
  | .hbm, ⟨106, _⟩ => ⟨S1, .f32⟩
  | .hbm, ⟨107, _⟩ => ⟨S_, .f32⟩
  | .hbm, ⟨108, _⟩ => ⟨S1, .f32⟩
  | .hbm, ⟨109, _⟩ => ⟨S1, .f32⟩
  | .hbm, ⟨110, _⟩ => ⟨S1x1, .f32⟩
  | .hbm, ⟨111, _⟩ => ⟨S1x50257, .f32⟩
  | .hbm, ⟨112, _⟩ => ⟨S1x50257, .f32⟩
  | .hbm, ⟨113, _⟩ => ⟨S1x50257, .f32⟩
  | .hbm, ⟨114, _⟩ => ⟨S_, .f32⟩
  | .hbm, ⟨115, _⟩ => ⟨S1, .f32⟩
  | .hbm, ⟨116, _⟩ => ⟨S1x1, .f32⟩
  | .hbm, ⟨117, _⟩ => ⟨S1x1, .f32⟩
  | .hbm, ⟨118, _⟩ => ⟨S1x50257, .f32⟩
  | .hbm, ⟨119, _⟩ => ⟨S1x50257, .f32⟩
  | .hbm, ⟨120, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_c_2 : Ref sig .tc := ⟨.hbm, 21, rfl⟩
abbrev main_v4 : Ref sig .tc := ⟨.hbm, 22, rfl⟩
abbrev main_c_3 : Ref sig .tc := ⟨.hbm, 23, rfl⟩
abbrev main_c_4 : Ref sig .tc := ⟨.hbm, 24, rfl⟩
abbrev main_v5 : Ref sig .tc := ⟨.hbm, 25, rfl⟩
abbrev main_c_5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_cst_6 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_7 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call0_cst : Ref sig .tc := ⟨.hbm, 57, rfl⟩
abbrev main_call0_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call1_cst : Ref sig .tc := ⟨.hbm, 105, rfl⟩
abbrev main_call1_v0 : Ref sig .tc := ⟨.hbm, 106, rfl⟩
abbrev main_call1_cst_0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_cst_1 : Ref sig .tc := ⟨.hbm, 114, rfl⟩
abbrev main_call1_v7 : Ref sig .tc := ⟨.hbm, 115, rfl⟩
abbrev main_call1_v8 : Ref sig .tc := ⟨.hbm, 116, rfl⟩
abbrev main_call1_v9 : Ref sig .tc := ⟨.hbm, 117, rfl⟩
abbrev main_call1_v10 : Ref sig .tc := ⟨.hbm, 118, rfl⟩
abbrev main_v74 : Ref sig .tc := ⟨.hbm, 119, rfl⟩
abbrev main_v75 : Ref sig .tc := ⟨.hbm, 120, rfl⟩

abbrev nD : Nat := 1
abbrev τ : Topo := Topo.v7x

variable {F : FTy → Type} [FloatOps F]

class Facts₀ : Prop where
  shapeCasts_S1_S_ : S1.ShapeCasts S_
  sliceFits_S50257x1024_S1x1024 : S50257x1024.Slices (fun _ => 0) S1x1024
  h_S_ : 0 < S_.numel
  shapeCasts_S1x1024_S1024 : S1x1024.ShapeCasts S1024
  bcast_S1024_S1x1024_1 : S1024.BroadcastsInDim S1x1024 (![1] : Fin 1 → Fin S1x1024.rank)
  shapeCasts_S1x1x1024_S1x1024 : S1x1x1024.ShapeCasts S1x1024
  concatenates_S1x1024_S1x1024_S1x2048_d1 : Shape.Concatenates [S1x1024, S1x1024] S1x2048 1
  transposes_S2048x2048_S2048x2048_1_0 : S2048x2048.Transposes [1, 0] S2048x2048
  bcast_S2048_S1x2048_1 : S2048.BroadcastsInDim S1x2048 (![1] : Fin 1 → Fin S1x2048.rank)
  reducesTo_S1x2048_S1_d1 : S1x2048.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x2048_0_1 : S1x1.BroadcastsInDim S1x2048 (![0, 1] : Fin 2 → Fin S1x2048.rank)
  transposes_S1024x2048_S2048x1024_1_0 : S1024x2048.Transposes [1, 0] S2048x1024
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  dot_S1x2048_S2048x2048_S1x2048_1_0_0_1_n_n_wf : DotDims.WF S1x2048 S2048x2048 S1x2048 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.BRuns0.lean ====
import proofs.«429206_j20933670601086_3_alg».proof.Proof.Gen.Kernel.Launch
import proofs.«429206_j20933670601086_3_alg».proof.Proof.Gen.Kernel.Skeleton
import proofs.«429206_j20933670601086_3_alg».proof.Proof.Gen.Kernel.Points
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI

variable {F : FTy → Type} [FloatOps F]

local notation "𝕄" => MT nD τ sig Unit (Elt F) ℕ (UR sig nD τ) ℕ

open Cert.Kernel Cert.Kernel.Gen

/-- Owning a whole memref at contents `X` is holding its buffer at the one raw contents that read `X`. -/
theorem owns_unread (c : Thread nD τ) {sp : Space} {sh : Shape} {e : EltTy} {m : Memref sig c.2.kind sp sh e} (h : m.IsWhole)
    (q : PosShare TreeShare) (X : sh.Idx → Elt F e) :
    (owns c m q X : sProp 𝕄) = (m.view.loc c ↦[m.view.set]{q} h.unread X) := by
  rw [owns_eq_rep, h.eq_unread (View.read_rep m.view X)]

abbrev cond0_1 (i : grid0.Coords) : Prop := (Scalar.cmpi .ne (Scalar.extui (Scalar.cmpi .eq (BitVec.ofNat 32 (i 0).val) 0#32)) 0#32) = 1#1
theorem hcond0_1 : ∀ t : Fin cfg0.N, cond0_1 (grid0.coords t) ↔ t.val = 0 :=
  (by decide +kernel : ∀ t : Fin grid0.N, cond0_1 (grid0.coords t) ↔ t.val = 0)

abbrev cond0_2 (i : grid0.Coords) : Prop := k0_cond2 i = 1#1
theorem hcond0_2 : ∀ t : Fin cfg0.N, cond0_2 (grid0.coords t) ↔ t.val = 7 :=
  (by decide +kernel : ∀ t : Fin grid0.N, cond0_2 (grid0.coords t) ↔ t.val = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem idleAt0_11 : ∀ t : Fin cfg0.N, ¬cond0_2 (grid0.coords t) → cfg0.idle 11 (grid0.coords t) = true := by decide +kernel
theorem noFlush0_11 : ∀ t : Fin cfg0.N, ¬cond0_2 (grid0.coords t) → (cfg0.win 11).flush t = false := by decide +kernel
theorem liveAt0_11 : ∀ t : Fin cfg0.N, cond0_2 (grid0.coords t) → cfg0.idle 11 (grid0.coords t) = false := by decide +kernel
theorem idleAt0_12 : ∀ t : Fin cfg0.N, ¬cond0_2 (grid0.coords t) → cfg0.idle 12 (grid0.coords t) = true := by decide +kernel
theorem noFlush0_12 : ∀ t : Fin cfg0.N, ¬cond0_2 (grid0.coords t) → (cfg0.win 12).flush t = false := by decide +kernel
theorem liveAt0_12 : ∀ t : Fin cfg0.N, cond0_2 (grid0.coords t) → cfg0.idle 12 (grid0.coords t) = false := by decide +kernel

abbrev ms0_0 (t : Fin cfg0.N) : Memref sig .tc .vmem S1x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3072x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3072x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3072 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x3072 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2048 .f32 := win0_12.stage (cfg0.slots t 12)
abbrev hs0_12 (t : Fin cfg0.N) : (ms0_12 t).IsWhole := hstage0_12 ((cfg0.slots t 12).cast nbuf0_12)
abbrev scM14 : Memref sig .tc .vmem S1x1 .f32 := Memref.whole cc0_scratch0
abbrev scM15 : Memref sig .tc .vmem S1x1 .f32 := Memref.whole cc0_scratch1
abbrev scM16 : Memref sig .tc .vmem S1x1024 .f32 := Memref.whole cc0_scratch2
abbrev scM17 : Memref sig .tc .vmem S1x2048 .f32 := Memref.whole cc0_scratch3
abbrev VS14 : View sig .tc .vmem S1x1 .f32 := scM14.view
abbrev VS15 : View sig .tc .vmem S1x1 .f32 := scM15.view
abbrev VS16 : View sig .tc .vmem S1x1024 .f32 := scM16.view
abbrev VS17 : View sig .tc .vmem S1x2048 .f32 := scM17.view
abbrev VO11 : View sig .tc .vmem S1x1024 .f32 := (Memref.whole cc0_stg11_0 : Memref sig .tc .vmem S1x1024 .f32).view
abbrev VO12 : View sig .tc .vmem S1x2048 .f32 := (Memref.whole cc0_stg12_0 : Memref sig .tc .vmem S1x2048 .f32).view

end Cert.Kernel.R0

end
-- ==== Proof.BRun0A.lean ====
import proofs.«429206_j20933670601086_3_alg».proof.Proof.BRuns0

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Kernel Cert.Kernel.Gen

/-- The body at the first point: the state is reset and then updated from the point's tile; what is stored is recorded as pieces over the loaded values. -/
noncomputable def kernelRun0_A (c : Dev nD) (i : grid0.Coords) (arg1 : Memref sig .tc .vmem S1x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S1024x2048 .f32) (harg6 : arg6.IsWhole) (arg7 : Memref sig .tc .vmem S1x1024 .f32) (harg7 : arg7.IsWhole) (arg8 : Memref sig .tc .vmem S3072x1024 .f32) (harg8 : arg8.IsWhole) (arg9 : Memref sig .tc .vmem S3072x1024 .f32) (harg9 : arg9.IsWhole) (arg10 : Memref sig .tc .vmem S1x3072 .f32) (harg10 : arg10.IsWhole) (arg11 : Memref sig .tc .vmem S1x3072 .f32) (harg11 : arg11.IsWhole) (arg12 : Memref sig .tc .vmem S1x1024 .f32) (harg12 : arg12.IsWhole) (arg13 : Memref sig .tc .vmem S1x2048 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1024 .f32) (harg16 : arg16.IsWhole) (arg17 : Memref sig .tc .vmem S1x2048 .f32) (harg17 : arg17.IsWhole) (hc1 : cond0_1 i) (hc2 : ¬cond0_2 i)
    (x1 : Vec F S1x1024 .f32) (x2 : Vec F S1x1024 .f32) (x3 : Vec F S256x1024 .f32) (x4 : Vec F S256x2048 .f32) (x5 : Vec F S1x256 .f32) (x6 : Vec F S1024x2048 .f32) (x7 : Vec F S1x1024 .f32) (x8 : Vec F S3072x1024 .f32) (x9 : Vec F S3072x1024 .f32) (x10 : Vec F S1x3072 .f32) (x11 : Vec F S1x3072 .f32) :
    Σ' (LS14 : List (View.Piece (Elt F) S1x1 .f32)) (LS15 : List (View.Piece (Elt F) S1x1 .f32)) (LS16 : List (View.Piece (Elt F) S1x1024 .f32)), { LS17 : List (View.Piece (Elt F) S1x2048 .f32) //
      ∀ (xi12 : Vec F S1x1024 .f32) (xi13 : Vec F S1x2048 .f32) (xs17 : Vec F S1x2048 .f32) (E : Set ℕ) (K : PUnit → sProp 𝕄),
        iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare xi12 ∗ owns c arg13 fullShare xi13
            ∗ (∃ d, owns c arg14 fullShare d) ∗ (∃ d, owns c arg15 fullShare d) ∗ (∃ d, owns c arg16 fullShare d) ∗ owns c arg17 fullShare xs17
            ∗ (iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare xi12 ∗ owns c arg13 fullShare xi13
                ∗ (∃ f, arg14.view.loc c ↦[arg14.view.set]{fullShare} arg14.view.writes (Elt F) f LS14) ∗ (∃ f, arg15.view.loc c ↦[arg15.view.set]{fullShare} arg15.view.writes (Elt F) f LS15) ∗ (∃ f, arg16.view.loc c ↦[arg16.view.set]{fullShare} arg16.view.writes (Elt F) f LS16)
                ∗ arg17.view.loc c ↦[arg17.view.set]{fullShare} arg17.view.writes (Elt F) (harg17.unread xs17) LS17) -∗ K ⟨⟩))
          ⊢ wp frame (wpE (defs₀ (F := F)) Variants.none c none) E (cc0__decode_attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun xi12 xi13 xs17 E K => ?run⟩
  case run =>
    simp (disch := assumption) only [owns_unread]
    simp only [cc0__decode_attn_kernel_eq_skeleton]; unfold cc0__decode_attn_kernel_skel
    iintro ⟨H1, H2, H3, H4, H5, H6, H7, H8, H9, H10, H11, H12, H13, ⟨%d14, H14⟩, ⟨%d15, H15⟩, ⟨%d16, H16⟩, H17, Hk⟩
    sl_exec (disch := first | exact hc1 | exact hc2)
    sl_step
    iapply Hk
    sl_close

end Cert.Kernel.R0

end
-- ==== Proof.BRun0B.lean ====
import proofs.«429206_j20933670601086_3_alg».proof.Proof.BRuns0

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Kernel Cert.Kernel.Gen

/-- The body at a middle point: the state the point before left is updated from the point's tile. -/
noncomputable def kernelRun0_B (c : Dev nD) (i : grid0.Coords) (arg1 : Memref sig .tc .vmem S1x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S1024x2048 .f32) (harg6 : arg6.IsWhole) (arg7 : Memref sig .tc .vmem S1x1024 .f32) (harg7 : arg7.IsWhole) (arg8 : Memref sig .tc .vmem S3072x1024 .f32) (harg8 : arg8.IsWhole) (arg9 : Memref sig .tc .vmem S3072x1024 .f32) (harg9 : arg9.IsWhole) (arg10 : Memref sig .tc .vmem S1x3072 .f32) (harg10 : arg10.IsWhole) (arg11 : Memref sig .tc .vmem S1x3072 .f32) (harg11 : arg11.IsWhole) (arg12 : Memref sig .tc .vmem S1x1024 .f32) (harg12 : arg12.IsWhole) (arg13 : Memref sig .tc .vmem S1x2048 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1024 .f32) (harg16 : arg16.IsWhole) (arg17 : Memref sig .tc .vmem S1x2048 .f32) (harg17 : arg17.IsWhole) (hc1 : ¬cond0_1 i) (hc2 : ¬cond0_2 i)
    (x1 : Vec F S1x1024 .f32) (x2 : Vec F S1x1024 .f32) (x3 : Vec F S256x1024 .f32) (x4 : Vec F S256x2048 .f32) (x5 : Vec F S1x256 .f32) (x6 : Vec F S1024x2048 .f32) (x7 : Vec F S1x1024 .f32) (x8 : Vec F S3072x1024 .f32) (x9 : Vec F S3072x1024 .f32) (x10 : Vec F S1x3072 .f32) (x11 : Vec F S1x3072 .f32) (xs14 xs15 : Vec F S1x1 .f32) (xs16 : Vec F S1x1024 .f32) :
    Σ' (LS14 : List (View.Piece (Elt F) S1x1 .f32)) (LS15 : List (View.Piece (Elt F) S1x1 .f32)) (LS16 : List (View.Piece (Elt F) S1x1024 .f32)), { LS17 : List (View.Piece (Elt F) S1x2048 .f32) //
      ∀ (xi12 : Vec F S1x1024 .f32) (xi13 : Vec F S1x2048 .f32) (xs17 : Vec F S1x2048 .f32) (E : Set ℕ) (K : PUnit → sProp 𝕄),
        iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare xi12 ∗ owns c arg13 fullShare xi13
            ∗ owns c arg14 fullShare xs14 ∗ owns c arg15 fullShare xs15 ∗ owns c arg16 fullShare xs16 ∗ owns c arg17 fullShare xs17
            ∗ (iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare xi12 ∗ owns c arg13 fullShare xi13
                ∗ (∃ f, arg14.view.loc c ↦[arg14.view.set]{fullShare} arg14.view.writes (Elt F) f LS14) ∗ (∃ f, arg15.view.loc c ↦[arg15.view.set]{fullShare} arg15.view.writes (Elt F) f LS15) ∗ (∃ f, arg16.view.loc c ↦[arg16.view.set]{fullShare} arg16.view.writes (Elt F) f LS16)
                ∗ arg17.view.loc c ↦[arg17.view.set]{fullShare} arg17.view.writes (Elt F) (harg17.unread xs17) LS17) -∗ K ⟨⟩))
          ⊢ wp frame (wpE (defs₀ (F := F)) Variants.none c none) E (cc0__decode_attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun xi12 xi13 xs17 E K => ?run⟩
  case run =>
    simp (disch := assumption) only [owns_unread]
    simp only [cc0__decode_attn_kernel_eq_skeleton]; unfold cc0__decode_attn_kernel_skel
    iintro ⟨H1, H2, H3, H4, H5, H6, H7, H8, H9, H10, H11, H12, H13, H14, H15, H16, H17, Hk⟩
    sl_exec (disch := first | exact hc1 | exact hc2)
    sl_step
    iapply Hk
    sl_close

end Cert.Kernel.R0

end
-- ==== Proof.BRun0C.lean ====
import proofs.«429206_j20933670601086_3_alg».proof.Proof.BRuns0

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Kernel Cert.Kernel.Gen

/-- The body at the last point: the state is updated, then the two outputs are computed from it and stored whole. -/
noncomputable def kernelRun0_C (c : Dev nD) (i : grid0.Coords) (arg1 : Memref sig .tc .vmem S1x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S1024x2048 .f32) (harg6 : arg6.IsWhole) (arg7 : Memref sig .tc .vmem S1x1024 .f32) (harg7 : arg7.IsWhole) (arg8 : Memref sig .tc .vmem S3072x1024 .f32) (harg8 : arg8.IsWhole) (arg9 : Memref sig .tc .vmem S3072x1024 .f32) (harg9 : arg9.IsWhole) (arg10 : Memref sig .tc .vmem S1x3072 .f32) (harg10 : arg10.IsWhole) (arg11 : Memref sig .tc .vmem S1x3072 .f32) (harg11 : arg11.IsWhole) (arg12 : Memref sig .tc .vmem S1x1024 .f32) (harg12 : arg12.IsWhole) (arg13 : Memref sig .tc .vmem S1x2048 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1024 .f32) (harg16 : arg16.IsWhole) (arg17 : Memref sig .tc .vmem S1x2048 .f32) (harg17 : arg17.IsWhole) (hc1 : ¬cond0_1 i) (hc2 : cond0_2 i)
    (x1 : Vec F S1x1024 .f32) (x2 : Vec F S1x1024 .f32) (x3 : Vec F S256x1024 .f32) (x4 : Vec F S256x2048 .f32) (x5 : Vec F S1x256 .f32) (x6 : Vec F S1024x2048 .f32) (x7 : Vec F S1x1024 .f32) (x8 : Vec F S3072x1024 .f32) (x9 : Vec F S3072x1024 .f32) (x10 : Vec F S1x3072 .f32) (x11 : Vec F S1x3072 .f32) (xs14 xs15 : Vec F S1x1 .f32) (xs16 : Vec F S1x1024 .f32) (xs17 : Vec F S1x2048 .f32) :
    Σ' (L12 : List (View.Piece (Elt F) S1x1024 .f32)) (L13 : List (View.Piece (Elt F) S1x2048 .f32)) (LS14 : List (View.Piece (Elt F) S1x1 .f32)) (LS15 : List (View.Piece (Elt F) S1x1 .f32)) (LS16 : List (View.Piece (Elt F) S1x1024 .f32)), { LS17 : List (View.Piece (Elt F) S1x2048 .f32) //
      ∀ (E : Set ℕ) (K : PUnit → sProp 𝕄),
        iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ (∃ d, owns c arg12 fullShare d) ∗ (∃ d, owns c arg13 fullShare d)
            ∗ owns c arg14 fullShare xs14 ∗ owns c arg15 fullShare xs15 ∗ owns c arg16 fullShare xs16 ∗ owns c arg17 fullShare xs17
            ∗ (iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ (∃ f, arg12.view.loc c ↦[arg12.view.set]{fullShare} arg12.view.writes (Elt F) f L12) ∗ (∃ f, arg13.view.loc c ↦[arg13.view.set]{fullShare} arg13.view.writes (Elt F) f L13)
                ∗ (∃ f, arg14.view.loc c ↦[arg14.view.set]{fullShare} arg14.view.writes (Elt F) f LS14) ∗ (∃ f, arg15.view.loc c ↦[arg15.view.set]{fullShare} arg15.view.writes (Elt F) f LS15) ∗ (∃ f, arg16.view.loc c ↦[arg16.view.set]{fullShare} arg16.view.writes (Elt F) f LS16)
                ∗ arg17.view.loc c ↦[arg17.view.set]{fullShare} arg17.view.writes (Elt F) (harg17.unread xs17) LS17) -∗ K ⟨⟩))
          ⊢ wp frame (wpE (defs₀ (F := F)) Variants.none c none) E (cc0__decode_attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp (disch := assumption) only [owns_unread]
    simp only [cc0__decode_attn_kernel_eq_skeleton]; unfold cc0__decode_attn_kernel_skel
    iintro ⟨H1, H2, H3, H4, H5, H6, H7, H8, H9, H10, H11, ⟨%d12, H12⟩, ⟨%d13, H13⟩, H14, H15, H16, H17, Hk⟩
    sl_exec (disch := first | exact hc1 | exact hc2)
    sl_step
    iapply Hk
    sl_close

end Cert.Kernel.R0

end
-- ==== Proof.BOuts0.lean ====
import proofs.«429206_j20933670601086_3_alg».proof.Proof.BRun0A
import proofs.«429206_j20933670601086_3_alg».proof.Proof.BRun0B
import proofs.«429206_j20933670601086_3_alg».proof.Proof.BRun0C

set_option maxRecDepth 16384

noncomputable section

namespace Cert.Kernel.R0

open Idealize.ShloMosaic Idealize.ShloMosaic.TcCoe Idealize.ShloMosaic.Tactic

variable {F : FTy → Type} [FloatOps F]

open Cert.Kernel Cert.Kernel.Gen

abbrev Entry (F : FTy → Type) : Type := (c : Dev nD) → (b : Ref sig .tc) → Buf (Elt F) ((c : Thread nD τ).loc b)

variable (V : Entry F)

/-- Window `w`'s block at point `t`, read off the arrays' contents at entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem nc1_of_pos (t : Fin cfg0.N) (h : t.val ≠ 0) : ¬cond0_1 (grid0.coords t) := fun hc => h ((hcond0_1 t).mp hc)
theorem c2_of_last (t : Fin cfg0.N) (h : t.val = 7) : cond0_2 (grid0.coords t) := (hcond0_2 t).mpr h
theorem nc2_of_notLast (t : Fin cfg0.N) (h : t.val ≠ 7) : ¬cond0_2 (grid0.coords t) := fun hc => h ((hcond0_2 t).mp hc)

abbrev runA (c : Dev nD) (t : Fin cfg0.N) (h0 : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM14 (Memref.isWhole_whole _) scM15 (Memref.isWhole_whole _) scM16 (Memref.isWhole_whole _) scM17 (Memref.isWhole_whole _) ((hcond0_1 t).mpr h0) (nc2_of_notLast t (by omega)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)

abbrev runB (c : Dev nD) (t : Fin cfg0.N) (h0 : t.val ≠ 0) (h7 : t.val ≠ 7) (xs14 xs15 : Vec F S1x1 .f32) (xs16 : Vec F S1x1024 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM14 (Memref.isWhole_whole _) scM15 (Memref.isWhole_whole _) scM16 (Memref.isWhole_whole _) scM17 (Memref.isWhole_whole _) (nc1_of_pos t h0) (nc2_of_notLast t h7) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) xs14 xs15 xs16

abbrev runC (c : Dev nD) (t : Fin cfg0.N) (h0 : t.val ≠ 0) (h7 : t.val = 7) (xs14 xs15 : Vec F S1x1 .f32) (xs16 : Vec F S1x1024 .f32) (xs17 : Vec F S1x2048 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM14 (Memref.isWhole_whole _) scM15 (Memref.isWhole_whole _) scM16 (Memref.isWhole_whole _) scM17 (Memref.isWhole_whole _) (nc1_of_pos t h0) (c2_of_last t h7) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) xs14 xs15 xs16 xs17

/-- What a list of stored pieces that covers a buffer leaves in it. -/
def over14 (L : List (View.Piece (Elt F) S1x1 .f32)) : Vec F S1x1 .f32 := VS14.read (Elt F) (VS14.writes (Elt F) VS14.junk L)
def over15 (L : List (View.Piece (Elt F) S1x1 .f32)) : Vec F S1x1 .f32 := VS15.read (Elt F) (VS15.writes (Elt F) VS15.junk L)
def over16 (L : List (View.Piece (Elt F) S1x1024 .f32)) : Vec F S1x1024 .f32 := VS16.read (Elt F) (VS16.writes (Elt F) VS16.junk L)
def over12 (L : List (View.Piece (Elt F) S1x1024 .f32)) : Vec F S1x1024 .f32 := VO11.read (Elt F) (VO11.writes (Elt F) VO11.junk L)
def over13 (L : List (View.Piece (Elt F) S1x2048 .f32)) : Vec F S1x2048 .f32 := VO12.read (Elt F) (VO12.writes (Elt F) VO12.junk L)
/-- The scores buffer after a point's pieces, which cover one tile only, are written over `xs`. -/
def onto17 (xs : Vec F S1x2048 .f32) (L : List (View.Piece (Elt F) S1x2048 .f32)) : Vec F S1x2048 .f32 :=
  VS17.read (Elt F) (VS17.writes (Elt F) ((Memref.isWhole_whole _ : scM17.IsWhole).unread xs) L)

/-- The running maximum, denominator and weighted sum after point `n`. -/
def mla0 (c : Dev nD) : (n : ℕ) → n < cfg0.N → Vec F S1x1 .f32 × Vec F S1x1 .f32 × Vec F S1x1024 .f32
  | 0, hn => (over14 (runA V c ⟨0, hn⟩ rfl).1, over15 (runA V c ⟨0, hn⟩ rfl).2.1, over16 (runA V c ⟨0, hn⟩ rfl).2.2.1)
  | n + 1, hn =>
    if h7 : n + 1 = 7 then (over14 [], over15 [], over16 [])
    else
      (over14 (runB V c ⟨n + 1, hn⟩ (Nat.succ_ne_zero n) h7 (mla0 c n (Nat.lt_of_succ_lt hn)).1 (mla0 c n (Nat.lt_of_succ_lt hn)).2.1 (mla0 c n (Nat.lt_of_succ_lt hn)).2.2).1,
       over15 (runB V c ⟨n + 1, hn⟩ (Nat.succ_ne_zero n) h7 (mla0 c n (Nat.lt_of_succ_lt hn)).1 (mla0 c n (Nat.lt_of_succ_lt hn)).2.1 (mla0 c n (Nat.lt_of_succ_lt hn)).2.2).2.1,
       over16 (runB V c ⟨n + 1, hn⟩ (Nat.succ_ne_zero n) h7 (mla0 c n (Nat.lt_of_succ_lt hn)).1 (mla0 c n (Nat.lt_of_succ_lt hn)).2.1 (mla0 c n (Nat.lt_of_succ_lt hn)).2.2).2.2.1)

/-- The scores buffer after point `n`, if it held `d` at entry. -/
def sc17 (c : Dev nD) (d : Vec F S1x2048 .f32) : (n : ℕ) → n < cfg0.N → Vec F S1x2048 .f32
  | 0, hn => onto17 d (runA V c ⟨0, hn⟩ rfl).2.2.2.1
  | n + 1, hn =>
    if h7 : n + 1 = 7 then d
    else
      onto17 (sc17 c d n (Nat.lt_of_succ_lt hn))
        (runB V c ⟨n + 1, hn⟩ (Nat.succ_ne_zero n) h7 (mla0 V c n (Nat.lt_of_succ_lt hn)).1 (mla0 V c n (Nat.lt_of_succ_lt hn)).2.1 (mla0 V c n (Nat.lt_of_succ_lt hn)).2.2).2.2.2.1

def d17 : Vec F S1x2048 .f32 := VS17.read (Elt F) VS17.junk

theorem six_lt : 6 < cfg0.N := by rw [show cfg0.N = 8 from N_0]; decide
theorem seven_lt : 7 < cfg0.N := by rw [show cfg0.N = 8 from N_0]; decide
abbrev tLast : Fin cfg0.N := ⟨7, seven_lt⟩

abbrev runLast (c : Dev nD) (xs17 : Vec F S1x2048 .f32) :=
  runC V c tLast (by decide) rfl (mla0 V c 6 six_lt).1 (mla0 V c 6 six_lt).2.1 (mla0 V c 6 six_lt).2.2 xs17

def out12 (c : Dev nD) (xs17 : Vec F S1x2048 .f32) : Vec F S1x1024 .f32 := over12 (runLast V c xs17).1
def out13 (c : Dev nD) (xs17 : Vec F S1x2048 .f32) : Vec F S1x2048 .f32 := over13 (runLast V c xs17).2.1

end Cert.Kernel.R0

end
-- ==== Proof.BSteps0.lean ====
import proofs.«429206_j20933670601086_3_alg».proof.Proof.Gen.Kernel.Skeleton
import Idealize.ShloMosaic.Lib.Pipeline.FrameBody

set_option maxRecDepth 16384

noncomputable section

namespace Cert.Kernel.R0

open Idealize.ShloMosaic Idealize.ShloMosaic.TcCoe Idealize.ShloMosaic.Tactic

variable {F : FTy → Type} [FloatOps F]

open Cert.Kernel Cert.Kernel.Gen

abbrev rAwL : Rect S256x2048 := Rect.unit (s := S256x2048) ![0, 0] S256x1024.size inb_S256x2048_S256x1024_0_0
abbrev rAwR : Rect S256x2048 := Rect.unit (s := S256x2048) ![0, 1024] S256x1024.size inb_S256x2048_S256x1024_0_1024
abbrev rCwL : Rect S1024x2048 := Rect.unit (s := S1024x2048) ![0, 0] S1024x1024.size inb_S1024x2048_S1024x1024_0_0
abbrev rCwR : Rect S1024x2048 := Rect.unit (s := S1024x2048) ![0, 1024] S1024x1024.size inb_S1024x2048_S1024x1024_0_1024
abbrev rG0 : Rect S3072x1024 := Rect.unit (s := S3072x1024) ![0, 0] S768x1024.size inb_S3072x1024_S768x1024_0_0
abbrev rG1 : Rect S3072x1024 := Rect.unit (s := S3072x1024) ![768, 0] S768x1024.size inb_S3072x1024_S768x1024_768_0
abbrev rG2 : Rect S3072x1024 := Rect.unit (s := S3072x1024) ![1536, 0] S768x1024.size inb_S3072x1024_S768x1024_1536_0
abbrev rG3 : Rect S3072x1024 := Rect.unit (s := S3072x1024) ![2304, 0] S768x1024.size inb_S3072x1024_S768x1024_2304_0

section Point

variable (e h : Vec F S1x1024 .f32) (enc : Vec F S256x1024 .f32) (aw : Vec F S256x2048 .f32) (ab : Vec F S1x256 .f32)

/-- The scores of the point's 256 encoder rows. -/
def sTile : Vec F S1x256 .f32 := k0_pay21 e h (View.ld aw rAwL) (View.ld aw rAwR) ab
/-- The running maximum after the point, from the one before. -/
def mNew (m : Vec F S1x1 .f32) : Vec F S1x1 .f32 := k0_pay4 (k0_pay22 e h (View.ld aw rAwL) (View.ld aw rAwR) ab m)
/-- The factor that brings the old denominator and weighted sum to the new maximum. -/
def rescale (m : Vec F S1x1 .f32) : Vec F S1x1 .f32 := k0_pay23 e h (View.ld aw rAwL) (View.ld aw rAwR) ab m m
/-- The point's scores minus the updated maximum. -/
def shifted (m : Vec F S1x1 .f32) : Vec F S1x256 .f32 := k0_pay24 e h (View.ld aw rAwL) (View.ld aw rAwR) ab m
/-- The running denominator after the point. -/
def lNew (m l : Vec F S1x1 .f32) : Vec F S1x1 .f32 := k0_pay2 (rescale e h aw ab m) (shifted e h aw ab m) l
/-- The running weighted sum of encoder rows after the point. -/
def accNew (m : Vec F S1x1 .f32) (acc : Vec F S1x1024 .f32) : Vec F S1x1024 .f32 :=
  k0_pay3 (rescale e h aw ab m) (shifted e h aw ab m) enc acc

end Point

section Last

variable (e h : Vec F S1x1024 .f32) (cw : Vec F S1024x2048 .f32) (cb : Vec F S1x1024 .f32)
  (wih whh : Vec F S3072x1024 .f32) (bih bhh : Vec F S1x3072 .f32)

/-- The attention weights, from the final denominator, all the scores and the final maximum. -/
def attnwOut (l : Vec F S1x1 .f32) (sc : Vec F S1x2048 .f32) (m : Vec F S1x1 .f32) : Vec F S1x2048 .f32 := k0_pay7 l sc m
/-- The combine layer's output, which the GRU cell takes as its input. -/
def xcombOut (l : Vec F S1x1 .f32) (acc : Vec F S1x1024 .f32) : FVec F S1x1024 .bf16 :=
  k0_pay8 (k0_pay18 e) l acc (View.ld cw rCwL) (View.ld cw rCwR) cb
/-- The new hidden state the GRU cell returns. -/
def hnewOut (l : Vec F S1x1 .f32) (acc : Vec F S1x1024 .f32) : Vec F S1x1024 .f32 :=
  k0_pay5 (k0_pay17 h)
    (k0_pay11 (xcombOut e cw cb l acc) (k0_pay10 (View.ld wih rG0)) (View.ld wih rG1) (View.ld wih rG2) (View.ld wih rG3) bih)
    (k0_pay12 (k0_pay19 h) (k0_pay9 (View.ld whh rG0)) (View.ld whh rG1) (View.ld whh rG2) (View.ld whh rG3) bhh)
    (k0_pay13 (xcombOut e cw cb l acc) (k0_pay10 (View.ld wih rG0)) (View.ld wih rG1) (View.ld wih rG2) (View.ld wih rG3) bih)

end Last

end Cert.Kernel.R0

end
-- ==== Proof.BPieces0.lean ====
import proofs.«429206_j20933670601086_3_alg».proof.Proof.BOuts0
import proofs.«429206_j20933670601086_3_alg».proof.Proof.BSteps0
import Idealize.ShloMosaic.Lib.ValueIdx
import Idealize.ShloMosaic.Lib.WritesUnit
import Idealize.ShloMosaic.Lib.Pipeline.Value

set_option maxRecDepth 16384

noncomputable section

namespace Cert.Kernel.R0

open Idealize.ShloMosaic Idealize.ShloMosaic.TcCoe Idealize.ShloMosaic.Tactic

variable {F : FTy → Type} [FloatOps F]

open Cert.Kernel Cert.Kernel.Gen Idealize.ShloMosaic.ValueIdx

variable (V : Entry F) (c : Dev nD)

abbrev bE (t : Fin cfg0.N) : Vec F S1x1024 .f32 := iblk0 V c 0 t
abbrev bH (t : Fin cfg0.N) : Vec F S1x1024 .f32 := iblk0 V c 1 t
abbrev bEnc (t : Fin cfg0.N) : Vec F S256x1024 .f32 := iblk0 V c 2 t
abbrev bAw (t : Fin cfg0.N) : Vec F S256x2048 .f32 := iblk0 V c 3 t
abbrev bAb (t : Fin cfg0.N) : Vec F S1x256 .f32 := iblk0 V c 4 t
abbrev bCw (t : Fin cfg0.N) : Vec F S1024x2048 .f32 := iblk0 V c 5 t
abbrev bCb (t : Fin cfg0.N) : Vec F S1x1024 .f32 := iblk0 V c 6 t
abbrev bWih (t : Fin cfg0.N) : Vec F S3072x1024 .f32 := iblk0 V c 7 t
abbrev bWhh (t : Fin cfg0.N) : Vec F S3072x1024 .f32 := iblk0 V c 8 t
abbrev bBih (t : Fin cfg0.N) : Vec F S1x3072 .f32 := iblk0 V c 9 t
abbrev bBhh (t : Fin cfg0.N) : Vec F S1x3072 .f32 := iblk0 V c 10 t

namespace Pieces

theorem zeros2 : (![0, 0] : Fin 2 → Nat) = fun _ => 0 := funext fun a => by fin_cases a <;> rfl

section Whole

variable {d : Fin 2 → ℕ} {e : EltTy} (inb : ∀ a, (![0, 0] : Fin 2 → ℕ) a + d a ≤ d a)

/-- Through the whole rectangle of a rank-2 shape a load reads the contents, and a store made last leaves its payload. -/
theorem ld0 (X : Shape.Idx ⟨2, d⟩ → Elt F e) : View.ld X (Rect.unit (s := ⟨2, d⟩) ![0, 0] d inb) = X :=
  View.ld_unit_zero zeros2 inb X
theorem canon0 (w : Shape.Idx ⟨2, d⟩ → Elt F e) (L : List (View.Piece (Elt F) ⟨2, d⟩ e)) :
    View.canon (⟨Rect.unit (s := ⟨2, d⟩) ![0, 0] d inb, w⟩ :: L) = w :=
  View.canon_cons_unit_zero zeros2 inb w L

end Whole

section Point

variable (t : Fin cfg0.N)

/-- A whole load reads its buffer's contents, or the payload of the whole store before it in the same run. -/
theorem first_state (h0 : t.val = 0) :
    (over14 (runA V c t h0).1, over15 (runA V c t h0).2.1, over16 (runA V c t h0).2.2.1)
      = (mNew (bE V c t) (bH V c t) (bAw V c t) (bAb V c t) k0_pay14, lNew (bE V c t) (bH V c t) (bAw V c t) (bAb V c t) k0_pay14 k0_pay15, accNew (bE V c t) (bH V c t) (bEnc V c t) (bAw V c t) (bAb V c t) k0_pay14 k0_pay16) := by
  unfold over14 over15 over16
  simp only [View.read_writes_junk_eq_canon]
  unfold runA kernelRun0_A
  simp only [↓View.readAt_eq_ld, ↓Memref.IsWhole.read_unread]
  sl_unfold_run_names
  unfold mNew lNew accNew rescale shifted
  simp only [canon0, ld0, ↓View.readAt_eq_ld, ↓Memref.IsWhole.read_unread, View.readCov_cons_toLoadRect]

theorem first_scores (h0 : t.val = 0) :
    (runA V c t h0).2.2.2.1 = [⟨Rect.unit (s := S1x2048) (k0_off1 (grid0.coords t)) S1x256.size (k0_off1_inb _), sTile (bE V c t) (bH V c t) (bAw V c t) (bAb V c t)⟩] := by
  unfold runA kernelRun0_A
  dsimp only
  unfold sTile
  simp only [ld0, ↓View.readAt_eq_ld, ↓Memref.IsWhole.read_unread]

variable (h0 : t.val ≠ 0) (xs14 xs15 : Vec F S1x1 .f32) (xs16 : Vec F S1x1024 .f32)

theorem mid_state (h7 : t.val ≠ 7) :
    (over14 (runB V c t h0 h7 xs14 xs15 xs16).1, over15 (runB V c t h0 h7 xs14 xs15 xs16).2.1, over16 (runB V c t h0 h7 xs14 xs15 xs16).2.2.1)
      = (mNew (bE V c t) (bH V c t) (bAw V c t) (bAb V c t) xs14, lNew (bE V c t) (bH V c t) (bAw V c t) (bAb V c t) xs14 xs15, accNew (bE V c t) (bH V c t) (bEnc V c t) (bAw V c t) (bAb V c t) xs14 xs16) := by
  unfold over14 over15 over16
  simp only [View.read_writes_junk_eq_canon]
  unfold runB kernelRun0_B
  simp only [↓View.readAt_eq_ld, ↓Memref.IsWhole.read_unread]
  sl_unfold_run_names
  unfold mNew lNew accNew rescale shifted
  simp only [canon0, ld0, ↓View.readAt_eq_ld, ↓Memref.IsWhole.read_unread]

theorem mid_scores (h7 : t.val ≠ 7) :
    (runB V c t h0 h7 xs14 xs15 xs16).2.2.2.1 = [⟨Rect.unit (s := S1x2048) (k0_off1 (grid0.coords t)) S1x256.size (k0_off1_inb _), sTile (bE V c t) (bH V c t) (bAw V c t) (bAb V c t)⟩] := by
  unfold runB kernelRun0_B
  dsimp only
  unfold sTile
  simp only [ld0, ↓View.readAt_eq_ld, ↓Memref.IsWhole.read_unread]

end Point

section Tile

variable (v : View sig .tc .vmem S1x2048 .f32) (f : v.ty.Contents (Elt F)) (off : Fin 2 → Nat)
  (inb : ∀ a, off a + S1x256.size a ≤ S1x2048.size a) (w : Vec F S1x256 .f32) (o : ℕ)

theorem read_tile_in (h0 : off 0 = 0) (h1 : off 1 = o) (j : Fin 2048) (q : Fin 256) (hj : j.val = o + q.val) :
    v.read (Elt F) (v.writes (Elt F) f [⟨Rect.unit (s := S1x2048) off S1x256.size inb, w⟩]) (ix2 0 j) = w (ix2 0 q) :=
  View.read_writes_cons_unit_of_mem v f inb w [] (ix2 0 j) (ix2 0 q) rfl
    (Fin.forall_fin_two.mpr ⟨by show 0 = off 0 + 0; omega, by show j.val = off 1 + q.val; omega⟩)

theorem read_tile_out (h1 : off 1 = o) (j : Fin 2048) (hj : j.val < o ∨ o + 256 ≤ j.val) :
    v.read (Elt F) (v.writes (Elt F) f [⟨Rect.unit (s := S1x2048) off S1x256.size inb, w⟩]) (ix2 0 j) = v.read (Elt F) f (ix2 0 j) :=
  View.read_writes_cons_unit_of_not_mem v f inb w [] (ix2 0 j) rfl 1 (by show j.val < off 1 ∨ off 1 + 256 ≤ j.val; omega)

end Tile

theorem off_row : ∀ t : Fin cfg0.N, k0_off1 (grid0.coords t) 0 = 0 :=
  (by decide +kernel : ∀ t : Fin grid0.N, k0_off1 (grid0.coords t) 0 = 0)
theorem off_col : ∀ t : Fin cfg0.N, k0_off1 (grid0.coords t) 1 = 256 * t.val :=
  (by decide +kernel : ∀ t : Fin grid0.N, k0_off1 (grid0.coords t) 1 = 256 * t.val)

theorem row_after_last_tile (v : View sig .tc .vmem S1x2048 .f32) (f : v.ty.Contents (Elt F)) (xs : Vec F S1x2048 .f32)
    (hf : v.read (Elt F) f = xs) (off : Fin 2 → Nat) (inb : ∀ a, off a + S1x256.size a ≤ S1x2048.size a) (w : Vec F S1x256 .f32)
    (h0 : off 0 = 0) (h1 : off 1 = 1792) :
    v.read (Elt F) (v.writes (Elt F) f [⟨Rect.unit (s := S1x2048) off S1x256.size inb, w⟩])
      = fun j => if h : 1792 ≤ (j 1).val then w (ix2 0 ⟨(j 1).val - 1792, by have h2 : (j 1).val < 2048 := (j 1).isLt; omega⟩) else xs j := by
  funext j
  obtain ⟨a, b, rfl⟩ : ∃ (a : Fin 1) (b : Fin 2048), j = ix2 a b := ⟨j 0, j 1, eq_ix2 j⟩
  obtain rfl : a = 0 := Subsingleton.elim _ _
  show _ = if h : 1792 ≤ b.val then w (ix2 0 ⟨b.val - 1792, _⟩) else xs (ix2 0 b)
  by_cases h : 1792 ≤ b.val
  · rw [dif_pos h]
    exact read_tile_in _ _ _ _ _ 1792 h0 h1 b ⟨b.val - 1792, by have := b.isLt; omega⟩ (by show b.val = 1792 + (b.val - 1792); omega)
  · rw [dif_neg h, read_tile_out _ _ _ _ _ 1792 h1 b (by omega), hf]

end Pieces

theorem mla0_zero (hn : 0 < cfg0.N) :
    mla0 V c 0 hn = (mNew (bE V c ⟨0, hn⟩) (bH V c ⟨0, hn⟩) (bAw V c ⟨0, hn⟩) (bAb V c ⟨0, hn⟩) k0_pay14,
      lNew (bE V c ⟨0, hn⟩) (bH V c ⟨0, hn⟩) (bAw V c ⟨0, hn⟩) (bAb V c ⟨0, hn⟩) k0_pay14 k0_pay15,
      accNew (bE V c ⟨0, hn⟩) (bH V c ⟨0, hn⟩) (bEnc V c ⟨0, hn⟩) (bAw V c ⟨0, hn⟩) (bAb V c ⟨0, hn⟩) k0_pay14 k0_pay16) := by
  unfold mla0
  exact Pieces.first_state V c ⟨0, hn⟩ rfl

theorem mla0_succ (n : ℕ) (hn : n + 1 < cfg0.N) (h7 : n + 1 ≠ 7) :
    mla0 V c (n + 1) hn = (mNew (bE V c ⟨n + 1, hn⟩) (bH V c ⟨n + 1, hn⟩) (bAw V c ⟨n + 1, hn⟩) (bAb V c ⟨n + 1, hn⟩) (mla0 V c n (Nat.lt_of_succ_lt hn)).1,
      lNew (bE V c ⟨n + 1, hn⟩) (bH V c ⟨n + 1, hn⟩) (bAw V c ⟨n + 1, hn⟩) (bAb V c ⟨n + 1, hn⟩) (mla0 V c n (Nat.lt_of_succ_lt hn)).1 (mla0 V c n (Nat.lt_of_succ_lt hn)).2.1,
      accNew (bE V c ⟨n + 1, hn⟩) (bH V c ⟨n + 1, hn⟩) (bEnc V c ⟨n + 1, hn⟩) (bAw V c ⟨n + 1, hn⟩) (bAb V c ⟨n + 1, hn⟩) (mla0 V c n (Nat.lt_of_succ_lt hn)).1 (mla0 V c n (Nat.lt_of_succ_lt hn)).2.2) := by
  rw [mla0, dif_neg h7]
  exact Pieces.mid_state V c ⟨n + 1, hn⟩ (Nat.succ_ne_zero n) _ _ _ h7

theorem sc17_zero_tile (d : Vec F S1x2048 .f32) (hn : 0 < cfg0.N) (q : Fin 256) :
    sc17 V c d 0 hn (ix2 0 ⟨q.val, by omega⟩) = sTile (bE V c ⟨0, hn⟩) (bH V c ⟨0, hn⟩) (bAw V c ⟨0, hn⟩) (bAb V c ⟨0, hn⟩) (ix2 0 q) := by
  rw [sc17, Pieces.first_scores]; unfold onto17
  exact Pieces.read_tile_in _ _ _ _ _ 0 (Pieces.off_row _) (Pieces.off_col _) _ q (by simp)
theorem sc17_succ_tile (d : Vec F S1x2048 .f32) (n : ℕ) (hn : n + 1 < cfg0.N) (h7 : n + 1 ≠ 7) (q : Fin 256) :
    sc17 V c d (n + 1) hn (ix2 0 ⟨256 * (n + 1) + q.val, by have : cfg0.N = 8 := N_0; omega⟩) = sTile (bE V c ⟨n + 1, hn⟩) (bH V c ⟨n + 1, hn⟩) (bAw V c ⟨n + 1, hn⟩) (bAb V c ⟨n + 1, hn⟩) (ix2 0 q) := by
  rw [sc17, dif_neg h7, Pieces.mid_scores]; unfold onto17
  exact Pieces.read_tile_in _ _ _ _ _ (256 * (n + 1)) (Pieces.off_row _) (Pieces.off_col _) _ q rfl
theorem sc17_succ_keep (d : Vec F S1x2048 .f32) (n : ℕ) (hn : n + 1 < cfg0.N) (h7 : n + 1 ≠ 7) (j : Fin 2048)
    (hj : j.val < 256 * (n + 1) ∨ 256 * (n + 2) ≤ j.val) :
    sc17 V c d (n + 1) hn (ix2 0 j) = sc17 V c d n (Nat.lt_of_succ_lt hn) (ix2 0 j) := by
  rw [sc17, dif_neg h7, Pieces.mid_scores]; unfold onto17
  rw [Pieces.read_tile_out _ _ _ _ _ (256 * (n + 1)) (Pieces.off_col _) j (by omega), (Memref.isWhole_whole _ : scM17.IsWhole).read_unread]

def lastScores (xs : Vec F S1x2048 .f32) : Vec F S1x2048 .f32 := fun j =>
  if h : 1792 ≤ (j 1).val then sTile (bE V c tLast) (bH V c tLast) (bAw V c tLast) (bAb V c tLast) (ix2 0 ⟨(j 1).val - 1792, by have h2 : (j 1).val < 2048 := (j 1).isLt; omega⟩) else xs j

/-- The last point loads the state after storing it, so the outputs are computed from the updated state. -/
theorem out12_eq (xs17 : Vec F S1x2048 .f32) :
    out12 V c xs17 = hnewOut (bE V c tLast) (bH V c tLast) (bCw V c tLast) (bCb V c tLast) (bWih V c tLast) (bWhh V c tLast) (bBih V c tLast) (bBhh V c tLast)
      (lNew (bE V c tLast) (bH V c tLast) (bAw V c tLast) (bAb V c tLast) (mla0 V c 6 six_lt).1 (mla0 V c 6 six_lt).2.1)
      (accNew (bE V c tLast) (bH V c tLast) (bEnc V c tLast) (bAw V c tLast) (bAb V c tLast) (mla0 V c 6 six_lt).1 (mla0 V c 6 six_lt).2.2) := by
  unfold out12 over12
  rw [View.read_writes_junk_eq_canon]
  unfold runLast runC kernelRun0_C
  simp only [↓View.readAt_eq_ld, ↓Memref.IsWhole.read_unread]
  sl_unfold_run_names
  unfold hnewOut xcombOut lNew accNew rescale shifted
  simp only [Pieces.canon0, Pieces.ld0, ↓View.readAt_eq_ld, ↓Memref.IsWhole.read_unread, View.readCov_cons_toLoadRect]

theorem out13_eq (xs17 : Vec F S1x2048 .f32) :
    out13 V c xs17 = attnwOut (lNew (bE V c tLast) (bH V c tLast) (bAw V c tLast) (bAb V c tLast) (mla0 V c 6 six_lt).1 (mla0 V c 6 six_lt).2.1)
      (lastScores V c xs17) (mNew (bE V c tLast) (bH V c tLast) (bAw V c tLast) (bAb V c tLast) (mla0 V c 6 six_lt).1) := by
  unfold out13 over13
  rw [View.read_writes_junk_eq_canon]
  unfold runLast runC kernelRun0_C
  simp only [↓View.readAt_eq_ld, ↓Memref.IsWhole.read_unread]
  sl_unfold_run_names
  unfold lastScores attnwOut lNew mNew rescale shifted sTile
  simp only [Pieces.canon0, Pieces.ld0, ↓View.readAt_eq_ld, ↓Memref.IsWhole.read_unread, View.readCov_cons_toLoadRect]
  rw [Pieces.row_after_last_tile _ _ xs17 ((Memref.isWhole_whole _ : scM17.IsWhole).read_unread xs17) _ _ _ (Pieces.off_row tLast) (Pieces.off_col tLast)]

theorem out12_indep (xs xs' : Vec F S1x2048 .f32) : out12 V c xs = out12 V c xs' := by
  rw [out12_eq, out12_eq]

theorem out13_congr (xs xs' : Vec F S1x2048 .f32) (h : ∀ j : Fin 2048, j.val < 1792 → xs (ix2 0 j) = xs' (ix2 0 j)) :
    out13 V c xs = out13 V c xs' := by
  rw [out13_eq, out13_eq]
  have e : lastScores V c xs = lastScores V c xs' := by
    funext j
    obtain ⟨a, b, rfl⟩ : ∃ (a : Fin 1) (b : Fin 2048), j = ix2 a b := ⟨j 0, j 1, eq_ix2 j⟩
    obtain rfl : a = 0 := Subsingleton.elim _ _
    unfold lastScores
    by_cases hb : 1792 ≤ ((ix2 (0 : Fin 1) b : S1x2048.Idx) 1).val
    · rw [dif_pos hb, dif_pos hb]
    · rw [dif_neg hb, dif_neg hb]; exact h b (by have : ((ix2 (0 : Fin 1) b : S1x2048.Idx) 1).val = b.val := rfl; omega)
  rw [e]

theorem sc17_agree_upto (d d' : Vec F S1x2048 .f32) :
    ∀ (n : ℕ) (hn : n < cfg0.N), n ≤ 6 → ∀ j : Fin 2048, j.val < 256 * (n + 1) →
      sc17 V c d n hn (ix2 0 j) = sc17 V c d' n hn (ix2 0 j)
  | 0, hn, _, j, hj =>
    (sc17_zero_tile V c d hn ⟨j.val, by omega⟩).trans (sc17_zero_tile V c d' hn ⟨j.val, by omega⟩).symm
  | n + 1, hn, h6, j, hj => by
    have h7 : n + 1 ≠ 7 := by omega
    by_cases hlt : j.val < 256 * (n + 1)
    · rw [sc17_succ_keep V c d n hn h7 j (Or.inl hlt), sc17_succ_keep V c d' n hn h7 j (Or.inl hlt)]
      exact sc17_agree_upto d d' n (Nat.lt_of_succ_lt hn) (by omega) j hlt
    · obtain ⟨q, hq, rfl⟩ : ∃ (q : Fin 256) (hq : 256 * (n + 1) + q.val < 2048), j = ⟨256 * (n + 1) + q.val, hq⟩ :=
        ⟨⟨j.val - 256 * (n + 1), by omega⟩,
          by have := j.isLt; show 256 * (n + 1) + (j.val - 256 * (n + 1)) < 2048; omega,
          Fin.ext (by show j.val = 256 * (n + 1) + (j.val - 256 * (n + 1)); omega)⟩
      exact (sc17_succ_tile V c d n hn h7 q).trans (sc17_succ_tile V c d' n hn h7 q).symm

theorem sc17_agree (d d' : Vec F S1x2048 .f32) (j : Fin 2048) (hj : j.val < 1792) :
    sc17 V c d 6 six_lt (ix2 0 j) = sc17 V c d' 6 six_lt (ix2 0 j) :=
  sc17_agree_upto V c d d' 6 six_lt (le_refl 6) j (by omega)

end Cert.Kernel.R0

end
-- ==== Proof.BFrame0.lean ====
import proofs.«429206_j20933670601086_3_alg».proof.Proof.Gen.Kernel.Launch
import proofs.«429206_j20933670601086_3_alg».proof.Proof.Gen.Kernel.Skeleton
import proofs.«429206_j20933670601086_3_alg».proof.Proof.Gen.Kernel.Points
import Idealize.ShloMosaic.Lib.Pipeline.FrameBody
import Idealize.ShloMosaic.Lib.Ring
import Idealize.ShloMosaic.Lib.Tactic
import proofs.«429206_j20933670601086_3_alg».proof.Proof.BOuts0
import proofs.«429206_j20933670601086_3_alg».proof.Proof.BPieces0

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

-- A buffer of the core, whole at some contents.
def anyBuf (c : Dev nD) (b : Ref sig .tc) : sProp 𝕄 := iprop(∃ f : Buf (Elt F) ((c : Thread nD τ).loc b), ((c : Thread nD τ).loc b) ↦{fullShare} f)

def rest0 (c : Dev nD) : sProp 𝕄 :=
  iprop(anyBuf (F := F) c cc1_stg0_0 ∗ anyBuf (F := F) c cc1_stg1_0 ∗ anyBuf (F := F) c cc1_stg1_1 ∗ anyBuf (F := F) c cc1_stg2_0 ∗ anyBuf (F := F) c cc1_stg2_1 ∗ anyBuf (F := F) c cc1_stg3_0 ∗ anyBuf (F := F) c cc1_stg3_1)

theorem PhiA0_eq (c : Dev nD) :
    (Pipeline.ΦA spec0 c : sProp 𝕄)
      = iprop(iprop((∃ d, owns (c : Thread nD τ) scM14 fullShare d) ∗ (∃ d, owns (c : Thread nD τ) scM15 fullShare d) ∗ (∃ d, owns (c : Thread nD τ) scM16 fullShare d) ∗ (∃ d, owns (c : Thread nD τ) scM17 fullShare d) ∗ rest0 (F := F) c) ∗ (∃ r, prngReg c r)) := by
  unfold Pipeline.ΦA rest0 anyBuf; rw [scopedRest0_eq]; simp only [scM14, scM15, scM16, scM17, owns_whole]; try rfl

variable (V : Entry F) (c : Dev nD)

-- Between two points that are not the ends: the three small scratch buffers at what point `n` left, the scores at its tiles over what they held.
def PhiMid (n : ℕ) (hn : n < cfg0.N) : sProp 𝕄 :=
  iprop(iprop(owns (c : Thread nD τ) scM14 fullShare (mla0 V c n hn).1 ∗ owns (c : Thread nD τ) scM15 fullShare (mla0 V c n hn).2.1 ∗ owns (c : Thread nD τ) scM16 fullShare (mla0 V c n hn).2.2 ∗ (∃ d, owns (c : Thread nD τ) scM17 fullShare (sc17 V c d n hn)) ∗ rest0 (F := F) c) ∗ (∃ r, prngReg c r))

def PhiS : (n : ℕ) → n ≤ cfg0.N → sProp 𝕄
  | 0, _ => Pipeline.ΦA spec0 c
  | n + 1, hn => if n = 7 then Pipeline.ΦA spec0 c else PhiMid V c n hn

theorem PhiS_zero (n : ℕ) (h : n ≤ cfg0.N) (hz : n = 0) : PhiS V c n h = Pipeline.ΦA spec0 c := by
  subst hz; rfl
theorem PhiS_succ (n : ℕ) (hn : n < cfg0.N) (h7 : n ≠ 7) : PhiS V c (n + 1) hn = PhiMid V c n hn := by
  unfold PhiS; exact if_neg h7
theorem PhiS_last (n : ℕ) (hn : n < cfg0.N) (h7 : n = 7) : PhiS V c (n + 1) hn = Pipeline.ΦA spec0 c := by
  unfold PhiS; exact if_pos h7
theorem PhiS_pos (n : ℕ) (h : n ≤ cfg0.N) (hz : n ≠ 0) (h8 : n ≠ 8) : PhiS V c n h = PhiMid V c (n - 1) (by omega) := by
  cases n with
  | zero => exact absurd rfl hz
  | succ n => exact PhiS_succ V c n h (by omega)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out12 V c d17
    | ⟨12, _⟩ => out13 V c (sc17 V c d17 6 six_lt)
  Φ t := PhiS V c t.val (Nat.le_of_lt_succ t.isLt)
  q _ := fullShare
  owed _ := 0

theorem A_eq0 (w : Fin cfg0.W) : (dat0 V c).A w = V c (Pipeline.arrRef spec0 w) := rfl
theorem q_eq0 (w : Fin cfg0.W) : (dat0 V c).q w = fullShare := rfl
theorem owed_eq0 (t : Fin (cfg0.N + 1)) : (dat0 V c).owed t = 0 := rfl
theorem recorded_eq0 (t : Fin (cfg0.N + 1)) : (dat0 V c).recorded t = Set.univ := rfl
theorem PhiS_castSucc (t : Fin cfg0.N) : (dat0 V c).Φ t.castSucc = PhiS V c t.val (Nat.le_of_lt t.isLt) := rfl

theorem after0_11_last : (dat0 V c).after 11 tLast = out12 V c d17 := by dsimp only [dat0]
theorem after0_12_last : (dat0 V c).after 12 tLast = out13 V c (sc17 V c d17 6 six_lt) := by dsimp only [dat0]

theorem before0_in : ∀ w : Fin cfg0.W, w.val < 11 → ∀ t d, (dat0 V c).before w t d = (dat0 V c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d | ⟨8, _⟩, _, t, d | ⟨9, _⟩, _, t, d | ⟨10, _⟩, _, t, d => (dat0 V c).before_in_eq_fetched _ rfl (fun _ => rfl) (fun _ _ _ => rfl) (fun _ => rfl) t d
  | ⟨n + 11, _⟩, h, _, _ => absurd h (Nat.not_lt.mpr (Nat.le_add_left 11 n))

abbrev prev (t : Fin cfg0.N) := mla0 V c (t.val - 1) (Nat.lt_of_le_of_lt (Nat.sub_le _ _) t.isLt)
abbrev runMid (t : Fin cfg0.N) (h0 : t.val ≠ 0) (h7 : t.val ≠ 7) := runB V c t h0 h7 (prev V c t).1 (prev V c t).2.1 (prev V c t).2.2

theorem mla0_A (t : Fin cfg0.N) (h0 : t.val = 0) :
    mla0 V c t.val t.isLt = (over14 (runA V c t h0).1, over15 (runA V c t h0).2.1, over16 (runA V c t h0).2.2.1) := by
  obtain ⟨_ | n, hn⟩ := t
  exacts [rfl, absurd h0 (Nat.succ_ne_zero n)]

theorem sc17_A (d : Vec F S1x2048 .f32) (t : Fin cfg0.N) (h0 : t.val = 0) :
    sc17 V c d t.val t.isLt = onto17 d (runA V c t h0).2.2.2.1 := by
  obtain ⟨_ | n, hn⟩ := t
  exacts [rfl, absurd h0 (Nat.succ_ne_zero n)]

theorem mla0_B (t : Fin cfg0.N) (h0 : t.val ≠ 0) (h7 : t.val ≠ 7) :
    mla0 V c t.val t.isLt = (over14 (runMid V c t h0 h7).1, over15 (runMid V c t h0 h7).2.1, over16 (runMid V c t h0 h7).2.2.1) := by
  obtain ⟨_ | n, hn⟩ := t
  exacts [absurd rfl h0, (dif_neg h7).trans rfl]

theorem sc17_B (d : Vec F S1x2048 .f32) (t : Fin cfg0.N) (h0 : t.val ≠ 0) (h7 : t.val ≠ 7) :
    sc17 V c d t.val t.isLt = onto17 (sc17 V c d (t.val - 1) (Nat.lt_of_le_of_lt (Nat.sub_le _ _) t.isLt)) (runMid V c t h0 h7).2.2.2.1 := by
  obtain ⟨_ | n, hn⟩ := t
  exacts [absurd rfl h0, (dif_neg h7).trans rfl]

-- The last point's pieces cover each output whole, so what they leave does not depend on the view, on what the buffer held, or on the scores at entry.
theorem out12_of_run (e : Vec F S1x2048 .f32) (v : View sig .tc .vmem S1x1024 .f32) (f : v.ty.Contents (Elt F)) :
    v.read (Elt F) (v.writes (Elt F) f (runLast V c (sc17 V c e 6 six_lt)).1) = out12 V c d17 := by
  rw [out12_indep V c d17 (sc17 V c e 6 six_lt)]; unfold out12 over12
  exact View.read_writes_of_cover _ _ _ _ _ (View.cover_of_tiledL _ S1x1024.size (by sl_kernel_rfl))

theorem out13_of_run (e : Vec F S1x2048 .f32) (v : View sig .tc .vmem S1x2048 .f32) (f : v.ty.Contents (Elt F)) :
    v.read (Elt F) (v.writes (Elt F) f (runLast V c (sc17 V c e 6 six_lt)).2.1) = out13 V c (sc17 V c d17 6 six_lt) := by
  rw [out13_congr V c (sc17 V c d17 6 six_lt) (sc17 V c e 6 six_lt) (fun j hj => sc17_agree V c d17 e j hj)]; unfold out13 over13
  exact View.read_writes_of_cover _ _ _ _ _ (View.cover_of_tiledL _ S1x2048.size (by sl_kernel_rfl))

set_option maxHeartbeats 4800000 in
-- The position of the point says which case the body is in: first, middle or last.
theorem body_obligation0 : BodyObligation (dat0 (F := F) V c) (defs₀ (F := F)) Variants.none () Set.univ := fun t => by
  rw [bigSep_W0, bigSep_W0]
  show _ ⊢ wp frame (wpE (defs₀ (F := F)) Variants.none c none) Set.univ (bodyAt0 t) _
  unfold bodyAt0
  rw [liveAt0_0 t, show (dat0 V c).owesAt () t.succ = (dat0 V c).owesAt () t.castSucc from rfl,
    show (dat0 V c).Φ t.succ = PhiS V c (t.val + 1) t.isLt from rfl, PhiS_castSucc V c t]
  simp only [show ∀ t d, (dat0 V c).before 0 t d = iblk0 V c 0 t from before0_in V c 0 (by decide),
    show ∀ t d, (dat0 V c).before 1 t d = iblk0 V c 1 t from before0_in V c 1 (by decide),
    show ∀ t d, (dat0 V c).before 2 t d = iblk0 V c 2 t from before0_in V c 2 (by decide),
    show ∀ t d, (dat0 V c).before 3 t d = iblk0 V c 3 t from before0_in V c 3 (by decide),
    show ∀ t d, (dat0 V c).before 4 t d = iblk0 V c 4 t from before0_in V c 4 (by decide),
    show ∀ t d, (dat0 V c).before 5 t d = iblk0 V c 5 t from before0_in V c 5 (by decide),
    show ∀ t d, (dat0 V c).before 6 t d = iblk0 V c 6 t from before0_in V c 6 (by decide),
    show ∀ t d, (dat0 V c).before 7 t d = iblk0 V c 7 t from before0_in V c 7 (by decide),
    show ∀ t d, (dat0 V c).before 8 t d = iblk0 V c 8 t from before0_in V c 8 (by decide),
    show ∀ t d, (dat0 V c).before 9 t d = iblk0 V c 9 t from before0_in V c 9 (by decide),
    show ∀ t d, (dat0 V c).before 10 t d = iblk0 V c 10 t from before0_in V c 10 (by decide),
    show (dat0 V c).after 0 t = iblk0 V c 0 t from rfl,
    show (dat0 V c).after 1 t = iblk0 V c 1 t from rfl,
    show (dat0 V c).after 2 t = iblk0 V c 2 t from rfl,
    show (dat0 V c).after 3 t = iblk0 V c 3 t from rfl,
    show (dat0 V c).after 4 t = iblk0 V c 4 t from rfl,
    show (dat0 V c).after 5 t = iblk0 V c 5 t from rfl,
    show (dat0 V c).after 6 t = iblk0 V c 6 t from rfl,
    show (dat0 V c).after 7 t = iblk0 V c 7 t from rfl,
    show (dat0 V c).after 8 t = iblk0 V c 8 t from rfl,
    show (dat0 V c).after 9 t = iblk0 V c 9 t from rfl,
    show (dat0 V c).after 10 t = iblk0 V c 10 t from rfl]
  have hN : t.val < 8 := lt_of_lt_of_eq t.isLt (show cfg0.N = 8 from N_0)
  by_cases h7 : t.val = 7
  · obtain rfl : t = tLast := Fin.ext h7
    simp only [show idle0 11 (grid0.coords tLast) = false from liveAt0_11 tLast (c2_of_last tLast rfl), show idle0 12 (grid0.coords tLast) = false from liveAt0_12 tLast (c2_of_last tLast rfl), after0_11_last, after0_12_last]
    rw [PhiS_last V c tLast.val tLast.isLt rfl, PhiA0_eq, PhiS_pos V c tLast.val _ (by decide) (by decide)]; unfold PhiMid
    iintro ⟨⟨⟨HS14, HS15, HS16, ⟨%e17, HS17⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runLast V c (sc17 V c e17 6 six_lt)).2.2.2.2.2.2 Set.univ _)
    iframe H0 H1 H2 H3 H4 H5 H6 H7 H8 H9 H10 HS14 HS15 HS16 HS17
    isplitl [H11]; · iexists _; iexact H11
    isplitl [H12]; · iexists _; iexact H12
    iintro ⟨H0, H1, H2, H3, H4, H5, H6, H7, H8, H9, H10, ⟨%f12, H11⟩, ⟨%f13, H12⟩, ⟨%f14, HS14⟩, ⟨%f15, HS15⟩, ⟨%f16, HS16⟩, HS17⟩
    iframe Hrest Hg Ho H0 H1 H2 H3 H4 H5 H6 H7 H8 H9 H10
    isplitr [H11 H12]
    · isplitl [HS14]; · iexists _; iapply (owns_intro (c : Thread nD τ) scM14 fullShare _); iexact HS14
      isplitl [HS15]; · iexists _; iapply (owns_intro (c : Thread nD τ) scM15 fullShare _); iexact HS15
      isplitl [HS16]; · iexists _; iapply (owns_intro (c : Thread nD τ) scM16 fullShare _); iexact HS16
      iexists _; iapply (owns_intro (c : Thread nD τ) scM17 fullShare _); iexact HS17
    isplitl [H11]
    · unfold owns; iexists _; isplitr
      swap; · iexact H11
      ipureintro; exact out12_of_run V c e17 _ _
    unfold owns; iexists _; isplitr
    swap; · iexact H12
    ipureintro; exact out13_of_run V c e17 _ _
  · simp only [show idle0 11 (grid0.coords t) = true from idleAt0_11 t (nc2_of_notLast t h7), noFlush0_11 t (nc2_of_notLast t h7), show idle0 12 (grid0.coords t) = true from idleAt0_12 t (nc2_of_notLast t h7), noFlush0_12 t (nc2_of_notLast t h7)]
    rw [PhiS_succ V c t.val t.isLt h7]
    by_cases h0 : t.val = 0 <;> [rw [PhiS_zero V c _ _ h0, PhiA0_eq]; rw [PhiS_pos V c _ _ h0 (by omega)]]
    all_goals
      unfold PhiMid; first | rw [mla0_A V c t h0] | rw [mla0_B V c t h0 h7]
      dsimp only; unfold over14 over15 over16
      iintro ⟨⟨⟨HS14, HS15, HS16, ⟨%e17, HS17⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      first
      | iapply ((runA V c t h0).2.2.2.2 ((dat0 V c).before 11 t d11) ((dat0 V c).before 12 t d12) e17 Set.univ _)
      | iapply ((runMid V c t h0 h7).2.2.2.2 ((dat0 V c).before 11 t d11) ((dat0 V c).before 12 t d12) (sc17 V c e17 (t.val - 1) (Nat.lt_of_le_of_lt (Nat.sub_le _ _) t.isLt)) Set.univ _)
      iframe H0 H1 H2 H3 H4 H5 H6 H7 H8 H9 H10 H11 H12 HS14 HS15 HS16 HS17
      iintro ⟨H0, H1, H2, H3, H4, H5, H6, H7, H8, H9, H10, H11, H12, ⟨%f14, HS14⟩, ⟨%f15, HS15⟩, ⟨%f16, HS16⟩, HS17⟩
      iframe Hrest Hg Ho H0 H1 H2 H3 H4 H5 H6 H7 H8 H9 H10
      isplitr [H11 H12]
      · isplitl [HS14]; · ihave H := (Ring.owns_of_writes_tiledL VS14 S1x1.size) $$ HS14; iapply H; ipureintro; sl_kernel_rfl
        isplitl [HS15]; · ihave H := (Ring.owns_of_writes_tiledL VS15 S1x1.size) $$ HS15; iapply H; ipureintro; sl_kernel_rfl
        isplitl [HS16]; · ihave H := (Ring.owns_of_writes_tiledL VS16 S1x1024.size) $$ HS16; iapply H; ipureintro; sl_kernel_rfl
        iexists e17; first | rw [sc17_A V c e17 t h0] | rw [sc17_B V c e17 t h0 h7]
        unfold onto17; iapply (owns_intro (c : Thread nD τ) scM17 fullShare _); iexact HS17
      isplitl [H11] <;> iexists _ <;> iassumption

theorem hin0 : Pipeline.ΦA spec0 c ⊢ (dat0 V c).Φ 0 := by
  rw [show (dat0 V c).Φ 0 = PhiS V c 0 (Nat.zero_le _) from rfl, PhiS_zero V c 0 _ rfl]

theorem hout0 : (dat0 V c).Φ (Fin.last cfg0.N) ⊢ Pipeline.ΦA spec0 c := by
  rw [show (dat0 V c).Φ (Fin.last cfg0.N) = PhiS V c (7 + 1) seven_lt from rfl, PhiS_last V c 7 seven_lt rfl]

end Cert.Kernel.R0

end
-- ==== Proof.BFrame1.lean ====
import proofs.«429206_j20933670601086_3_alg».proof.Proof.Gen.Kernel.Launch
import proofs.«429206_j20933670601086_3_alg».proof.Proof.Gen.Kernel.Skeleton
import proofs.«429206_j20933670601086_3_alg».proof.Proof.Gen.Kernel.Points
import Idealize.ShloMosaic.Lib.Pipeline.FrameBody
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

open Cert.Kernel Cert.Kernel.Gen

abbrev Entry (F : FTy → Type) : Type := (c : Dev nD) → (b : Ref sig .tc) → Buf (Elt F) ((c : Thread nD τ).loc b)

theorem readAt_whole {κ : Kind} {sp : Space} {S : Shape} {e : EltTy} (v : View sig κ sp S e) (f : v.ty.Contents (Elt F))
    {off : Fin S.rank → Nat} (hz : off = fun _ => 0) (inb : ∀ a, off a + S.size a ≤ S.size a) :
    v.readAt (Elt F) (Rect.unit off S.size inb).toLoadRect f = v.read (Elt F) f := by
  rw [View.readAt_eq_ld, View.ld_unit_zero hz]

theorem read_write_whole {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero hz inb y⟩),
    View.canon_unit_zero hz]

section ArrAt

variable {cfg : Cfg sig Λ₀} {c : Dev nD} (rd : Pipeline.RDat τ (Elt F) Unit ℕ (UR sig nD τ) ℕ cfg c)

-- A property that every value stored into the array has holds, at the end, of every element stored to: whichever point stored it last stored such a value.
theorem arrAt_forall_of_leaves (w : Fin cfg.W)
    (P : ((cfg.win w).arr.view.loc (c.tc : Thread nD τ)).2.ty.Idx → Elt F ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y)
        (_root_.cast (congrArg (Elt F) ((cfg.win w).blk t).view.elt_eq.symm) ((cfg.win w).cut (cfg.grid.coords t) X y))) :
    ∀ (n : Nat) (t : Fin cfg.N) (i : ((cfg.win w).arr.view.loc (c.tc : Thread nD τ)).2.ty.Idx)
      (G : Buf (Elt F) ((cfg.win w).arr.view.loc (c.tc : Thread nD τ))),
      t.val < n → (cfg.win w).flush t = true → i ∈ ((cfg.win w).blk t).view.set → rd.ArrAt w n G → P i (G i)
  | 0, _, _, _, ht, _, _, _ => absurd ht (Nat.not_lt_zero _)
  | n + 1, t, i, G, ht, hf, hi, hG => by
    simp only [Pipeline.RDat.ArrAt] at hG
    by_cases hn : n < cfg.N
    swap
    · rw [dif_neg hn] at hG
      exact arrAt_forall_of_leaves w P hP n t i G (by have := t.isLt; omega) hf hi hG
    rw [dif_pos hn] at hG
    by_cases hfn : (cfg.win w).flush ⟨n, hn⟩ = true
    · rw [if_pos hfn] at hG
      obtain ⟨G₀, X, hG₀, hL, rfl⟩ := hG
      by_cases hin : i ∈ ((cfg.win w).blk ⟨n, hn⟩).view.set
      · obtain ⟨y, -, rfl⟩ := Finset.mem_map.mp hin
        rw [View.write_emb_of_mem _ _ (Finset.mem_univ y)]
        exact hP _ hfn X hL y
      · rw [View.write_of_not_mem _ _ _ (by rwa [View.setOn_univ])]
        have htn : t.val ≠ n := fun e => hin (by have : t = ⟨n, hn⟩ := Fin.ext e; exact this ▸ hi)
        exact arrAt_forall_of_leaves w P hP n t i G₀ (by omega) hf hi hG₀
    · rw [if_neg hfn] at hG
      have htn : t.val ≠ n := fun e => hfn (by have : t = ⟨n, hn⟩ := Fin.ext e; exact this ▸ hf)
      exact arrAt_forall_of_leaves w P hP n t i G (by omega) hf hi hG

end ArrAt

variable (V : Entry F) (c : Dev nD)

def iblk1 (w : Fin cfg1.W) (t : Fin cfg1.N) :
    ((cfg1.win w).xblock (cfg1.grid.coords t)).Idx → Elt F (cfg1.win w).elt :=
  ((cfg1.win w).blk t).view.read (Elt F) (V c (Pipeline.arrRef spec1 w))

def fet1 (w : Fin cfg1.W) (t : Fin cfg1.N) (d : (cfg1.win w).block.Idx → Elt F (cfg1.win w).elt) :
    (cfg1.win w).block.Idx → Elt F (cfg1.win w).elt :=
  (cfg1.win w).fill (cfg1.grid.coords t) d (iblk1 V c w t)

def rdat1 : Pipeline.RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => X = Y
    | ⟨3, _⟩ => ∃ d0 d1 d2, X = k1_pay1 (fet1 V c 0 t d0) (fet1 V c 1 t d1) (fet1 V c 2 t d2)
  Φ _ := Pipeline.ΦA spec1 c
  q _ := fullShare
  owed _ := 0

theorem A_eq1 (w : Fin cfg1.W) : (rdat1 V c).A w = V c (Pipeline.arrRef spec1 w) := rfl
theorem q_eq1 (w : Fin cfg1.W) : (rdat1 V c).q w = fullShare := rfl
theorem owed_eq1 (t : Fin (cfg1.N + 1)) : (rdat1 V c).owed t = 0 := rfl
theorem recorded_eq1 (t : Fin (cfg1.N + 1)) : (rdat1 V c).recorded t = Set.univ := rfl
theorem hin1 : Pipeline.ΦA spec1 c ⊢ (rdat1 V c).Φ 0 := .rfl
theorem hout1 : (rdat1 V c).Φ (Fin.last cfg1.N) ⊢ Pipeline.ΦA spec1 c := .rfl

theorem after1_3 (t : Fin cfg1.N) (Y X) : (rdat1 V c).after 3 t Y X ↔
    ∃ d0 d1 d2, X = k1_pay1 (fet1 V c 0 t d0) (fet1 V c 1 t d1) (fet1 V c 2 t d2) := by dsimp only [rdat1]; exact Iff.rfl

theorem finds1_0 (t : Fin cfg1.N) (Y) (h : (rdat1 V c).Finds 0 t Y) : ∃ d, Y = fet1 V c 0 t d :=
  Pipeline.RDat.finds_in_eq_fetched (rdat1 V c) 0 rfl (fun _ _ _ => rfl) (fun _ _ _ h => h) t Y h
theorem finds1_1 (t : Fin cfg1.N) (Y) (h : (rdat1 V c).Finds 1 t Y) : ∃ d, Y = fet1 V c 1 t d :=
  ((rdat1 V c).finds_of_fetch (fetch1_1 t) Y).mp h
theorem finds1_2 (t : Fin cfg1.N) (Y) (h : (rdat1 V c).Finds 2 t Y) : ∃ d, Y = fet1 V c 2 t d :=
  ((rdat1 V c).finds_of_fetch (fetch1_2 t) Y).mp h

set_option maxHeartbeats 1000000 in
theorem body_obligation1 : (rdat1 (F := F) V c).BodyObligation (defs₀ (F := F)) Variants.none () Set.univ := fun t Y hY => by
  obtain ⟨d0, h0⟩ := finds1_0 V c t (Y 0) (hY 0)
  obtain ⟨d1, h1⟩ := finds1_1 V c t (Y 1) (hY 1)
  obtain ⟨d2, h2⟩ := finds1_2 V c t (Y 2) (hY 2)
  have hz : (![0, 0] : Fin 2 → Nat) = fun _ => 0 := funext fun a => by fin_cases a <;> rfl
  rw [bigSep_W1, bigSep_W1]
  show _ ⊢ wp frame (wpE (defs₀ (F := F)) Variants.none c none) Set.univ (bodyAt1 t) _
  unfold bodyAt1
  rw [show (rdat1 V c).Φ t.succ = (rdat1 V c).Φ t.castSucc from rfl,
    show (rdat1 V c).owesAt () t.succ = (rdat1 V c).owesAt () t.castSucc from rfl]
  simp only [cc1__logits_kernel_eq_skeleton]; unfold cc1__logits_kernel_skel owns
  iintro ⟨HΦ, Ho, ⟨%f0, %hf0, H0⟩, ⟨%f1, %hf1, H1⟩, ⟨%f2, %hf2, H2⟩, ⟨%f3, -, H3⟩⟩
  sl_exec
  sl_step
  iframe HΦ Ho
  isplitl [H0]
  · iexists (Y 0); isplitr; · ipureintro; exact rfl
    iexists f0; iframe H0; ipureintro; exact hf0
  isplitl [H1]
  · iexists (Y 1); isplitr; · ipureintro; exact rfl
    iexists f1; iframe H1; ipureintro; exact hf1
  isplitl [H2]
  · iexists (Y 2); isplitr; · ipureintro; exact rfl
    iexists f2; iframe H2; ipureintro; exact hf2
  iexists (k1_pay1 (Y 0) (Y 1) (Y 2)); isplitr; · ipureintro; exact (after1_3 V c t _ _).mpr ⟨d0, d1, d2, by rw [h0, h1, h2]⟩
  iexists _; iframe H3; ipureintro
  rw [read_write_whole _ _ hz, ← hf0, ← hf1, ← hf2]
  unfold body_obligation1.sl.v0 body_obligation1.sl.v3 body_obligation1.sl.v7
  rw [readAt_whole _ _ hz, readAt_whole _ _ hz, readAt_whole _ _ hz]

theorem lt_extent {ix k d : Nat} {cl : Pipeline.Clip} (h : Pipeline.Clip.Ok ix k d cl) {j : Nat} (hj : j < k) (hd : ix * k + j < d) :
    j < cl.extent k := by
  cases cl with
  | none => exact hj
  | some n => have := h.2.2; show j < n; omega

theorem moved_of_eq {G : Pipeline.Grid} (w : Window sig G) (i : G.Coords) (j : w.block.Idx) (I : w.shape.Idx)
    (h : ∀ a, w.indexMap i a * w.size a + (j a).val = (I a).val) : w.moved i j = true :=
  (w.moved_iff i j).mpr fun a => lt_extent (w.hclip i a) (j a).isLt (lt_of_eq_of_lt (h a) (I a).isLt)

theorem fet1_of_moved (w : Fin cfg1.W) (t : Fin cfg1.N) (d) (j : (cfg1.win w).block.Idx)
    (hm : (cfg1.win w).moved (cfg1.grid.coords t) j = true) :
    fet1 V c w t d j = iblk1 V c w t fun a => ⟨(j a).val, ((cfg1.win w).moved_iff _ j).mp hm a⟩ := by
  unfold fet1 Window.fill; rw [dif_pos hm]

theorem coords1 (t : Fin cfg1.N) : (cfg1.grid.coords t 0).val = t.val := by
  have hN : grid1.N = 25 := N_1
  have ht : t.val < grid1.N := t.isLt
  have hs : grid1.stride 0 = 1 := by decide
  show t.val / grid1.stride 0 % 25 = t.val
  rw [hs]; omega

theorem tr0 (i : grid1.Coords) : cc1_transform_0 i = ![0, 0] := by unfold cc1_transform_0; simp
theorem tr1 (i : grid1.Coords) : cc1_transform_1 i = ![(i 0).val, 0] := by
  unfold cc1_transform_1
  have : (i 0).val < 25 := (i 0).isLt
  simp; omega
theorem tr2 (i : grid1.Coords) : cc1_transform_2 i = ![0, (i 0).val] := by
  unfold cc1_transform_2
  have : (i 0).val < 25 := (i 0).isLt
  simp; omega
theorem tr3 (i : grid1.Coords) : cc1_transform_3 i = ![0, (i 0).val] := by
  unfold cc1_transform_3
  have : (i 0).val < 25 := (i 0).isLt
  simp; omega

theorem fet1_1_apply (t : Fin cfg1.N) (d) (q : Fin 2048) (k : Fin 1024) (h : 2048 * t.val + q.val < 50257) :
    fet1 V c 1 t d (ix2 q k) = V c main_arg12 (ix2 ⟨2048 * t.val + q.val, h⟩ k) := by
  have hc := coords1 t
  have E : ∀ a, cc1_transform_1 (cfg1.grid.coords t) a * (cfg1.win 1).size a + (ix2 q k a).val = (ix2 (⟨2048 * t.val + q.val, h⟩ : Fin 50257) k a).val := fun a => by
    rw [tr1]
    match a with
    | ⟨0, _⟩ => show (cfg1.grid.coords t 0).val * 2048 + q.val = 2048 * t.val + q.val; omega
    | ⟨1, _⟩ => show 0 * 1024 + k.val = k.val; omega
  rw [fet1_of_moved V c 1 t d _ (moved_of_eq _ _ _ _ E)]
  unfold iblk1; rw [View.read_apply]
  show V c main_arg12 _ = V c main_arg12 _
  congr 1; funext a; apply Fin.ext
  show _ + 1 * _ = _; rw [Nat.one_mul]; exact E a

theorem fet1_2_apply (t : Fin cfg1.N) (d) (q : Fin 2048) (h : 2048 * t.val + q.val < 50257) :
    fet1 V c 2 t d (ix2 (0 : Fin 1) q) = V c main_v16 (ix2 (0 : Fin 1) ⟨2048 * t.val + q.val, h⟩) := by
  have hc := coords1 t
  have E : ∀ a, cc1_transform_2 (cfg1.grid.coords t) a * (cfg1.win 2).size a + (ix2 (0 : Fin 1) q a).val = (ix2 (0 : Fin 1) (⟨2048 * t.val + q.val, h⟩ : Fin 50257) a).val := fun a => by
    rw [tr2]
    match a with
    | ⟨0, _⟩ => show 0 * 1 + 0 = 0; omega
    | ⟨1, _⟩ => show (cfg1.grid.coords t 0).val * 2048 + q.val = 2048 * t.val + q.val; omega
  rw [fet1_of_moved V c 2 t d _ (moved_of_eq _ _ _ _ E)]
  unfold iblk1; rw [View.read_apply]
  show V c main_v16 _ = V c main_v16 _
  congr 1; funext a; apply Fin.ext
  show _ + 1 * _ = _; rw [Nat.one_mul]; exact E a

theorem fet1_0_apply (t : Fin cfg1.N) (d) (k : Fin 1024) :
    fet1 V c 0 t d (ix2 (0 : Fin 1) k) = V c main_v15_0 (ix2 (0 : Fin 1) k) := by
  have E : ∀ a, cc1_transform_0 (cfg1.grid.coords t) a * (cfg1.win 0).size a + (ix2 (0 : Fin 1) k a).val = (ix2 (0 : Fin 1) k a).val := fun a => by
    rw [tr0]
    match a with
    | ⟨0, _⟩ => show 0 * 1 + 0 = 0; omega
    | ⟨1, _⟩ => show 0 * 1024 + k.val = k.val; omega
  rw [fet1_of_moved V c 0 t d _ (moved_of_eq _ _ _ _ E)]
  unfold iblk1; rw [View.read_apply]
  show V c main_v15_0 _ = V c main_v15_0 _
  congr 1; funext a; apply Fin.ext
  show _ + 1 * _ = _; rw [Nat.one_mul]; exact E a

-- The claim about one element of the result: at a column `v < 50257` it is the payload of three blocks that agree with the entry arrays where that column reads them.
def OutP (i : S1x51200.Idx) (val : Elt F .f32) : Prop :=
  ∀ (v : Fin 50257) (q : Fin 2048), (i 1).val = v.val → q.val = v.val % 2048 →
    ∃ (x0 : Vec F S1x1024 .f32) (x1 : Vec F S2048x1024 .f32) (x2 : Vec F S1x2048 .f32),
      (∀ k : Fin 1024, x0 (ix2 (0 : Fin 1) k) = V c main_v15_0 (ix2 (0 : Fin 1) k))
      ∧ (∀ k : Fin 1024, x1 (ix2 q k) = V c main_arg12 (ix2 v k))
      ∧ x2 (ix2 (0 : Fin 1) q) = V c main_v16 (ix2 (0 : Fin 1) v)
      ∧ val = k1_pay1 x0 x1 x2 (ix2 (0 : Fin 1) q)

theorem outP_of (t : Fin cfg1.N) (q : Fin 2048) (i : S1x51200.Idx)
    (hi : (i 1).val = 2048 * t.val + q.val) (d0 d1 d2) :
    OutP V c i (k1_pay1 (fet1 V c 0 t d0) (fet1 V c 1 t d1) (fet1 V c 2 t d2) (ix2 (0 : Fin 1) q)) := by
  intro v q' hv hq'
  have e : q' = q := Fin.ext (by rw [hq', ← hv, hi]; have := q.isLt; omega)
  subst e
  have hv' : 2048 * t.val + q'.val < 50257 := by have := v.isLt; omega
  have e' : v = ⟨2048 * t.val + q'.val, hv'⟩ := Fin.ext (by rw [← hv, hi])
  subst e'
  exact ⟨_, _, _, fun k => fet1_0_apply V c t d0 k, fun k => fet1_1_apply V c t d1 q' k hv', fet1_2_apply V c t d2 q' hv', rfl⟩

theorem outP_flushed (t : Fin cfg1.N) (X) (hL : (rdat1 V c).Leaves 3 t X)
    (y : ((cfg1.win 3).xblock (cfg1.grid.coords t)).Idx) :
    OutP V c (((cfg1.win 3).blk t).view.emb y)
      (_root_.cast (congrArg (Elt F) ((cfg1.win 3).blk t).view.elt_eq.symm) ((cfg1.win 3).cut (cfg1.grid.coords t) X y)) := by
  obtain ⟨Y, -, hA⟩ := hL
  obtain ⟨d0, d1, d2, rfl⟩ := (after1_3 V c t Y X).mp hA
  have hc := coords1 t
  have hy1 : (y 1).val < 2048 := (y 1).isLt
  have hy0 : (y 0).val < 1 := (y 0).isLt
  have he : ((((cfg1.win 3).blk t).view.emb y : S1x51200.Idx) 1).val = 2048 * t.val + (y 1).val := by
    show cc1_transform_3 (cfg1.grid.coords t) 1 * 2048 + 1 * (y 1).val = _
    rw [tr3]; show (cfg1.grid.coords t 0).val * 2048 + 1 * (y 1).val = _; omega
  have hidx : (cfg1.win 3).xinj (cfg1.grid.coords t) y = ix2 (0 : Fin 1) (⟨(y 1).val, hy1⟩ : Fin 2048) := by
    funext a; apply Fin.ext
    match a with
    | ⟨0, _⟩ => show (y 0).val = 0; omega
    | ⟨1, _⟩ => rfl
  rw [cast_eq]
  show OutP V c _ (k1_pay1 _ _ _ ((cfg1.win 3).xinj (cfg1.grid.coords t) y))
  rw [hidx]
  exact outP_of V c t ⟨(y 1).val, hy1⟩ _ he d0 d1 d2

theorem out1_apply (X : Buf (Elt F) ((cfg1.win 3).arr.view.loc (c.tc : Thread nD τ)))
    (hX : (rdat1 V c).ArrAt 3 cfg1.N X) (v : Fin 50257) :
    ∃ (x0 : Vec F S1x1024 .f32) (x1 : Vec F S2048x1024 .f32) (x2 : Vec F S1x2048 .f32),
      (∀ k : Fin 1024, x0 (ix2 (0 : Fin 1) k) = V c main_v15_0 (ix2 (0 : Fin 1) k))
      ∧ (∀ k : Fin 1024, x1 (ix2 (⟨v.val % 2048, Nat.mod_lt _ (by omega)⟩ : Fin 2048) k) = V c main_arg12 (ix2 v k))
      ∧ x2 (ix2 (0 : Fin 1) (⟨v.val % 2048, Nat.mod_lt _ (by omega)⟩ : Fin 2048)) = V c main_v16 (ix2 (0 : Fin 1) v)
      ∧ X (ix2 (0 : Fin 1) (⟨v.val, by omega⟩ : Fin 51200))
          = k1_pay1 x0 x1 x2 (ix2 (0 : Fin 1) (⟨v.val % 2048, Nat.mod_lt _ (by omega)⟩ : Fin 2048)) := by
  have hN : cfg1.N = 25 := N_1
  have hv := v.isLt
  let t : Fin cfg1.N := ⟨v.val / 2048, by rw [hN]; omega⟩
  have hc := coords1 t
  have htv : t.val = v.val / 2048 := rfl
  have hi : (ix2 (0 : Fin 1) (⟨v.val, by omega⟩ : Fin 51200) : S1x51200.Idx) ∈ ((cfg1.win 3).blk t).view.set := by
    show _ ∈ ((View.whole main_v17).slice (win1_3.rect t)).set
    rw [View.set_slice_whole, Rect.mem_set_unit]
    intro a
    match a with
    | ⟨0, _⟩ =>
      show cc1_transform_3 (cfg1.grid.coords t) 0 * 1 ≤ 0 ∧ 0 < cc1_transform_3 (cfg1.grid.coords t) 0 * 1 + 1
      rw [tr3]; show 0 * 1 ≤ 0 ∧ 0 < 0 * 1 + 1; omega
    | ⟨1, _⟩ =>
      show cc1_transform_3 (cfg1.grid.coords t) 1 * 2048 ≤ v.val ∧ v.val < cc1_transform_3 (cfg1.grid.coords t) 1 * 2048 + 2048
      rw [tr3]; show (cfg1.grid.coords t 0).val * 2048 ≤ v.val ∧ v.val < (cfg1.grid.coords t 0).val * 2048 + 2048; omega
  exact arrAt_forall_of_leaves (rdat1 V c) 3 (OutP V c) (fun t _ X hL y => outP_flushed V c t X hL y) cfg1.N t _ X t.isLt
    (flush1_3 t) hi hX v ⟨v.val % 2048, Nat.mod_lt _ (by omega)⟩ rfl rfl

end Cert.Kernel.R1

end
-- ==== Proof.BRunMain.lean ====
import proofs.«429206_j20933670601086_3_alg».proof.Proof.Gen.Kernel.Regions
import proofs.«429206_j20933670601086_3_alg».proof.Proof.BFrame0
import proofs.«429206_j20933670601086_3_alg».proof.Proof.BFrame1
import Idealize.ShloMosaic.Lib.Pipeline.FrameSuffix

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg)

variable {F : FTy → Type} [FloatOps F]

local notation "𝕄" => MT nD τ sig Unit (Elt F) ℕ (UR sig nD τ) ℕ
open Cert.Kernel Cert.Kernel.Gen

variable (m : (ℓ : Loc nD τ sig) → Buf (Elt F) ℓ)

section
variable (c : Dev nD)

abbrev E0 : Valuation τ sig (Elt F) := fun b => m (c, b)
abbrev E1 : Valuation τ sig (Elt F) := StableHlo.after hostOps0 (E0 m c)
abbrev Vin0 : R0.Entry F := fun d b => E1 m d b

/-- E1 with each windowed array of region 0 replaced by its final contents. -/
def E2 : Valuation τ sig (Elt F) :=
  Pipeline.withArrays spec0 c (E1 m c) fun w => (R0.dat0 (Vin0 m) c).arrAt w cfg0.N

theorem E2_arr (w : Fin cfg0.W) :
    E2 m c (Proc.devRef .tc (Pipeline.arrRef spec0 w)) = (R0.dat0 (Vin0 m) c).arrAt w cfg0.N :=
  Pipeline.withArrays_arr spec0 launch0.win.arr_inj c _ _ w
theorem E2_of_ne (b : Ref sig .tc) (hb : ∀ w, Pipeline.arrRef spec0 w ≠ b) :
    E2 m c (Proc.devRef .tc b) = E1 m c (Proc.devRef .tc b) :=
  Pipeline.withArrays_of_ne spec0 c _ _ b hb

theorem isIn0 : ∀ w : Fin cfg0.W, Pipeline.arrRef spec0 w ≠ main_v15_0 → Pipeline.arrRef spec0 w ≠ main_v15_1 →
    (cfg0.win w).isOut = false := by decide

theorem E2_main_v15_0 : E2 m c (Proc.devRef .tc main_v15_0) = (R0.dat0 (Vin0 m) c).arrAt 11 cfg0.N := E2_arr m c 11
theorem E2_main_v15_1 : E2 m c (Proc.devRef .tc main_v15_1) = (R0.dat0 (Vin0 m) c).arrAt 12 cfg0.N := E2_arr m c 12
/-- An input window's final contents are its entry contents, and a buffer under no window is not replaced. -/
theorem E2_other (b : Ref sig .tc) (h0 : b ≠ main_v15_0) (h1 : b ≠ main_v15_1) :
    E2 m c (Proc.devRef .tc b) = E1 m c (Proc.devRef .tc b) := by
  by_cases h : ∃ w, Pipeline.arrRef spec0 w = b
  · obtain ⟨w, rfl⟩ := h
    rw [E2_arr, (R0.dat0 (Vin0 m) c).arrAt_in w (isIn0 w h0 h1) _, R0.A_eq0]
  · exact E2_of_ne m c b fun w e => h ⟨w, e⟩

abbrev E3 : Valuation τ sig (Elt F) := StableHlo.after hostOps1 (E2 m c)
abbrev Vin1 : R1.Entry F := fun d b => E3 m d b

variable (X : Buf (Elt F) ((c : Thread nD τ).loc main_v17))

/-- `X` is a contents the second kernel may leave in its output array `main_v17`. -/
abbrev Out1 : Prop := (R1.rdat1 (Vin1 m) c).ArrAt 3 cfg1.N X

abbrev E4 : Valuation τ sig (Elt F) := Function.update (E3 m c) (Proc.devRef .tc main_v17) X

theorem E4_main_v17 : E4 m c X (Proc.devRef .tc main_v17) = X := Function.update_self ..
theorem E4_other (b : Ref sig .tc) (h : b ≠ main_v17) : E4 m c X (Proc.devRef .tc b) = E3 m c (Proc.devRef .tc b) :=
  Function.update_of_ne (StableHlo.devRef_ne_of_ne h) ..

abbrev E5 : Valuation τ sig (Elt F) := StableHlo.after hostOps2 (E4 m c X)
abbrev E6 : Valuation τ sig (Elt F) := StableHlo.after hostOps2_1 (E5 m c X)
abbrev Wfin : Valuation τ sig (Elt F) := StableHlo.after hostOps2_2 (E6 m c X)

/-- No host stretch writes `b`, and it is none of the three arrays the two kernels write. -/
abbrev Kept (b : Ref sig .tc) : Prop :=
  ¬ (Proc.devRef .tc b : DevRef τ sig).isScoped ∧ b ∉ hostOps0_W ∧ b ∉ hostOps1_W ∧ b ∉ hostOps2_W ∧ b ∉ hostOps2_1_W
    ∧ b ∉ hostOps2_2_W ∧ b ≠ main_v15_0 ∧ b ≠ main_v15_1 ∧ b ≠ main_v17

theorem Wfin_kept (b : Ref sig .tc) : Kept b → Wfin m c X (Proc.devRef .tc b) = m ((c : Thread nD τ).loc b)
  | ⟨_, h0, h1, h2, h3, h4, r0, r1, r2⟩ =>
    (StableHlo.after_of_writes_sub hostOps2_2 (E6 m c X) hostOps2_2_writes h4).trans <|
    (StableHlo.after_of_writes_sub hostOps2_1 (E5 m c X) hostOps2_1_writes h3).trans <|
    (StableHlo.after_of_writes_sub hostOps2 (E4 m c X) hostOps2_writes h2).trans <|
    (E4_other m c X b r2).trans <|
    (StableHlo.after_of_writes_sub hostOps1 (E2 m c) hostOps1_writes h1).trans <|
    (E2_other m c b r0 r1).trans <| StableHlo.after_of_writes_sub hostOps0 (E0 m c) hostOps0_writes h0

end

def rdats : (p : Fin 2) → (c : Dev nD) → Pipeline.RDat τ (Elt F) Unit ℕ (UR sig nD τ) ℕ (Pipeline.pin (pcfgs (F := F)) adm p) c
  | ⟨0, _⟩ => fun c => (R0.dat0 (Vin0 m) c).toR
  | ⟨1, _⟩ => fun c => R1.rdat1 (Vin1 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

section
variable (ops : List (HloOp τ sig (Elt F))) (hsub : ops.Forall fun op => op.bufs ⊆ StableHlo.tcRefs τ sig)
  (hfresh : ops.Forall fun op => op.fresh = ∅)

abbrev hseg (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

variable (W : (c : Dev nD) → Buf (Elt F) ((c : Thread nD τ).loc main_v17) → Valuation τ sig (Elt F))

abbrev HX (c : Dev nD) : sProp 𝕄 :=
  iprop(∃ X, ⌜Out1 m c X⌝ ∗ StableHlo.held (c : Thread nD τ) (Pipeline.ucRefs τ sig) (W c X))

set_option backward.isDefEq.respectTransparency.types false in
def hsegX : Pipeline.HostSeg (Name := ℕ) (U := UR sig nD τ) (pcfgs (F := F)) defs₀ 𝒱₀ L lv where
  prog := StableHlo.seq ops
  pre c := iprop(HX m W c ∗ R c)
  post c := iprop(HX m (fun c X => StableHlo.after ops (W c X)) c ∗ R c)
  run c {β} k K := by
    iintro ⟨Hk, Hbd, ⟨⟨%X, %hX, Hh⟩, HR⟩, -⟩
    have hseq := StableHlo.wp_seq (defs := Pipeline.defs (pcfgs (F := F)) defs₀) (Variants.lift 𝒱₀) none Set.univ c (Pipeline.ucRefs τ sig) k (K := K) ops
      (fun op h => Pipeline.sub_ucRefs op ((List.forall_iff_forall_mem.mp hsub) op h))
      (List.forall_iff_forall_mem.mp hfresh) (W c X)
    iapply hseq $$ [Hbd Hh]
    · isplitl [Hbd] <;> iassumption
    iintro ⟨Hbd, Hh⟩
    iapply Hk
    isplitl [Hbd]; · iexact Hbd
    isplitl [Hh]
    · iexists X; isplitr; · ipureintro; exact hX
      iexact Hh
    iexact HR

end

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem arraysAt_open {cfg : Cfg sig Λ₀} {c : Dev nD} (rd : Pipeline.RDat τ (Elt F) Unit ℕ (UR sig nD τ) ℕ cfg c) (n : ℕ) :
    (rd.arraysAt n : sProp 𝕄) ⊢ iprop(∃ A, ⌜∀ w, rd.ArrAt w n (A w)⌝ ∗ rd.arrays A) := by
  unfold Pipeline.RDat.arraysAt Pipeline.RDat.arrays
  iintro Ha
  ihave Ha' := BI.bigSep_exists_pi _ _ $$ Ha
  icases Ha' with ⟨%A, Ha⟩
  ihave Ha2 := BI.bigSep_pure_sep _ _ _ $$ Ha
  icases Ha2 with ⟨%hA, Ha⟩
  iexists A; isplitr; · ipureintro; exact fun w => hA w (Finset.mem_univ w)
  iexact Ha

theorem ub_of_arrays {p : Fin 2} (lf : Pipeline.LaunchFacts (nD := nD) (τ := τ) cfgs p) (c : Dev nD)
    (hshare : ∀ w, (rdats m p c).share w = fullShare) (V V' : (b : Ref sig .tc) → Buf (Elt F) ((c : Thread nD τ).loc b))
    (A : (w : Fin (cfgs p).W) → Buf (Elt F) (((cfgs p).spec w).arr.view.loc (c : Thread nD τ)))
    (hA : ∀ w, A w = V' (Pipeline.arrRef (cfgs p).spec w))
    (hrest : ∀ b, (∀ w, Pipeline.arrRef (cfgs p).spec w ≠ b) → V' b = V b) :
    iprop((rdats m p c).arrays A ∗ Pipeline.unscopedRest (cfgs p).spec c V) ⊢ (unscopedBufs c V' : sProp 𝕄) := by
  rw [Pipeline.unscopedBufs_split (Pipeline.pin (pcfgs (F := F)) adm) p lf.win.arr_unscoped lf.win.arr_inj c V',
    Pipeline.RDat.arrays_eq (pcfgs (F := F)) adm (rdats m) p c lf.arr_whole hshare]
  refine sep_mono (Entails.of_eq (bigSep_congr fun w _ => by rw [hA])) (Entails.of_eq ?_)
  unfold Pipeline.unscopedRest
  exact bigSep_congr fun b hb => by
    rw [hrest b fun w e => (Finset.mem_sdiff.mp hb).2 (Finset.mem_image.mpr ⟨w, Finset.mem_univ _, e⟩)]

set_option backward.isDefEq.respectTransparency.types false in
def regOf (p : Fin 2) (lf : Pipeline.LaunchFacts (nD := nD) (τ := τ) cfgs p) (V : Dev nD → Valuation τ sig (Elt F))
    (S : Dev nD → sProp 𝕄) (hq : ∀ c w, (rdats m p c).q w = fullShare)
    (hA : ∀ c w, (rdats m p c).A w = V c (Proc.devRef .tc (Pipeline.arrRef (cfgs p).spec w)))
    (howed : ∀ c t, (rdats m p c).owed t = 0) (hrec : ∀ c t, (rdats m p c).recorded t = Set.univ)
    (hbody : ∀ c, (rdats m p c).BodyObligation defs₀ 𝒱₀ () Set.univ)
    (hfst : ∀ c, Pipeline.ΦA (cfgs p).spec c ⊢ (rdats m p c).Φ 0)
    (hlst : ∀ c, (rdats m p c).Φ (Fin.last (cfgs p).N) ⊢ Pipeline.ΦA (cfgs p).spec c)
    (hS : ∀ (c : Dev nD) (A : (w : Fin (cfgs p).W) → Buf (Elt F) (((cfgs p).spec w).arr.view.loc (c : Thread nD τ))),
      (∀ w, (rdats m p c).ArrAt w (cfgs p).N (A w)) → ∃ V' : Valuation τ sig (Elt F),
        (∀ w, A w = V' (Proc.devRef .tc (Pipeline.arrRef (cfgs p).spec w)))
        ∧ (∀ b : Ref sig .tc, (∀ w, Pipeline.arrRef (cfgs p).spec w ≠ b) → V' (Proc.devRef .tc b) = V c (Proc.devRef .tc b))
        ∧ (StableHlo.held (c : Thread nD τ) (Pipeline.ucRefs τ sig) V' ⊢ S c)) :
    Pipeline.RDat.RegionSeg (pcfgs (F := F)) adm (rdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.RDat.hwaits_of_owed_zero _ _ _ _ L lv p howed
  pre c := iprop(StableHlo.held (c : Thread nD τ) (Pipeline.ucRefs τ sig) (V c) ∗ R c)
  post c := iprop(S c ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.RDat.arrays_of_unscopedBufs (p := p) (pcfgs (F := F)) adm (rdats m) lf.win lf.arr_whole c
      ((rdats m p c).share_full (hq c)) (fun b => V c b) (hA c)
    rw [Pipeline.unscopedBufs_held c (V c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      rw [howed c 0]
      icases HO with ⟨%W, HO⟩; iexists W; isplitr
      · ipureintro; exact fun x _ => Or.inl (by rw [hrec c 0]; trivial)
      iexact HO
    isplitl [Hp]; · iexact Hp
    iexact Hrest
  hin c := by
    refine (?_ : _ ⊢ Pipeline.ΦA (cfgs p).spec c).trans (hfst c)
    unfold Pipeline.ΦA
    iintro ⟨Hp, -, Hr⟩
    isplitl [Hr]; · iexact Hr
    iexact Hp
  hout c := by
    rw [Pipeline.ownSems0_none]
    refine (hlst c).trans ?_
    unfold Pipeline.ΦA
    iintro ⟨Hr, Hp⟩
    isplitl [Hp]; · iexact Hp
    isplitr; · iempintro
    iexact Hr
  hexit c := by
    iintro ⟨Ha, HO, HY, Hrest⟩
    ihave Ha' := arraysAt_open (rdats m p c) _ $$ Ha
    icases Ha' with ⟨%A, %hA', Ha⟩
    obtain ⟨V', h1, h2, h3⟩ := hS c A hA'
    imodintro
    isplitl [Ha Hrest]
    · iapply h3
      iapply (Entails.of_eq (Pipeline.unscopedBufs_held c V'))
      iapply (ub_of_arrays m lf c ((rdats m p c).share_full (hq c)) (fun b => V c b) (fun b => V' b) A h1 h2)
      isplitl [Ha] <;> iassumption
    isplitl [HY]; · iexact HY
    unfold Pipeline.RDat.owesAt Pipeline.owesWithin
    rw [howed c (Fin.last _)]
    icases HO with ⟨%W, -, HO⟩; iexists W; iexact HO

theorem isIn1 : ∀ w : Fin cfg1.W, w ≠ 3 → (cfg1.win w).isOut = false ∧ Pipeline.arrRef spec1 w ≠ main_v17 := by decide

set_option backward.isDefEq.respectTransparency.types false in
/-- The first kernel takes the buffers from `E1` to `E2`. -/
def reg0 : Pipeline.RDat.RegionSeg (pcfgs (F := F)) adm (rdats m) () defs₀ 𝒱₀ L lv 0 :=
  regOf m 0 launch0 (E1 m) (fun c => StableHlo.held (c : Thread nD τ) (Pipeline.ucRefs τ sig) (E2 m c))
    (R0.q_eq0 (Vin0 m)) (R0.A_eq0 (Vin0 m)) (R0.owed_eq0 (Vin0 m)) (R0.recorded_eq0 (Vin0 m))
    (fun c => (R0.body_obligation0 (Vin0 m) c).toR) (R0.hin0 (Vin0 m)) (R0.hout0 (Vin0 m))
    fun c A hA => ⟨E2 m c, fun w => ((R0.dat0 (Vin0 m) c).toR_arrAt w _ _ (hA w)).trans (E2_arr m c w).symm, E2_of_ne m c, .rfl⟩

set_option backward.isDefEq.respectTransparency.types false in
/-- The second kernel takes the buffers from `E3` to `main_v17` at SOME contents `Out1` allows, every other buffer as entered. -/
def reg1 : Pipeline.RDat.RegionSeg (pcfgs (F := F)) adm (rdats m) () defs₀ 𝒱₀ L lv 1 :=
  regOf m 1 launch1 (E3 m) (HX m (E4 m))
    (R1.q_eq1 (Vin1 m)) (R1.A_eq1 (Vin1 m)) (R1.owed_eq1 (Vin1 m)) (R1.recorded_eq1 (Vin1 m))
    (R1.body_obligation1 (Vin1 m)) (R1.hin1 (Vin1 m)) (R1.hout1 (Vin1 m))
    fun c (A : (w : Fin cfg1.W) → Buf (Elt F) ((spec1 w).arr.view.loc (c : Thread nD τ))) hA => ⟨E4 m c (A 3),
      fun (w : Fin cfg1.W) => by
        by_cases hw : w = 3
        · subst hw; exact (E4_main_v17 m c (A 3)).symm
        · have h1 : (R1.rdat1 (Vin1 m) c).ArrAt w cfg1.N (A w) := hA w
          rw [(R1.rdat1 (Vin1 m) c).ArrAt_in w (isIn1 w hw).1] at h1
          exact h1.trans ((R1.A_eq1 (Vin1 m) c w).trans (E4_other m c (A 3) _ (isIn1 w hw).2).symm),
      fun b hb => E4_other m c (A 3) b fun e => hb 3 e.symm,
      by
        iintro H; iexists (A 3); isplitr
        · ipureintro; exact hA 3
        iexact H⟩

abbrev Tₙ (c : Dev nD) : sProp 𝕄 := iprop(HX m (Wfin m) c ∗ ∃ r, prngReg c r)

abbrev segsR : List (Pipeline.RDat.Seg (pcfgs (F := F)) adm (rdats m) () defs₀ 𝒱₀ L lv) :=
  [ .host (hseg hostOps0 hostOps0_sub hostOps0_fresh (E0 m)),
    .region (reg0 m),
    .host (hseg hostOps1 hostOps1_sub hostOps1_fresh (E2 m)),
    .region (reg1 m),
    .host (hsegX m hostOps2 hostOps2_sub hostOps2_fresh (E4 m)),
    .host (hsegX m hostOps2_1 hostOps2_1_sub hostOps2_1_fresh (E5 m)),
    .host (hsegX m hostOps2_2 hostOps2_2_sub hostOps2_2_fresh (E6 m)) ]

abbrev AsLaunched (s : MemSt nD τ sig (Elt F)) (c : Dev nD) (b : Ref sig .tc) : Prop :=
  s.mem ((c.tc : Thread nD τ).loc b) = m ((c.tc : Thread nD τ).loc b)
abbrev ArgsKept (s : MemSt nD τ sig (Elt F)) (c : Dev nD) : Prop :=
  AsLaunched m s c main_arg0 ∧ AsLaunched m s c main_arg1 ∧ AsLaunched m s c main_arg2 ∧ AsLaunched m s c main_arg3
  ∧ AsLaunched m s c main_arg4 ∧ AsLaunched m s c main_arg5 ∧ AsLaunched m s c main_arg6 ∧ AsLaunched m s c main_arg7
  ∧ AsLaunched m s c main_arg8 ∧ AsLaunched m s c main_arg9 ∧ AsLaunched m s c main_arg10 ∧ AsLaunched m s c main_arg11
  ∧ AsLaunched m s c main_arg12 ∧ AsLaunched m s c main_arg13

set_option backward.isDefEq.respectTransparency.types false in
/-- @main terminates, and finally on every core, for some X that Out1 allows, the three results are Wfin's at X and the arguments as launched. -/
theorem run_values (ρ : Dev nD → PrngReg) :
    θ_run defs (onTc (τ := τ) (main (F := F))) ⟨m, fun _ => 0, ρ⟩ (fun r => ∀ c : Dev nD,
      ∃ X : Buf (Elt F) ((c : Thread nD τ).loc main_v17), Out1 m c X
      ∧ r.2.mem ((c.tc : Thread nD τ).loc main_v19) = Wfin m c X (Proc.devRef .tc main_v19)
      ∧ r.2.mem ((c.tc : Thread nD τ).loc main_v20) = Wfin m c X (Proc.devRef .tc main_v20)
      ∧ r.2.mem ((c.tc : Thread nD τ).loc main_v15_1) = Wfin m c X (Proc.devRef .tc main_v15_1)
      ∧ ArgsKept m r.2 c) :=
  Pipeline.RDat.θ_run_regions_kit (pcfgs (F := F)) adm (rdats m) () cellOf_inj emb₁ defs₀ 𝒱₀ L lv m ρ main (segsR m)
    (fun c Q => by
      rewrite [main_chain c, Pipeline.RDat.Seg.run_eq_chain]
      exact .rfl)
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ R c)) (Tₙ := Tₙ m)
    (hch := ⟨fun _ => .rfl, fun _ => .rfl, fun _ => .rfl, fun _ => .rfl, fun _ => .rfl, fun _ => .rfl, fun _ => .rfl, fun c =>
      (show iprop(HX m (Wfin m) c ∗ R c) ⊢ iprop(Tₙ m c ∗ ∃ W, owes (c : Thread nD τ) (0 : CellTallies nD τ sig Unit) W) from by
        iintro ⟨H, Hp, HO⟩
        isplitr [HO]
        · isplitl [H] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∃ X : Buf (Elt F) ((c : Thread nD τ).loc main_v17), Out1 m c X
      ∧ ∀ b ∈ Pipeline.ucRefs τ sig, s.mem (((c : Thread nD τ)).1, b) = Wfin m c X b)
    (hfin := fun c s' => by
      iintro ⟨⟨⟨%X, %hX, Hh⟩, -⟩, HSI⟩
      unfold StableHlo.held
      ihave Hr := (pointsTo_read_all (Pipeline.ucRefs τ sig) (fun b => (((c : Thread nD τ)).1, b)) (Wfin m c X) s') $$ [Hh HSI]
      · isplitl [Hh] <;> iassumption
      icases Hr with ⟨%h, HSI⟩
      imodintro
      isplitr; · ipureintro; exact ⟨X, hX, h⟩
      iexact HSI)
    (hQ := fun s h c => by
      obtain ⟨X, hX, hb⟩ := h c
      have ha : ∀ b, Kept b → AsLaunched m s c b := fun b hk => (hb _ (mem_uc b hk.1)).trans (Wfin_kept m c X b hk)
      exact ⟨X, hX, hb _ (mem_uc main_v19 (by decide)), hb _ (mem_uc main_v20 (by decide)), hb _ (mem_uc main_v15_1 (by decide)),
        ha main_arg0 (by decide), ha main_arg1 (by decide), ha main_arg2 (by decide), ha main_arg3 (by decide), ha main_arg4 (by decide),
        ha main_arg5 (by decide), ha main_arg6 (by decide), ha main_arg7 (by decide), ha main_arg8 (by decide), ha main_arg9 (by decide),
        ha main_arg10 (by decide), ha main_arg11 (by decide), ha main_arg12 (by decide), ha main_arg13 (by decide)⟩)

/-- The run's values forgotten: every final state has the argument arrays as launched. -/
theorem frame (ρ : Dev nD → PrngReg) :
    θ_run defs (onTc (τ := τ) (main (F := F))) ⟨m, fun _ => 0, ρ⟩ (fun r => ∀ c : Dev nD, ArgsKept m r.2 c) :=
  (run_values m ρ).mono fun r h c => let ⟨_, _, _, _, _, h'⟩ := h c; h'

end Cert.Kernel.Run

end
-- ==== Proof.Runs0.lean ====
import proofs.«429206_j20933670601086_3_alg».proof.Proof.Gen.KernelIdeal.Launch
import proofs.«429206_j20933670601086_3_alg».proof.Proof.Gen.KernelIdeal.Skeleton
import proofs.«429206_j20933670601086_3_alg».proof.Proof.Gen.KernelIdeal.Points
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI

variable {F : FTy → Type} [FloatOps F]

local notation "𝕄" => MT nD τ sig Unit (Elt F) ℕ (UR sig nD τ) ℕ

open Cert.KernelIdeal Cert.KernelIdeal.Gen

/-- Owning a whole memref at contents `X` is holding its buffer at the one raw contents that read `X`. -/
theorem owns_unread (c : Thread nD τ) {sp : Space} {sh : Shape} {e : EltTy} {m : Memref sig c.2.kind sp sh e} (h : m.IsWhole)
    (q : PosShare TreeShare) (X : sh.Idx → Elt F e) :
    (owns c m q X : sProp 𝕄) = (m.view.loc c ↦[m.view.set]{q} h.unread X) := by
  rw [owns_eq_rep, h.eq_unread (View.read_rep m.view X)]

abbrev cond0_1 (i : grid0.Coords) : Prop := (Scalar.cmpi .ne (Scalar.extui (Scalar.cmpi .eq (BitVec.ofNat 32 (i 0).val) 0#32)) 0#32) = 1#1
theorem hcond0_1 : ∀ t : Fin cfg0.N, cond0_1 (grid0.coords t) ↔ t.val = 0 :=
  (by decide +kernel : ∀ t : Fin grid0.N, cond0_1 (grid0.coords t) ↔ t.val = 0)

abbrev cond0_2 (i : grid0.Coords) : Prop := k0_cond2 i = 1#1
theorem hcond0_2 : ∀ t : Fin cfg0.N, cond0_2 (grid0.coords t) ↔ t.val = 7 :=
  (by decide +kernel : ∀ t : Fin grid0.N, cond0_2 (grid0.coords t) ↔ t.val = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem idleAt0_11 : ∀ t : Fin cfg0.N, ¬cond0_2 (grid0.coords t) → cfg0.idle 11 (grid0.coords t) = true := by decide +kernel
theorem noFlush0_11 : ∀ t : Fin cfg0.N, ¬cond0_2 (grid0.coords t) → (cfg0.win 11).flush t = false := by decide +kernel
theorem liveAt0_11 : ∀ t : Fin cfg0.N, cond0_2 (grid0.coords t) → cfg0.idle 11 (grid0.coords t) = false := by decide +kernel
theorem idleAt0_12 : ∀ t : Fin cfg0.N, ¬cond0_2 (grid0.coords t) → cfg0.idle 12 (grid0.coords t) = true := by decide +kernel
theorem noFlush0_12 : ∀ t : Fin cfg0.N, ¬cond0_2 (grid0.coords t) → (cfg0.win 12).flush t = false := by decide +kernel
theorem liveAt0_12 : ∀ t : Fin cfg0.N, cond0_2 (grid0.coords t) → cfg0.idle 12 (grid0.coords t) = false := by decide +kernel

abbrev ms0_0 (t : Fin cfg0.N) : Memref sig .tc .vmem S1x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3072x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3072x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3072 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x3072 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2048 .f32 := win0_12.stage (cfg0.slots t 12)
abbrev hs0_12 (t : Fin cfg0.N) : (ms0_12 t).IsWhole := hstage0_12 ((cfg0.slots t 12).cast nbuf0_12)
abbrev scM14 : Memref sig .tc .vmem S1x1 .f32 := Memref.whole cc0_scratch0
abbrev scM15 : Memref sig .tc .vmem S1x1 .f32 := Memref.whole cc0_scratch1
abbrev scM16 : Memref sig .tc .vmem S1x1024 .f32 := Memref.whole cc0_scratch2
abbrev scM17 : Memref sig .tc .vmem S1x2048 .f32 := Memref.whole cc0_scratch3
abbrev VS14 : View sig .tc .vmem S1x1 .f32 := scM14.view
abbrev VS15 : View sig .tc .vmem S1x1 .f32 := scM15.view
abbrev VS16 : View sig .tc .vmem S1x1024 .f32 := scM16.view
abbrev VS17 : View sig .tc .vmem S1x2048 .f32 := scM17.view
abbrev VO11 : View sig .tc .vmem S1x1024 .f32 := (Memref.whole cc0_stg11_0 : Memref sig .tc .vmem S1x1024 .f32).view
abbrev VO12 : View sig .tc .vmem S1x2048 .f32 := (Memref.whole cc0_stg12_0 : Memref sig .tc .vmem S1x2048 .f32).view

end Cert.KernelIdeal.R0

end
-- ==== Proof.Run0A.lean ====
import proofs.«429206_j20933670601086_3_alg».proof.Proof.Runs0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.KernelIdeal Cert.KernelIdeal.Gen

/-- The body at the first point: the state is reset and then updated from the point's tile; what is stored is recorded as pieces over the loaded values. -/
noncomputable def kernelRun0_A (c : Dev nD) (i : grid0.Coords) (arg1 : Memref sig .tc .vmem S1x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S1024x2048 .f32) (harg6 : arg6.IsWhole) (arg7 : Memref sig .tc .vmem S1x1024 .f32) (harg7 : arg7.IsWhole) (arg8 : Memref sig .tc .vmem S3072x1024 .f32) (harg8 : arg8.IsWhole) (arg9 : Memref sig .tc .vmem S3072x1024 .f32) (harg9 : arg9.IsWhole) (arg10 : Memref sig .tc .vmem S1x3072 .f32) (harg10 : arg10.IsWhole) (arg11 : Memref sig .tc .vmem S1x3072 .f32) (harg11 : arg11.IsWhole) (arg12 : Memref sig .tc .vmem S1x1024 .f32) (harg12 : arg12.IsWhole) (arg13 : Memref sig .tc .vmem S1x2048 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1024 .f32) (harg16 : arg16.IsWhole) (arg17 : Memref sig .tc .vmem S1x2048 .f32) (harg17 : arg17.IsWhole) (hc1 : cond0_1 i) (hc2 : ¬cond0_2 i)
    (x1 : Vec F S1x1024 .f32) (x2 : Vec F S1x1024 .f32) (x3 : Vec F S256x1024 .f32) (x4 : Vec F S256x2048 .f32) (x5 : Vec F S1x256 .f32) (x6 : Vec F S1024x2048 .f32) (x7 : Vec F S1x1024 .f32) (x8 : Vec F S3072x1024 .f32) (x9 : Vec F S3072x1024 .f32) (x10 : Vec F S1x3072 .f32) (x11 : Vec F S1x3072 .f32) :
    Σ' (LS14 : List (View.Piece (Elt F) S1x1 .f32)) (LS15 : List (View.Piece (Elt F) S1x1 .f32)) (LS16 : List (View.Piece (Elt F) S1x1024 .f32)), { LS17 : List (View.Piece (Elt F) S1x2048 .f32) //
      ∀ (xi12 : Vec F S1x1024 .f32) (xi13 : Vec F S1x2048 .f32) (xs17 : Vec F S1x2048 .f32) (E : Set ℕ) (K : PUnit → sProp 𝕄),
        iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare xi12 ∗ owns c arg13 fullShare xi13
            ∗ (∃ d, owns c arg14 fullShare d) ∗ (∃ d, owns c arg15 fullShare d) ∗ (∃ d, owns c arg16 fullShare d) ∗ owns c arg17 fullShare xs17
            ∗ (iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare xi12 ∗ owns c arg13 fullShare xi13
                ∗ (∃ f, arg14.view.loc c ↦[arg14.view.set]{fullShare} arg14.view.writes (Elt F) f LS14) ∗ (∃ f, arg15.view.loc c ↦[arg15.view.set]{fullShare} arg15.view.writes (Elt F) f LS15) ∗ (∃ f, arg16.view.loc c ↦[arg16.view.set]{fullShare} arg16.view.writes (Elt F) f LS16)
                ∗ arg17.view.loc c ↦[arg17.view.set]{fullShare} arg17.view.writes (Elt F) (harg17.unread xs17) LS17) -∗ K ⟨⟩))
          ⊢ wp frame (wpE (defs₀ (F := F)) Variants.none c none) E (cc0__decode_attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun xi12 xi13 xs17 E K => ?run⟩
  case run =>
    simp (disch := assumption) only [owns_unread]
    simp only [cc0__decode_attn_kernel_eq_skeleton]; unfold cc0__decode_attn_kernel_skel
    iintro ⟨H1, H2, H3, H4, H5, H6, H7, H8, H9, H10, H11, H12, H13, ⟨%d14, H14⟩, ⟨%d15, H15⟩, ⟨%d16, H16⟩, H17, Hk⟩
    sl_exec (disch := first | exact hc1 | exact hc2)
    sl_step
    iapply Hk
    sl_close

end Cert.KernelIdeal.R0

end
-- ==== Proof.Run0B.lean ====
import proofs.«429206_j20933670601086_3_alg».proof.Proof.Runs0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.KernelIdeal Cert.KernelIdeal.Gen

/-- The body at a middle point: the state the point before left is updated from the point's tile. -/
noncomputable def kernelRun0_B (c : Dev nD) (i : grid0.Coords) (arg1 : Memref sig .tc .vmem S1x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S1024x2048 .f32) (harg6 : arg6.IsWhole) (arg7 : Memref sig .tc .vmem S1x1024 .f32) (harg7 : arg7.IsWhole) (arg8 : Memref sig .tc .vmem S3072x1024 .f32) (harg8 : arg8.IsWhole) (arg9 : Memref sig .tc .vmem S3072x1024 .f32) (harg9 : arg9.IsWhole) (arg10 : Memref sig .tc .vmem S1x3072 .f32) (harg10 : arg10.IsWhole) (arg11 : Memref sig .tc .vmem S1x3072 .f32) (harg11 : arg11.IsWhole) (arg12 : Memref sig .tc .vmem S1x1024 .f32) (harg12 : arg12.IsWhole) (arg13 : Memref sig .tc .vmem S1x2048 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1024 .f32) (harg16 : arg16.IsWhole) (arg17 : Memref sig .tc .vmem S1x2048 .f32) (harg17 : arg17.IsWhole) (hc1 : ¬cond0_1 i) (hc2 : ¬cond0_2 i)
    (x1 : Vec F S1x1024 .f32) (x2 : Vec F S1x1024 .f32) (x3 : Vec F S256x1024 .f32) (x4 : Vec F S256x2048 .f32) (x5 : Vec F S1x256 .f32) (x6 : Vec F S1024x2048 .f32) (x7 : Vec F S1x1024 .f32) (x8 : Vec F S3072x1024 .f32) (x9 : Vec F S3072x1024 .f32) (x10 : Vec F S1x3072 .f32) (x11 : Vec F S1x3072 .f32) (xs14 xs15 : Vec F S1x1 .f32) (xs16 : Vec F S1x1024 .f32) :
    Σ' (LS14 : List (View.Piece (Elt F) S1x1 .f32)) (LS15 : List (View.Piece (Elt F) S1x1 .f32)) (LS16 : List (View.Piece (Elt F) S1x1024 .f32)), { LS17 : List (View.Piece (Elt F) S1x2048 .f32) //
      ∀ (xi12 : Vec F S1x1024 .f32) (xi13 : Vec F S1x2048 .f32) (xs17 : Vec F S1x2048 .f32) (E : Set ℕ) (K : PUnit → sProp 𝕄),
        iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare xi12 ∗ owns c arg13 fullShare xi13
            ∗ owns c arg14 fullShare xs14 ∗ owns c arg15 fullShare xs15 ∗ owns c arg16 fullShare xs16 ∗ owns c arg17 fullShare xs17
            ∗ (iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare xi12 ∗ owns c arg13 fullShare xi13
                ∗ (∃ f, arg14.view.loc c ↦[arg14.view.set]{fullShare} arg14.view.writes (Elt F) f LS14) ∗ (∃ f, arg15.view.loc c ↦[arg15.view.set]{fullShare} arg15.view.writes (Elt F) f LS15) ∗ (∃ f, arg16.view.loc c ↦[arg16.view.set]{fullShare} arg16.view.writes (Elt F) f LS16)
                ∗ arg17.view.loc c ↦[arg17.view.set]{fullShare} arg17.view.writes (Elt F) (harg17.unread xs17) LS17) -∗ K ⟨⟩))
          ⊢ wp frame (wpE (defs₀ (F := F)) Variants.none c none) E (cc0__decode_attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun xi12 xi13 xs17 E K => ?run⟩
  case run =>
    simp (disch := assumption) only [owns_unread]
    simp only [cc0__decode_attn_kernel_eq_skeleton]; unfold cc0__decode_attn_kernel_skel
    iintro ⟨H1, H2, H3, H4, H5, H6, H7, H8, H9, H10, H11, H12, H13, H14, H15, H16, H17, Hk⟩
    sl_exec (disch := first | exact hc1 | exact hc2)
    sl_step
    iapply Hk
    sl_close

end Cert.KernelIdeal.R0

end
-- ==== Proof.Run0C.lean ====
import proofs.«429206_j20933670601086_3_alg».proof.Proof.Runs0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.KernelIdeal Cert.KernelIdeal.Gen

/-- The body at the last point: the state is updated, then the two outputs are computed from it and stored whole. -/
noncomputable def kernelRun0_C (c : Dev nD) (i : grid0.Coords) (arg1 : Memref sig .tc .vmem S1x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S1024x2048 .f32) (harg6 : arg6.IsWhole) (arg7 : Memref sig .tc .vmem S1x1024 .f32) (harg7 : arg7.IsWhole) (arg8 : Memref sig .tc .vmem S3072x1024 .f32) (harg8 : arg8.IsWhole) (arg9 : Memref sig .tc .vmem S3072x1024 .f32) (harg9 : arg9.IsWhole) (arg10 : Memref sig .tc .vmem S1x3072 .f32) (harg10 : arg10.IsWhole) (arg11 : Memref sig .tc .vmem S1x3072 .f32) (harg11 : arg11.IsWhole) (arg12 : Memref sig .tc .vmem S1x1024 .f32) (harg12 : arg12.IsWhole) (arg13 : Memref sig .tc .vmem S1x2048 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1024 .f32) (harg16 : arg16.IsWhole) (arg17 : Memref sig .tc .vmem S1x2048 .f32) (harg17 : arg17.IsWhole) (hc1 : ¬cond0_1 i) (hc2 : cond0_2 i)
    (x1 : Vec F S1x1024 .f32) (x2 : Vec F S1x1024 .f32) (x3 : Vec F S256x1024 .f32) (x4 : Vec F S256x2048 .f32) (x5 : Vec F S1x256 .f32) (x6 : Vec F S1024x2048 .f32) (x7 : Vec F S1x1024 .f32) (x8 : Vec F S3072x1024 .f32) (x9 : Vec F S3072x1024 .f32) (x10 : Vec F S1x3072 .f32) (x11 : Vec F S1x3072 .f32) (xs14 xs15 : Vec F S1x1 .f32) (xs16 : Vec F S1x1024 .f32) (xs17 : Vec F S1x2048 .f32) :
    Σ' (L12 : List (View.Piece (Elt F) S1x1024 .f32)) (L13 : List (View.Piece (Elt F) S1x2048 .f32)) (LS14 : List (View.Piece (Elt F) S1x1 .f32)) (LS15 : List (View.Piece (Elt F) S1x1 .f32)) (LS16 : List (View.Piece (Elt F) S1x1024 .f32)), { LS17 : List (View.Piece (Elt F) S1x2048 .f32) //
      ∀ (E : Set ℕ) (K : PUnit → sProp 𝕄),
        iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ (∃ d, owns c arg12 fullShare d) ∗ (∃ d, owns c arg13 fullShare d)
            ∗ owns c arg14 fullShare xs14 ∗ owns c arg15 fullShare xs15 ∗ owns c arg16 fullShare xs16 ∗ owns c arg17 fullShare xs17
            ∗ (iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ (∃ f, arg12.view.loc c ↦[arg12.view.set]{fullShare} arg12.view.writes (Elt F) f L12) ∗ (∃ f, arg13.view.loc c ↦[arg13.view.set]{fullShare} arg13.view.writes (Elt F) f L13)
                ∗ (∃ f, arg14.view.loc c ↦[arg14.view.set]{fullShare} arg14.view.writes (Elt F) f LS14) ∗ (∃ f, arg15.view.loc c ↦[arg15.view.set]{fullShare} arg15.view.writes (Elt F) f LS15) ∗ (∃ f, arg16.view.loc c ↦[arg16.view.set]{fullShare} arg16.view.writes (Elt F) f LS16)
                ∗ arg17.view.loc c ↦[arg17.view.set]{fullShare} arg17.view.writes (Elt F) (harg17.unread xs17) LS17) -∗ K ⟨⟩))
          ⊢ wp frame (wpE (defs₀ (F := F)) Variants.none c none) E (cc0__decode_attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp (disch := assumption) only [owns_unread]
    simp only [cc0__decode_attn_kernel_eq_skeleton]; unfold cc0__decode_attn_kernel_skel
    iintro ⟨H1, H2, H3, H4, H5, H6, H7, H8, H9, H10, H11, ⟨%d12, H12⟩, ⟨%d13, H13⟩, H14, H15, H16, H17, Hk⟩
    sl_exec (disch := first | exact hc1 | exact hc2)
    sl_step
    iapply Hk
    sl_close

end Cert.KernelIdeal.R0

end
-- ==== Proof.Outs0.lean ====
import proofs.«429206_j20933670601086_3_alg».proof.Proof.Run0A
import proofs.«429206_j20933670601086_3_alg».proof.Proof.Run0B
import proofs.«429206_j20933670601086_3_alg».proof.Proof.Run0C

set_option maxRecDepth 16384

noncomputable section

namespace Cert.KernelIdeal.R0

open Idealize.ShloMosaic Idealize.ShloMosaic.TcCoe Idealize.ShloMosaic.Tactic

variable {F : FTy → Type} [FloatOps F]

open Cert.KernelIdeal Cert.KernelIdeal.Gen

abbrev Entry (F : FTy → Type) : Type := (c : Dev nD) → (b : Ref sig .tc) → Buf (Elt F) ((c : Thread nD τ).loc b)

variable (V : Entry F)

/-- Window `w`'s block at point `t`, read off the arrays' contents at entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem nc1_of_pos (t : Fin cfg0.N) (h : t.val ≠ 0) : ¬cond0_1 (grid0.coords t) := fun hc => h ((hcond0_1 t).mp hc)
theorem c2_of_last (t : Fin cfg0.N) (h : t.val = 7) : cond0_2 (grid0.coords t) := (hcond0_2 t).mpr h
theorem nc2_of_notLast (t : Fin cfg0.N) (h : t.val ≠ 7) : ¬cond0_2 (grid0.coords t) := fun hc => h ((hcond0_2 t).mp hc)

abbrev runA (c : Dev nD) (t : Fin cfg0.N) (h0 : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM14 (Memref.isWhole_whole _) scM15 (Memref.isWhole_whole _) scM16 (Memref.isWhole_whole _) scM17 (Memref.isWhole_whole _) ((hcond0_1 t).mpr h0) (nc2_of_notLast t (by omega)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)

abbrev runB (c : Dev nD) (t : Fin cfg0.N) (h0 : t.val ≠ 0) (h7 : t.val ≠ 7) (xs14 xs15 : Vec F S1x1 .f32) (xs16 : Vec F S1x1024 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM14 (Memref.isWhole_whole _) scM15 (Memref.isWhole_whole _) scM16 (Memref.isWhole_whole _) scM17 (Memref.isWhole_whole _) (nc1_of_pos t h0) (nc2_of_notLast t h7) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) xs14 xs15 xs16

abbrev runC (c : Dev nD) (t : Fin cfg0.N) (h0 : t.val ≠ 0) (h7 : t.val = 7) (xs14 xs15 : Vec F S1x1 .f32) (xs16 : Vec F S1x1024 .f32) (xs17 : Vec F S1x2048 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM14 (Memref.isWhole_whole _) scM15 (Memref.isWhole_whole _) scM16 (Memref.isWhole_whole _) scM17 (Memref.isWhole_whole _) (nc1_of_pos t h0) (c2_of_last t h7) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) xs14 xs15 xs16 xs17

/-- What a list of stored pieces that covers a buffer leaves in it. -/
def over14 (L : List (View.Piece (Elt F) S1x1 .f32)) : Vec F S1x1 .f32 := VS14.read (Elt F) (VS14.writes (Elt F) VS14.junk L)
def over15 (L : List (View.Piece (Elt F) S1x1 .f32)) : Vec F S1x1 .f32 := VS15.read (Elt F) (VS15.writes (Elt F) VS15.junk L)
def over16 (L : List (View.Piece (Elt F) S1x1024 .f32)) : Vec F S1x1024 .f32 := VS16.read (Elt F) (VS16.writes (Elt F) VS16.junk L)
def over12 (L : List (View.Piece (Elt F) S1x1024 .f32)) : Vec F S1x1024 .f32 := VO11.read (Elt F) (VO11.writes (Elt F) VO11.junk L)
def over13 (L : List (View.Piece (Elt F) S1x2048 .f32)) : Vec F S1x2048 .f32 := VO12.read (Elt F) (VO12.writes (Elt F) VO12.junk L)
/-- The scores buffer after a point's pieces, which cover one tile only, are written over `xs`. -/
def onto17 (xs : Vec F S1x2048 .f32) (L : List (View.Piece (Elt F) S1x2048 .f32)) : Vec F S1x2048 .f32 :=
  VS17.read (Elt F) (VS17.writes (Elt F) ((Memref.isWhole_whole _ : scM17.IsWhole).unread xs) L)

/-- The running maximum, denominator and weighted sum after point `n`. -/
def mla0 (c : Dev nD) : (n : ℕ) → n < cfg0.N → Vec F S1x1 .f32 × Vec F S1x1 .f32 × Vec F S1x1024 .f32
  | 0, hn => (over14 (runA V c ⟨0, hn⟩ rfl).1, over15 (runA V c ⟨0, hn⟩ rfl).2.1, over16 (runA V c ⟨0, hn⟩ rfl).2.2.1)
  | n + 1, hn =>
    if h7 : n + 1 = 7 then (over14 [], over15 [], over16 [])
    else
      (over14 (runB V c ⟨n + 1, hn⟩ (Nat.succ_ne_zero n) h7 (mla0 c n (Nat.lt_of_succ_lt hn)).1 (mla0 c n (Nat.lt_of_succ_lt hn)).2.1 (mla0 c n (Nat.lt_of_succ_lt hn)).2.2).1,
       over15 (runB V c ⟨n + 1, hn⟩ (Nat.succ_ne_zero n) h7 (mla0 c n (Nat.lt_of_succ_lt hn)).1 (mla0 c n (Nat.lt_of_succ_lt hn)).2.1 (mla0 c n (Nat.lt_of_succ_lt hn)).2.2).2.1,
       over16 (runB V c ⟨n + 1, hn⟩ (Nat.succ_ne_zero n) h7 (mla0 c n (Nat.lt_of_succ_lt hn)).1 (mla0 c n (Nat.lt_of_succ_lt hn)).2.1 (mla0 c n (Nat.lt_of_succ_lt hn)).2.2).2.2.1)

/-- The scores buffer after point `n`, if it held `d` at entry. -/
def sc17 (c : Dev nD) (d : Vec F S1x2048 .f32) : (n : ℕ) → n < cfg0.N → Vec F S1x2048 .f32
  | 0, hn => onto17 d (runA V c ⟨0, hn⟩ rfl).2.2.2.1
  | n + 1, hn =>
    if h7 : n + 1 = 7 then d
    else
      onto17 (sc17 c d n (Nat.lt_of_succ_lt hn))
        (runB V c ⟨n + 1, hn⟩ (Nat.succ_ne_zero n) h7 (mla0 V c n (Nat.lt_of_succ_lt hn)).1 (mla0 V c n (Nat.lt_of_succ_lt hn)).2.1 (mla0 V c n (Nat.lt_of_succ_lt hn)).2.2).2.2.2.1

def d17 : Vec F S1x2048 .f32 := VS17.read (Elt F) VS17.junk

theorem six_lt : 6 < cfg0.N := by rw [show cfg0.N = 8 from N_0]; decide
theorem seven_lt : 7 < cfg0.N := by rw [show cfg0.N = 8 from N_0]; decide
abbrev tLast : Fin cfg0.N := ⟨7, seven_lt⟩

abbrev runLast (c : Dev nD) (xs17 : Vec F S1x2048 .f32) :=
  runC V c tLast (by decide) rfl (mla0 V c 6 six_lt).1 (mla0 V c 6 six_lt).2.1 (mla0 V c 6 six_lt).2.2 xs17

def out12 (c : Dev nD) (xs17 : Vec F S1x2048 .f32) : Vec F S1x1024 .f32 := over12 (runLast V c xs17).1
def out13 (c : Dev nD) (xs17 : Vec F S1x2048 .f32) : Vec F S1x2048 .f32 := over13 (runLast V c xs17).2.1

end Cert.KernelIdeal.R0

end
-- ==== Proof.Steps0.lean ====
import proofs.«429206_j20933670601086_3_alg».proof.Proof.Gen.KernelIdeal.Skeleton
import Idealize.ShloMosaic.Lib.Pipeline.FrameBody

set_option maxRecDepth 16384

noncomputable section

namespace Cert.KernelIdeal.R0

open Idealize.ShloMosaic Idealize.ShloMosaic.TcCoe Idealize.ShloMosaic.Tactic

variable {F : FTy → Type} [FloatOps F]

open Cert.KernelIdeal Cert.KernelIdeal.Gen

abbrev rAwL : Rect S256x2048 := Rect.unit (s := S256x2048) ![0, 0] S256x1024.size inb_S256x2048_S256x1024_0_0
abbrev rAwR : Rect S256x2048 := Rect.unit (s := S256x2048) ![0, 1024] S256x1024.size inb_S256x2048_S256x1024_0_1024
abbrev rCwL : Rect S1024x2048 := Rect.unit (s := S1024x2048) ![0, 0] S1024x1024.size inb_S1024x2048_S1024x1024_0_0
abbrev rCwR : Rect S1024x2048 := Rect.unit (s := S1024x2048) ![0, 1024] S1024x1024.size inb_S1024x2048_S1024x1024_0_1024
abbrev rG0 : Rect S3072x1024 := Rect.unit (s := S3072x1024) ![0, 0] S768x1024.size inb_S3072x1024_S768x1024_0_0
abbrev rG1 : Rect S3072x1024 := Rect.unit (s := S3072x1024) ![768, 0] S768x1024.size inb_S3072x1024_S768x1024_768_0
abbrev rG2 : Rect S3072x1024 := Rect.unit (s := S3072x1024) ![1536, 0] S768x1024.size inb_S3072x1024_S768x1024_1536_0
abbrev rG3 : Rect S3072x1024 := Rect.unit (s := S3072x1024) ![2304, 0] S768x1024.size inb_S3072x1024_S768x1024_2304_0

section Point

variable (e h : Vec F S1x1024 .f32) (enc : Vec F S256x1024 .f32) (aw : Vec F S256x2048 .f32) (ab : Vec F S1x256 .f32)

/-- The scores of the point's 256 encoder rows. -/
def sTile : Vec F S1x256 .f32 := k0_pay21 e h (View.ld aw rAwL) (View.ld aw rAwR) ab
/-- The running maximum after the point, from the one before. -/
def mNew (m : Vec F S1x1 .f32) : Vec F S1x1 .f32 := k0_pay4 (k0_pay22 e h (View.ld aw rAwL) (View.ld aw rAwR) ab m)
/-- The factor that brings the old denominator and weighted sum to the new maximum. -/
def rescale (m : Vec F S1x1 .f32) : Vec F S1x1 .f32 := k0_pay23 e h (View.ld aw rAwL) (View.ld aw rAwR) ab m m
/-- The point's scores minus the updated maximum. -/
def shifted (m : Vec F S1x1 .f32) : Vec F S1x256 .f32 := k0_pay24 e h (View.ld aw rAwL) (View.ld aw rAwR) ab m
/-- The running denominator after the point. -/
def lNew (m l : Vec F S1x1 .f32) : Vec F S1x1 .f32 := k0_pay2 (rescale e h aw ab m) (shifted e h aw ab m) l
/-- The running weighted sum of encoder rows after the point. -/
def accNew (m : Vec F S1x1 .f32) (acc : Vec F S1x1024 .f32) : Vec F S1x1024 .f32 :=
  k0_pay3 (rescale e h aw ab m) (shifted e h aw ab m) enc acc

end Point

section Last

variable (e h : Vec F S1x1024 .f32) (cw : Vec F S1024x2048 .f32) (cb : Vec F S1x1024 .f32)
  (wih whh : Vec F S3072x1024 .f32) (bih bhh : Vec F S1x3072 .f32)

/-- The attention weights, from the final denominator, all the scores and the final maximum. -/
def attnwOut (l : Vec F S1x1 .f32) (sc : Vec F S1x2048 .f32) (m : Vec F S1x1 .f32) : Vec F S1x2048 .f32 := k0_pay7 l sc m
/-- The combine layer's output, which the GRU cell takes as its input. -/
def xcombOut (l : Vec F S1x1 .f32) (acc : Vec F S1x1024 .f32) : FVec F S1x1024 .bf16 :=
  k0_pay8 (k0_pay18 e) l acc (View.ld cw rCwL) (View.ld cw rCwR) cb
/-- The new hidden state the GRU cell returns. -/
def hnewOut (l : Vec F S1x1 .f32) (acc : Vec F S1x1024 .f32) : Vec F S1x1024 .f32 :=
  k0_pay5 (k0_pay17 h)
    (k0_pay11 (xcombOut e cw cb l acc) (k0_pay10 (View.ld wih rG0)) (View.ld wih rG1) (View.ld wih rG2) (View.ld wih rG3) bih)
    (k0_pay12 (k0_pay19 h) (k0_pay9 (View.ld whh rG0)) (View.ld whh rG1) (View.ld whh rG2) (View.ld whh rG3) bhh)
    (k0_pay13 (xcombOut e cw cb l acc) (k0_pay10 (View.ld wih rG0)) (View.ld wih rG1) (View.ld wih rG2) (View.ld wih rG3) bih)

end Last

end Cert.KernelIdeal.R0

end
-- ==== Proof.Pieces0.lean ====
import proofs.«429206_j20933670601086_3_alg».proof.Proof.Outs0
import proofs.«429206_j20933670601086_3_alg».proof.Proof.Steps0
import Idealize.ShloMosaic.Lib.ValueIdx
import Idealize.ShloMosaic.Lib.WritesUnit
import Idealize.ShloMosaic.Lib.Pipeline.Value

set_option maxRecDepth 16384

noncomputable section

namespace Cert.KernelIdeal.R0

open Idealize.ShloMosaic Idealize.ShloMosaic.TcCoe Idealize.ShloMosaic.Tactic

variable {F : FTy → Type} [FloatOps F]

open Cert.KernelIdeal Cert.KernelIdeal.Gen Idealize.ShloMosaic.ValueIdx

variable (V : Entry F) (c : Dev nD)

abbrev bE (t : Fin cfg0.N) : Vec F S1x1024 .f32 := iblk0 V c 0 t
abbrev bH (t : Fin cfg0.N) : Vec F S1x1024 .f32 := iblk0 V c 1 t
abbrev bEnc (t : Fin cfg0.N) : Vec F S256x1024 .f32 := iblk0 V c 2 t
abbrev bAw (t : Fin cfg0.N) : Vec F S256x2048 .f32 := iblk0 V c 3 t
abbrev bAb (t : Fin cfg0.N) : Vec F S1x256 .f32 := iblk0 V c 4 t
abbrev bCw (t : Fin cfg0.N) : Vec F S1024x2048 .f32 := iblk0 V c 5 t
abbrev bCb (t : Fin cfg0.N) : Vec F S1x1024 .f32 := iblk0 V c 6 t
abbrev bWih (t : Fin cfg0.N) : Vec F S3072x1024 .f32 := iblk0 V c 7 t
abbrev bWhh (t : Fin cfg0.N) : Vec F S3072x1024 .f32 := iblk0 V c 8 t
abbrev bBih (t : Fin cfg0.N) : Vec F S1x3072 .f32 := iblk0 V c 9 t
abbrev bBhh (t : Fin cfg0.N) : Vec F S1x3072 .f32 := iblk0 V c 10 t

namespace Pieces

theorem zeros2 : (![0, 0] : Fin 2 → Nat) = fun _ => 0 := funext fun a => by fin_cases a <;> rfl

section Whole

variable {d : Fin 2 → ℕ} {e : EltTy} (inb : ∀ a, (![0, 0] : Fin 2 → ℕ) a + d a ≤ d a)

/-- Through the whole rectangle of a rank-2 shape a load reads the contents, and a store made last leaves its payload. -/
theorem ld0 (X : Shape.Idx ⟨2, d⟩ → Elt F e) : View.ld X (Rect.unit (s := ⟨2, d⟩) ![0, 0] d inb) = X :=
  View.ld_unit_zero zeros2 inb X
theorem canon0 (w : Shape.Idx ⟨2, d⟩ → Elt F e) (L : List (View.Piece (Elt F) ⟨2, d⟩ e)) :
    View.canon (⟨Rect.unit (s := ⟨2, d⟩) ![0, 0] d inb, w⟩ :: L) = w :=
  View.canon_cons_unit_zero zeros2 inb w L

end Whole

section Point

variable (t : Fin cfg0.N)

/-- A whole load reads its buffer's contents, or the payload of the whole store before it in the same run. -/
theorem first_state (h0 : t.val = 0) :
    (over14 (runA V c t h0).1, over15 (runA V c t h0).2.1, over16 (runA V c t h0).2.2.1)
      = (mNew (bE V c t) (bH V c t) (bAw V c t) (bAb V c t) k0_pay14, lNew (bE V c t) (bH V c t) (bAw V c t) (bAb V c t) k0_pay14 k0_pay15, accNew (bE V c t) (bH V c t) (bEnc V c t) (bAw V c t) (bAb V c t) k0_pay14 k0_pay16) := by
  unfold over14 over15 over16
  simp only [View.read_writes_junk_eq_canon]
  unfold runA kernelRun0_A
  simp only [↓View.readAt_eq_ld, ↓Memref.IsWhole.read_unread]
  sl_unfold_run_names
  unfold mNew lNew accNew rescale shifted
  simp only [canon0, ld0, ↓View.readAt_eq_ld, ↓Memref.IsWhole.read_unread, View.readCov_cons_toLoadRect]

theorem first_scores (h0 : t.val = 0) :
    (runA V c t h0).2.2.2.1 = [⟨Rect.unit (s := S1x2048) (k0_off1 (grid0.coords t)) S1x256.size (k0_off1_inb _), sTile (bE V c t) (bH V c t) (bAw V c t) (bAb V c t)⟩] := by
  unfold runA kernelRun0_A
  dsimp only
  unfold sTile
  simp only [ld0, ↓View.readAt_eq_ld, ↓Memref.IsWhole.read_unread]

variable (h0 : t.val ≠ 0) (xs14 xs15 : Vec F S1x1 .f32) (xs16 : Vec F S1x1024 .f32)

theorem mid_state (h7 : t.val ≠ 7) :
    (over14 (runB V c t h0 h7 xs14 xs15 xs16).1, over15 (runB V c t h0 h7 xs14 xs15 xs16).2.1, over16 (runB V c t h0 h7 xs14 xs15 xs16).2.2.1)
      = (mNew (bE V c t) (bH V c t) (bAw V c t) (bAb V c t) xs14, lNew (bE V c t) (bH V c t) (bAw V c t) (bAb V c t) xs14 xs15, accNew (bE V c t) (bH V c t) (bEnc V c t) (bAw V c t) (bAb V c t) xs14 xs16) := by
  unfold over14 over15 over16
  simp only [View.read_writes_junk_eq_canon]
  unfold runB kernelRun0_B
  simp only [↓View.readAt_eq_ld, ↓Memref.IsWhole.read_unread]
  sl_unfold_run_names
  unfold mNew lNew accNew rescale shifted
  simp only [canon0, ld0, ↓View.readAt_eq_ld, ↓Memref.IsWhole.read_unread]

theorem mid_scores (h7 : t.val ≠ 7) :
    (runB V c t h0 h7 xs14 xs15 xs16).2.2.2.1 = [⟨Rect.unit (s := S1x2048) (k0_off1 (grid0.coords t)) S1x256.size (k0_off1_inb _), sTile (bE V c t) (bH V c t) (bAw V c t) (bAb V c t)⟩] := by
  unfold runB kernelRun0_B
  dsimp only
  unfold sTile
  simp only [ld0, ↓View.readAt_eq_ld, ↓Memref.IsWhole.read_unread]

end Point

section Tile

variable (v : View sig .tc .vmem S1x2048 .f32) (f : v.ty.Contents (Elt F)) (off : Fin 2 → Nat)
  (inb : ∀ a, off a + S1x256.size a ≤ S1x2048.size a) (w : Vec F S1x256 .f32) (o : ℕ)

theorem read_tile_in (h0 : off 0 = 0) (h1 : off 1 = o) (j : Fin 2048) (q : Fin 256) (hj : j.val = o + q.val) :
    v.read (Elt F) (v.writes (Elt F) f [⟨Rect.unit (s := S1x2048) off S1x256.size inb, w⟩]) (ix2 0 j) = w (ix2 0 q) :=
  View.read_writes_cons_unit_of_mem v f inb w [] (ix2 0 j) (ix2 0 q) rfl
    (Fin.forall_fin_two.mpr ⟨by show 0 = off 0 + 0; omega, by show j.val = off 1 + q.val; omega⟩)

theorem read_tile_out (h1 : off 1 = o) (j : Fin 2048) (hj : j.val < o ∨ o + 256 ≤ j.val) :
    v.read (Elt F) (v.writes (Elt F) f [⟨Rect.unit (s := S1x2048) off S1x256.size inb, w⟩]) (ix2 0 j) = v.read (Elt F) f (ix2 0 j) :=
  View.read_writes_cons_unit_of_not_mem v f inb w [] (ix2 0 j) rfl 1 (by show j.val < off 1 ∨ off 1 + 256 ≤ j.val; omega)

end Tile

theorem off_row : ∀ t : Fin cfg0.N, k0_off1 (grid0.coords t) 0 = 0 :=
  (by decide +kernel : ∀ t : Fin grid0.N, k0_off1 (grid0.coords t) 0 = 0)
theorem off_col : ∀ t : Fin cfg0.N, k0_off1 (grid0.coords t) 1 = 256 * t.val :=
  (by decide +kernel : ∀ t : Fin grid0.N, k0_off1 (grid0.coords t) 1 = 256 * t.val)

theorem row_after_last_tile (v : View sig .tc .vmem S1x2048 .f32) (f : v.ty.Contents (Elt F)) (xs : Vec F S1x2048 .f32)
    (hf : v.read (Elt F) f = xs) (off : Fin 2 → Nat) (inb : ∀ a, off a + S1x256.size a ≤ S1x2048.size a) (w : Vec F S1x256 .f32)
    (h0 : off 0 = 0) (h1 : off 1 = 1792) :
    v.read (Elt F) (v.writes (Elt F) f [⟨Rect.unit (s := S1x2048) off S1x256.size inb, w⟩])
      = fun j => if h : 1792 ≤ (j 1).val then w (ix2 0 ⟨(j 1).val - 1792, by have h2 : (j 1).val < 2048 := (j 1).isLt; omega⟩) else xs j := by
  funext j
  obtain ⟨a, b, rfl⟩ : ∃ (a : Fin 1) (b : Fin 2048), j = ix2 a b := ⟨j 0, j 1, eq_ix2 j⟩
  obtain rfl : a = 0 := Subsingleton.elim _ _
  show _ = if h : 1792 ≤ b.val then w (ix2 0 ⟨b.val - 1792, _⟩) else xs (ix2 0 b)
  by_cases h : 1792 ≤ b.val
  · rw [dif_pos h]
    exact read_tile_in _ _ _ _ _ 1792 h0 h1 b ⟨b.val - 1792, by have := b.isLt; omega⟩ (by show b.val = 1792 + (b.val - 1792); omega)
  · rw [dif_neg h, read_tile_out _ _ _ _ _ 1792 h1 b (by omega), hf]

end Pieces

theorem mla0_zero (hn : 0 < cfg0.N) :
    mla0 V c 0 hn = (mNew (bE V c ⟨0, hn⟩) (bH V c ⟨0, hn⟩) (bAw V c ⟨0, hn⟩) (bAb V c ⟨0, hn⟩) k0_pay14,
      lNew (bE V c ⟨0, hn⟩) (bH V c ⟨0, hn⟩) (bAw V c ⟨0, hn⟩) (bAb V c ⟨0, hn⟩) k0_pay14 k0_pay15,
      accNew (bE V c ⟨0, hn⟩) (bH V c ⟨0, hn⟩) (bEnc V c ⟨0, hn⟩) (bAw V c ⟨0, hn⟩) (bAb V c ⟨0, hn⟩) k0_pay14 k0_pay16) := by
  unfold mla0
  exact Pieces.first_state V c ⟨0, hn⟩ rfl

theorem mla0_succ (n : ℕ) (hn : n + 1 < cfg0.N) (h7 : n + 1 ≠ 7) :
    mla0 V c (n + 1) hn = (mNew (bE V c ⟨n + 1, hn⟩) (bH V c ⟨n + 1, hn⟩) (bAw V c ⟨n + 1, hn⟩) (bAb V c ⟨n + 1, hn⟩) (mla0 V c n (Nat.lt_of_succ_lt hn)).1,
      lNew (bE V c ⟨n + 1, hn⟩) (bH V c ⟨n + 1, hn⟩) (bAw V c ⟨n + 1, hn⟩) (bAb V c ⟨n + 1, hn⟩) (mla0 V c n (Nat.lt_of_succ_lt hn)).1 (mla0 V c n (Nat.lt_of_succ_lt hn)).2.1,
      accNew (bE V c ⟨n + 1, hn⟩) (bH V c ⟨n + 1, hn⟩) (bEnc V c ⟨n + 1, hn⟩) (bAw V c ⟨n + 1, hn⟩) (bAb V c ⟨n + 1, hn⟩) (mla0 V c n (Nat.lt_of_succ_lt hn)).1 (mla0 V c n (Nat.lt_of_succ_lt hn)).2.2) := by
  rw [mla0, dif_neg h7]
  exact Pieces.mid_state V c ⟨n + 1, hn⟩ (Nat.succ_ne_zero n) _ _ _ h7

theorem sc17_zero_tile (d : Vec F S1x2048 .f32) (hn : 0 < cfg0.N) (q : Fin 256) :
    sc17 V c d 0 hn (ix2 0 ⟨q.val, by omega⟩) = sTile (bE V c ⟨0, hn⟩) (bH V c ⟨0, hn⟩) (bAw V c ⟨0, hn⟩) (bAb V c ⟨0, hn⟩) (ix2 0 q) := by
  rw [sc17, Pieces.first_scores]; unfold onto17
  exact Pieces.read_tile_in _ _ _ _ _ 0 (Pieces.off_row _) (Pieces.off_col _) _ q (by simp)
theorem sc17_succ_tile (d : Vec F S1x2048 .f32) (n : ℕ) (hn : n + 1 < cfg0.N) (h7 : n + 1 ≠ 7) (q : Fin 256) :
    sc17 V c d (n + 1) hn (ix2 0 ⟨256 * (n + 1) + q.val, by have : cfg0.N = 8 := N_0; omega⟩) = sTile (bE V c ⟨n + 1, hn⟩) (bH V c ⟨n + 1, hn⟩) (bAw V c ⟨n + 1, hn⟩) (bAb V c ⟨n + 1, hn⟩) (ix2 0 q) := by
  rw [sc17, dif_neg h7, Pieces.mid_scores]; unfold onto17
  exact Pieces.read_tile_in _ _ _ _ _ (256 * (n + 1)) (Pieces.off_row _) (Pieces.off_col _) _ q rfl
theorem sc17_succ_keep (d : Vec F S1x2048 .f32) (n : ℕ) (hn : n + 1 < cfg0.N) (h7 : n + 1 ≠ 7) (j : Fin 2048)
    (hj : j.val < 256 * (n + 1) ∨ 256 * (n + 2) ≤ j.val) :
    sc17 V c d (n + 1) hn (ix2 0 j) = sc17 V c d n (Nat.lt_of_succ_lt hn) (ix2 0 j) := by
  rw [sc17, dif_neg h7, Pieces.mid_scores]; unfold onto17
  rw [Pieces.read_tile_out _ _ _ _ _ (256 * (n + 1)) (Pieces.off_col _) j (by omega), (Memref.isWhole_whole _ : scM17.IsWhole).read_unread]

def lastScores (xs : Vec F S1x2048 .f32) : Vec F S1x2048 .f32 := fun j =>
  if h : 1792 ≤ (j 1).val then sTile (bE V c tLast) (bH V c tLast) (bAw V c tLast) (bAb V c tLast) (ix2 0 ⟨(j 1).val - 1792, by have h2 : (j 1).val < 2048 := (j 1).isLt; omega⟩) else xs j

/-- The last point loads the state after storing it, so the outputs are computed from the updated state. -/
theorem out12_eq (xs17 : Vec F S1x2048 .f32) :
    out12 V c xs17 = hnewOut (bE V c tLast) (bH V c tLast) (bCw V c tLast) (bCb V c tLast) (bWih V c tLast) (bWhh V c tLast) (bBih V c tLast) (bBhh V c tLast)
      (lNew (bE V c tLast) (bH V c tLast) (bAw V c tLast) (bAb V c tLast) (mla0 V c 6 six_lt).1 (mla0 V c 6 six_lt).2.1)
      (accNew (bE V c tLast) (bH V c tLast) (bEnc V c tLast) (bAw V c tLast) (bAb V c tLast) (mla0 V c 6 six_lt).1 (mla0 V c 6 six_lt).2.2) := by
  unfold out12 over12
  rw [View.read_writes_junk_eq_canon]
  unfold runLast runC kernelRun0_C
  simp only [↓View.readAt_eq_ld, ↓Memref.IsWhole.read_unread]
  sl_unfold_run_names
  unfold hnewOut xcombOut lNew accNew rescale shifted
  simp only [Pieces.canon0, Pieces.ld0, ↓View.readAt_eq_ld, ↓Memref.IsWhole.read_unread, View.readCov_cons_toLoadRect]

theorem out13_eq (xs17 : Vec F S1x2048 .f32) :
    out13 V c xs17 = attnwOut (lNew (bE V c tLast) (bH V c tLast) (bAw V c tLast) (bAb V c tLast) (mla0 V c 6 six_lt).1 (mla0 V c 6 six_lt).2.1)
      (lastScores V c xs17) (mNew (bE V c tLast) (bH V c tLast) (bAw V c tLast) (bAb V c tLast) (mla0 V c 6 six_lt).1) := by
  unfold out13 over13
  rw [View.read_writes_junk_eq_canon]
  unfold runLast runC kernelRun0_C
  simp only [↓View.readAt_eq_ld, ↓Memref.IsWhole.read_unread]
  sl_unfold_run_names
  unfold lastScores attnwOut lNew mNew rescale shifted sTile
  simp only [Pieces.canon0, Pieces.ld0, ↓View.readAt_eq_ld, ↓Memref.IsWhole.read_unread, View.readCov_cons_toLoadRect]
  rw [Pieces.row_after_last_tile _ _ xs17 ((Memref.isWhole_whole _ : scM17.IsWhole).read_unread xs17) _ _ _ (Pieces.off_row tLast) (Pieces.off_col tLast)]

theorem out12_indep (xs xs' : Vec F S1x2048 .f32) : out12 V c xs = out12 V c xs' := by
  rw [out12_eq, out12_eq]

theorem out13_congr (xs xs' : Vec F S1x2048 .f32) (h : ∀ j : Fin 2048, j.val < 1792 → xs (ix2 0 j) = xs' (ix2 0 j)) :
    out13 V c xs = out13 V c xs' := by
  rw [out13_eq, out13_eq]
  have e : lastScores V c xs = lastScores V c xs' := by
    funext j
    obtain ⟨a, b, rfl⟩ : ∃ (a : Fin 1) (b : Fin 2048), j = ix2 a b := ⟨j 0, j 1, eq_ix2 j⟩
    obtain rfl : a = 0 := Subsingleton.elim _ _
    unfold lastScores
    by_cases hb : 1792 ≤ ((ix2 (0 : Fin 1) b : S1x2048.Idx) 1).val
    · rw [dif_pos hb, dif_pos hb]
    · rw [dif_neg hb, dif_neg hb]; exact h b (by have : ((ix2 (0 : Fin 1) b : S1x2048.Idx) 1).val = b.val := rfl; omega)
  rw [e]

theorem sc17_agree_upto (d d' : Vec F S1x2048 .f32) :
    ∀ (n : ℕ) (hn : n < cfg0.N), n ≤ 6 → ∀ j : Fin 2048, j.val < 256 * (n + 1) →
      sc17 V c d n hn (ix2 0 j) = sc17 V c d' n hn (ix2 0 j)
  | 0, hn, _, j, hj =>
    (sc17_zero_tile V c d hn ⟨j.val, by omega⟩).trans (sc17_zero_tile V c d' hn ⟨j.val, by omega⟩).symm
  | n + 1, hn, h6, j, hj => by
    have h7 : n + 1 ≠ 7 := by omega
    by_cases hlt : j.val < 256 * (n + 1)
    · rw [sc17_succ_keep V c d n hn h7 j (Or.inl hlt), sc17_succ_keep V c d' n hn h7 j (Or.inl hlt)]
      exact sc17_agree_upto d d' n (Nat.lt_of_succ_lt hn) (by omega) j hlt
    · obtain ⟨q, hq, rfl⟩ : ∃ (q : Fin 256) (hq : 256 * (n + 1) + q.val < 2048), j = ⟨256 * (n + 1) + q.val, hq⟩ :=
        ⟨⟨j.val - 256 * (n + 1), by omega⟩,
          by have := j.isLt; show 256 * (n + 1) + (j.val - 256 * (n + 1)) < 2048; omega,
          Fin.ext (by show j.val = 256 * (n + 1) + (j.val - 256 * (n + 1)); omega)⟩
      exact (sc17_succ_tile V c d n hn h7 q).trans (sc17_succ_tile V c d' n hn h7 q).symm

theorem sc17_agree (d d' : Vec F S1x2048 .f32) (j : Fin 2048) (hj : j.val < 1792) :
    sc17 V c d 6 six_lt (ix2 0 j) = sc17 V c d' 6 six_lt (ix2 0 j) :=
  sc17_agree_upto V c d d' 6 six_lt (le_refl 6) j (by omega)

end Cert.KernelIdeal.R0

end
-- ==== Proof.Frame0.lean ====
import proofs.«429206_j20933670601086_3_alg».proof.Proof.Gen.KernelIdeal.Launch
import proofs.«429206_j20933670601086_3_alg».proof.Proof.Gen.KernelIdeal.Skeleton
import proofs.«429206_j20933670601086_3_alg».proof.Proof.Gen.KernelIdeal.Points
import Idealize.ShloMosaic.Lib.Pipeline.FrameBody
import Idealize.ShloMosaic.Lib.Ring
import Idealize.ShloMosaic.Lib.Tactic
import proofs.«429206_j20933670601086_3_alg».proof.Proof.Outs0
import proofs.«429206_j20933670601086_3_alg».proof.Proof.Pieces0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

-- A buffer of the core, whole at some contents.
def anyBuf (c : Dev nD) (b : Ref sig .tc) : sProp 𝕄 := iprop(∃ f : Buf (Elt F) ((c : Thread nD τ).loc b), ((c : Thread nD τ).loc b) ↦{fullShare} f)

def rest0 (c : Dev nD) : sProp 𝕄 :=
  iprop(anyBuf (F := F) c cc1_stg0_0 ∗ anyBuf (F := F) c cc1_stg1_0 ∗ anyBuf (F := F) c cc1_stg1_1 ∗ anyBuf (F := F) c cc1_stg2_0 ∗ anyBuf (F := F) c cc1_stg2_1 ∗ anyBuf (F := F) c cc1_stg3_0 ∗ anyBuf (F := F) c cc1_stg3_1)

theorem PhiA0_eq (c : Dev nD) :
    (Pipeline.ΦA spec0 c : sProp 𝕄)
      = iprop(iprop((∃ d, owns (c : Thread nD τ) scM14 fullShare d) ∗ (∃ d, owns (c : Thread nD τ) scM15 fullShare d) ∗ (∃ d, owns (c : Thread nD τ) scM16 fullShare d) ∗ (∃ d, owns (c : Thread nD τ) scM17 fullShare d) ∗ rest0 (F := F) c) ∗ (∃ r, prngReg c r)) := by
  unfold Pipeline.ΦA rest0 anyBuf; rw [scopedRest0_eq]; simp only [scM14, scM15, scM16, scM17, owns_whole]; try rfl

variable (V : Entry F) (c : Dev nD)

-- Between two points that are not the ends: the three small scratch buffers at what point `n` left, the scores at its tiles over what they held.
def PhiMid (n : ℕ) (hn : n < cfg0.N) : sProp 𝕄 :=
  iprop(iprop(owns (c : Thread nD τ) scM14 fullShare (mla0 V c n hn).1 ∗ owns (c : Thread nD τ) scM15 fullShare (mla0 V c n hn).2.1 ∗ owns (c : Thread nD τ) scM16 fullShare (mla0 V c n hn).2.2 ∗ (∃ d, owns (c : Thread nD τ) scM17 fullShare (sc17 V c d n hn)) ∗ rest0 (F := F) c) ∗ (∃ r, prngReg c r))

def PhiS : (n : ℕ) → n ≤ cfg0.N → sProp 𝕄
  | 0, _ => Pipeline.ΦA spec0 c
  | n + 1, hn => if n = 7 then Pipeline.ΦA spec0 c else PhiMid V c n hn

theorem PhiS_zero (n : ℕ) (h : n ≤ cfg0.N) (hz : n = 0) : PhiS V c n h = Pipeline.ΦA spec0 c := by
  subst hz; rfl
theorem PhiS_succ (n : ℕ) (hn : n < cfg0.N) (h7 : n ≠ 7) : PhiS V c (n + 1) hn = PhiMid V c n hn := by
  unfold PhiS; exact if_neg h7
theorem PhiS_last (n : ℕ) (hn : n < cfg0.N) (h7 : n = 7) : PhiS V c (n + 1) hn = Pipeline.ΦA spec0 c := by
  unfold PhiS; exact if_pos h7
theorem PhiS_pos (n : ℕ) (h : n ≤ cfg0.N) (hz : n ≠ 0) (h8 : n ≠ 8) : PhiS V c n h = PhiMid V c (n - 1) (by omega) := by
  cases n with
  | zero => exact absurd rfl hz
  | succ n => exact PhiS_succ V c n h (by omega)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out12 V c d17
    | ⟨12, _⟩ => out13 V c (sc17 V c d17 6 six_lt)
  Φ t := PhiS V c t.val (Nat.le_of_lt_succ t.isLt)
  q _ := fullShare
  owed _ := 0

theorem A_eq0 (w : Fin cfg0.W) : (dat0 V c).A w = V c (Pipeline.arrRef spec0 w) := rfl
theorem q_eq0 (w : Fin cfg0.W) : (dat0 V c).q w = fullShare := rfl
theorem owed_eq0 (t : Fin (cfg0.N + 1)) : (dat0 V c).owed t = 0 := rfl
theorem recorded_eq0 (t : Fin (cfg0.N + 1)) : (dat0 V c).recorded t = Set.univ := rfl
theorem PhiS_castSucc (t : Fin cfg0.N) : (dat0 V c).Φ t.castSucc = PhiS V c t.val (Nat.le_of_lt t.isLt) := rfl

theorem after0_11_last : (dat0 V c).after 11 tLast = out12 V c d17 := by dsimp only [dat0]
theorem after0_12_last : (dat0 V c).after 12 tLast = out13 V c (sc17 V c d17 6 six_lt) := by dsimp only [dat0]

theorem before0_in : ∀ w : Fin cfg0.W, w.val < 11 → ∀ t d, (dat0 V c).before w t d = (dat0 V c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d | ⟨8, _⟩, _, t, d | ⟨9, _⟩, _, t, d | ⟨10, _⟩, _, t, d => (dat0 V c).before_in_eq_fetched _ rfl (fun _ => rfl) (fun _ _ _ => rfl) (fun _ => rfl) t d
  | ⟨n + 11, _⟩, h, _, _ => absurd h (Nat.not_lt.mpr (Nat.le_add_left 11 n))

abbrev prev (t : Fin cfg0.N) := mla0 V c (t.val - 1) (Nat.lt_of_le_of_lt (Nat.sub_le _ _) t.isLt)
abbrev runMid (t : Fin cfg0.N) (h0 : t.val ≠ 0) (h7 : t.val ≠ 7) := runB V c t h0 h7 (prev V c t).1 (prev V c t).2.1 (prev V c t).2.2

theorem mla0_A (t : Fin cfg0.N) (h0 : t.val = 0) :
    mla0 V c t.val t.isLt = (over14 (runA V c t h0).1, over15 (runA V c t h0).2.1, over16 (runA V c t h0).2.2.1) := by
  obtain ⟨_ | n, hn⟩ := t
  exacts [rfl, absurd h0 (Nat.succ_ne_zero n)]

theorem sc17_A (d : Vec F S1x2048 .f32) (t : Fin cfg0.N) (h0 : t.val = 0) :
    sc17 V c d t.val t.isLt = onto17 d (runA V c t h0).2.2.2.1 := by
  obtain ⟨_ | n, hn⟩ := t
  exacts [rfl, absurd h0 (Nat.succ_ne_zero n)]

theorem mla0_B (t : Fin cfg0.N) (h0 : t.val ≠ 0) (h7 : t.val ≠ 7) :
    mla0 V c t.val t.isLt = (over14 (runMid V c t h0 h7).1, over15 (runMid V c t h0 h7).2.1, over16 (runMid V c t h0 h7).2.2.1) := by
  obtain ⟨_ | n, hn⟩ := t
  exacts [absurd rfl h0, (dif_neg h7).trans rfl]

theorem sc17_B (d : Vec F S1x2048 .f32) (t : Fin cfg0.N) (h0 : t.val ≠ 0) (h7 : t.val ≠ 7) :
    sc17 V c d t.val t.isLt = onto17 (sc17 V c d (t.val - 1) (Nat.lt_of_le_of_lt (Nat.sub_le _ _) t.isLt)) (runMid V c t h0 h7).2.2.2.1 := by
  obtain ⟨_ | n, hn⟩ := t
  exacts [absurd rfl h0, (dif_neg h7).trans rfl]

-- The last point's pieces cover each output whole, so what they leave does not depend on the view, on what the buffer held, or on the scores at entry.
theorem out12_of_run (e : Vec F S1x2048 .f32) (v : View sig .tc .vmem S1x1024 .f32) (f : v.ty.Contents (Elt F)) :
    v.read (Elt F) (v.writes (Elt F) f (runLast V c (sc17 V c e 6 six_lt)).1) = out12 V c d17 := by
  rw [out12_indep V c d17 (sc17 V c e 6 six_lt)]; unfold out12 over12
  exact View.read_writes_of_cover _ _ _ _ _ (View.cover_of_tiledL _ S1x1024.size (by sl_kernel_rfl))

theorem out13_of_run (e : Vec F S1x2048 .f32) (v : View sig .tc .vmem S1x2048 .f32) (f : v.ty.Contents (Elt F)) :
    v.read (Elt F) (v.writes (Elt F) f (runLast V c (sc17 V c e 6 six_lt)).2.1) = out13 V c (sc17 V c d17 6 six_lt) := by
  rw [out13_congr V c (sc17 V c d17 6 six_lt) (sc17 V c e 6 six_lt) (fun j hj => sc17_agree V c d17 e j hj)]; unfold out13 over13
  exact View.read_writes_of_cover _ _ _ _ _ (View.cover_of_tiledL _ S1x2048.size (by sl_kernel_rfl))

set_option maxHeartbeats 4800000 in
-- The position of the point says which case the body is in: first, middle or last.
theorem body_obligation0 : BodyObligation (dat0 (F := F) V c) (defs₀ (F := F)) Variants.none () Set.univ := fun t => by
  rw [bigSep_W0, bigSep_W0]
  show _ ⊢ wp frame (wpE (defs₀ (F := F)) Variants.none c none) Set.univ (bodyAt0 t) _
  unfold bodyAt0
  rw [liveAt0_0 t, show (dat0 V c).owesAt () t.succ = (dat0 V c).owesAt () t.castSucc from rfl,
    show (dat0 V c).Φ t.succ = PhiS V c (t.val + 1) t.isLt from rfl, PhiS_castSucc V c t]
  simp only [show ∀ t d, (dat0 V c).before 0 t d = iblk0 V c 0 t from before0_in V c 0 (by decide),
    show ∀ t d, (dat0 V c).before 1 t d = iblk0 V c 1 t from before0_in V c 1 (by decide),
    show ∀ t d, (dat0 V c).before 2 t d = iblk0 V c 2 t from before0_in V c 2 (by decide),
    show ∀ t d, (dat0 V c).before 3 t d = iblk0 V c 3 t from before0_in V c 3 (by decide),
    show ∀ t d, (dat0 V c).before 4 t d = iblk0 V c 4 t from before0_in V c 4 (by decide),
    show ∀ t d, (dat0 V c).before 5 t d = iblk0 V c 5 t from before0_in V c 5 (by decide),
    show ∀ t d, (dat0 V c).before 6 t d = iblk0 V c 6 t from before0_in V c 6 (by decide),
    show ∀ t d, (dat0 V c).before 7 t d = iblk0 V c 7 t from before0_in V c 7 (by decide),
    show ∀ t d, (dat0 V c).before 8 t d = iblk0 V c 8 t from before0_in V c 8 (by decide),
    show ∀ t d, (dat0 V c).before 9 t d = iblk0 V c 9 t from before0_in V c 9 (by decide),
    show ∀ t d, (dat0 V c).before 10 t d = iblk0 V c 10 t from before0_in V c 10 (by decide),
    show (dat0 V c).after 0 t = iblk0 V c 0 t from rfl,
    show (dat0 V c).after 1 t = iblk0 V c 1 t from rfl,
    show (dat0 V c).after 2 t = iblk0 V c 2 t from rfl,
    show (dat0 V c).after 3 t = iblk0 V c 3 t from rfl,
    show (dat0 V c).after 4 t = iblk0 V c 4 t from rfl,
    show (dat0 V c).after 5 t = iblk0 V c 5 t from rfl,
    show (dat0 V c).after 6 t = iblk0 V c 6 t from rfl,
    show (dat0 V c).after 7 t = iblk0 V c 7 t from rfl,
    show (dat0 V c).after 8 t = iblk0 V c 8 t from rfl,
    show (dat0 V c).after 9 t = iblk0 V c 9 t from rfl,
    show (dat0 V c).after 10 t = iblk0 V c 10 t from rfl]
  have hN : t.val < 8 := lt_of_lt_of_eq t.isLt (show cfg0.N = 8 from N_0)
  by_cases h7 : t.val = 7
  · obtain rfl : t = tLast := Fin.ext h7
    simp only [show idle0 11 (grid0.coords tLast) = false from liveAt0_11 tLast (c2_of_last tLast rfl), show idle0 12 (grid0.coords tLast) = false from liveAt0_12 tLast (c2_of_last tLast rfl), after0_11_last, after0_12_last]
    rw [PhiS_last V c tLast.val tLast.isLt rfl, PhiA0_eq, PhiS_pos V c tLast.val _ (by decide) (by decide)]; unfold PhiMid
    iintro ⟨⟨⟨HS14, HS15, HS16, ⟨%e17, HS17⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runLast V c (sc17 V c e17 6 six_lt)).2.2.2.2.2.2 Set.univ _)
    iframe H0 H1 H2 H3 H4 H5 H6 H7 H8 H9 H10 HS14 HS15 HS16 HS17
    isplitl [H11]; · iexists _; iexact H11
    isplitl [H12]; · iexists _; iexact H12
    iintro ⟨H0, H1, H2, H3, H4, H5, H6, H7, H8, H9, H10, ⟨%f12, H11⟩, ⟨%f13, H12⟩, ⟨%f14, HS14⟩, ⟨%f15, HS15⟩, ⟨%f16, HS16⟩, HS17⟩
    iframe Hrest Hg Ho H0 H1 H2 H3 H4 H5 H6 H7 H8 H9 H10
    isplitr [H11 H12]
    · isplitl [HS14]; · iexists _; iapply (owns_intro (c : Thread nD τ) scM14 fullShare _); iexact HS14
      isplitl [HS15]; · iexists _; iapply (owns_intro (c : Thread nD τ) scM15 fullShare _); iexact HS15
      isplitl [HS16]; · iexists _; iapply (owns_intro (c : Thread nD τ) scM16 fullShare _); iexact HS16
      iexists _; iapply (owns_intro (c : Thread nD τ) scM17 fullShare _); iexact HS17
    isplitl [H11]
    · unfold owns; iexists _; isplitr
      swap; · iexact H11
      ipureintro; exact out12_of_run V c e17 _ _
    unfold owns; iexists _; isplitr
    swap; · iexact H12
    ipureintro; exact out13_of_run V c e17 _ _
  · simp only [show idle0 11 (grid0.coords t) = true from idleAt0_11 t (nc2_of_notLast t h7), noFlush0_11 t (nc2_of_notLast t h7), show idle0 12 (grid0.coords t) = true from idleAt0_12 t (nc2_of_notLast t h7), noFlush0_12 t (nc2_of_notLast t h7)]
    rw [PhiS_succ V c t.val t.isLt h7]
    by_cases h0 : t.val = 0 <;> [rw [PhiS_zero V c _ _ h0, PhiA0_eq]; rw [PhiS_pos V c _ _ h0 (by omega)]]
    all_goals
      unfold PhiMid; first | rw [mla0_A V c t h0] | rw [mla0_B V c t h0 h7]
      dsimp only; unfold over14 over15 over16
      iintro ⟨⟨⟨HS14, HS15, HS16, ⟨%e17, HS17⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      first
      | iapply ((runA V c t h0).2.2.2.2 ((dat0 V c).before 11 t d11) ((dat0 V c).before 12 t d12) e17 Set.univ _)
      | iapply ((runMid V c t h0 h7).2.2.2.2 ((dat0 V c).before 11 t d11) ((dat0 V c).before 12 t d12) (sc17 V c e17 (t.val - 1) (Nat.lt_of_le_of_lt (Nat.sub_le _ _) t.isLt)) Set.univ _)
      iframe H0 H1 H2 H3 H4 H5 H6 H7 H8 H9 H10 H11 H12 HS14 HS15 HS16 HS17
      iintro ⟨H0, H1, H2, H3, H4, H5, H6, H7, H8, H9, H10, H11, H12, ⟨%f14, HS14⟩, ⟨%f15, HS15⟩, ⟨%f16, HS16⟩, HS17⟩
      iframe Hrest Hg Ho H0 H1 H2 H3 H4 H5 H6 H7 H8 H9 H10
      isplitr [H11 H12]
      · isplitl [HS14]; · ihave H := (Ring.owns_of_writes_tiledL VS14 S1x1.size) $$ HS14; iapply H; ipureintro; sl_kernel_rfl
        isplitl [HS15]; · ihave H := (Ring.owns_of_writes_tiledL VS15 S1x1.size) $$ HS15; iapply H; ipureintro; sl_kernel_rfl
        isplitl [HS16]; · ihave H := (Ring.owns_of_writes_tiledL VS16 S1x1024.size) $$ HS16; iapply H; ipureintro; sl_kernel_rfl
        iexists e17; first | rw [sc17_A V c e17 t h0] | rw [sc17_B V c e17 t h0 h7]
        unfold onto17; iapply (owns_intro (c : Thread nD τ) scM17 fullShare _); iexact HS17
      isplitl [H11] <;> iexists _ <;> iassumption

theorem hin0 : Pipeline.ΦA spec0 c ⊢ (dat0 V c).Φ 0 := by
  rw [show (dat0 V c).Φ 0 = PhiS V c 0 (Nat.zero_le _) from rfl, PhiS_zero V c 0 _ rfl]

theorem hout0 : (dat0 V c).Φ (Fin.last cfg0.N) ⊢ Pipeline.ΦA spec0 c := by
  rw [show (dat0 V c).Φ (Fin.last cfg0.N) = PhiS V c (7 + 1) seven_lt from rfl, PhiS_last V c 7 seven_lt rfl]

end Cert.KernelIdeal.R0

end
-- ==== Proof.Frame1.lean ====
import proofs.«429206_j20933670601086_3_alg».proof.Proof.Gen.KernelIdeal.Launch
import proofs.«429206_j20933670601086_3_alg».proof.Proof.Gen.KernelIdeal.Skeleton
import proofs.«429206_j20933670601086_3_alg».proof.Proof.Gen.KernelIdeal.Points
import Idealize.ShloMosaic.Lib.Pipeline.FrameBody
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

open Cert.KernelIdeal Cert.KernelIdeal.Gen

abbrev Entry (F : FTy → Type) : Type := (c : Dev nD) → (b : Ref sig .tc) → Buf (Elt F) ((c : Thread nD τ).loc b)

theorem readAt_whole {κ : Kind} {sp : Space} {S : Shape} {e : EltTy} (v : View sig κ sp S e) (f : v.ty.Contents (Elt F))
    {off : Fin S.rank → Nat} (hz : off = fun _ => 0) (inb : ∀ a, off a + S.size a ≤ S.size a) :
    v.readAt (Elt F) (Rect.unit off S.size inb).toLoadRect f = v.read (Elt F) f := by
  rw [View.readAt_eq_ld, View.ld_unit_zero hz]

theorem read_write_whole {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero hz inb y⟩),
    View.canon_unit_zero hz]

section ArrAt

variable {cfg : Cfg sig Λ₀} {c : Dev nD} (rd : Pipeline.RDat τ (Elt F) Unit ℕ (UR sig nD τ) ℕ cfg c)

-- A property that every value stored into the array has holds, at the end, of every element stored to: whichever point stored it last stored such a value.
theorem arrAt_forall_of_leaves (w : Fin cfg.W)
    (P : ((cfg.win w).arr.view.loc (c.tc : Thread nD τ)).2.ty.Idx → Elt F ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y)
        (_root_.cast (congrArg (Elt F) ((cfg.win w).blk t).view.elt_eq.symm) ((cfg.win w).cut (cfg.grid.coords t) X y))) :
    ∀ (n : Nat) (t : Fin cfg.N) (i : ((cfg.win w).arr.view.loc (c.tc : Thread nD τ)).2.ty.Idx)
      (G : Buf (Elt F) ((cfg.win w).arr.view.loc (c.tc : Thread nD τ))),
      t.val < n → (cfg.win w).flush t = true → i ∈ ((cfg.win w).blk t).view.set → rd.ArrAt w n G → P i (G i)
  | 0, _, _, _, ht, _, _, _ => absurd ht (Nat.not_lt_zero _)
  | n + 1, t, i, G, ht, hf, hi, hG => by
    simp only [Pipeline.RDat.ArrAt] at hG
    by_cases hn : n < cfg.N
    swap
    · rw [dif_neg hn] at hG
      exact arrAt_forall_of_leaves w P hP n t i G (by have := t.isLt; omega) hf hi hG
    rw [dif_pos hn] at hG
    by_cases hfn : (cfg.win w).flush ⟨n, hn⟩ = true
    · rw [if_pos hfn] at hG
      obtain ⟨G₀, X, hG₀, hL, rfl⟩ := hG
      by_cases hin : i ∈ ((cfg.win w).blk ⟨n, hn⟩).view.set
      · obtain ⟨y, -, rfl⟩ := Finset.mem_map.mp hin
        rw [View.write_emb_of_mem _ _ (Finset.mem_univ y)]
        exact hP _ hfn X hL y
      · rw [View.write_of_not_mem _ _ _ (by rwa [View.setOn_univ])]
        have htn : t.val ≠ n := fun e => hin (by have : t = ⟨n, hn⟩ := Fin.ext e; exact this ▸ hi)
        exact arrAt_forall_of_leaves w P hP n t i G₀ (by omega) hf hi hG₀
    · rw [if_neg hfn] at hG
      have htn : t.val ≠ n := fun e => hfn (by have : t = ⟨n, hn⟩ := Fin.ext e; exact this ▸ hf)
      exact arrAt_forall_of_leaves w P hP n t i G (by omega) hf hi hG

end ArrAt

variable (V : Entry F) (c : Dev nD)

def iblk1 (w : Fin cfg1.W) (t : Fin cfg1.N) :
    ((cfg1.win w).xblock (cfg1.grid.coords t)).Idx → Elt F (cfg1.win w).elt :=
  ((cfg1.win w).blk t).view.read (Elt F) (V c (Pipeline.arrRef spec1 w))

def fet1 (w : Fin cfg1.W) (t : Fin cfg1.N) (d : (cfg1.win w).block.Idx → Elt F (cfg1.win w).elt) :
    (cfg1.win w).block.Idx → Elt F (cfg1.win w).elt :=
  (cfg1.win w).fill (cfg1.grid.coords t) d (iblk1 V c w t)

def rdat1 : Pipeline.RDat τ (Elt F) Unit ℕ (UR sig nD τ) ℕ cfg1 c where
  A w := V c (Pipeline.arrRef spec1 w)
  after w t Y X := match w with
    | ⟨0, _⟩ => X = Y
    | ⟨1, _⟩ => X = Y
    | ⟨2, _⟩ => X = Y
    | ⟨3, _⟩ => ∃ d0 d1 d2, X = k1_pay1 (fet1 V c 0 t d0) (fet1 V c 1 t d1) (fet1 V c 2 t d2)
  Φ _ := Pipeline.ΦA spec1 c
  q _ := fullShare
  owed _ := 0

theorem A_eq1 (w : Fin cfg1.W) : (rdat1 V c).A w = V c (Pipeline.arrRef spec1 w) := rfl
theorem q_eq1 (w : Fin cfg1.W) : (rdat1 V c).q w = fullShare := rfl
theorem owed_eq1 (t : Fin (cfg1.N + 1)) : (rdat1 V c).owed t = 0 := rfl
theorem recorded_eq1 (t : Fin (cfg1.N + 1)) : (rdat1 V c).recorded t = Set.univ := rfl
theorem hin1 : Pipeline.ΦA spec1 c ⊢ (rdat1 V c).Φ 0 := .rfl
theorem hout1 : (rdat1 V c).Φ (Fin.last cfg1.N) ⊢ Pipeline.ΦA spec1 c := .rfl

theorem after1_3 (t : Fin cfg1.N) (Y X) : (rdat1 V c).after 3 t Y X ↔
    ∃ d0 d1 d2, X = k1_pay1 (fet1 V c 0 t d0) (fet1 V c 1 t d1) (fet1 V c 2 t d2) := by dsimp only [rdat1]; exact Iff.rfl

theorem finds1_0 (t : Fin cfg1.N) (Y) (h : (rdat1 V c).Finds 0 t Y) : ∃ d, Y = fet1 V c 0 t d :=
  Pipeline.RDat.finds_in_eq_fetched (rdat1 V c) 0 rfl (fun _ _ _ => rfl) (fun _ _ _ h => h) t Y h
theorem finds1_1 (t : Fin cfg1.N) (Y) (h : (rdat1 V c).Finds 1 t Y) : ∃ d, Y = fet1 V c 1 t d :=
  ((rdat1 V c).finds_of_fetch (fetch1_1 t) Y).mp h
theorem finds1_2 (t : Fin cfg1.N) (Y) (h : (rdat1 V c).Finds 2 t Y) : ∃ d, Y = fet1 V c 2 t d :=
  ((rdat1 V c).finds_of_fetch (fetch1_2 t) Y).mp h

set_option maxHeartbeats 1000000 in
theorem body_obligation1 : (rdat1 (F := F) V c).BodyObligation (defs₀ (F := F)) Variants.none () Set.univ := fun t Y hY => by
  obtain ⟨d0, h0⟩ := finds1_0 V c t (Y 0) (hY 0)
  obtain ⟨d1, h1⟩ := finds1_1 V c t (Y 1) (hY 1)
  obtain ⟨d2, h2⟩ := finds1_2 V c t (Y 2) (hY 2)
  have hz : (![0, 0] : Fin 2 → Nat) = fun _ => 0 := funext fun a => by fin_cases a <;> rfl
  rw [bigSep_W1, bigSep_W1]
  show _ ⊢ wp frame (wpE (defs₀ (F := F)) Variants.none c none) Set.univ (bodyAt1 t) _
  unfold bodyAt1
  rw [show (rdat1 V c).Φ t.succ = (rdat1 V c).Φ t.castSucc from rfl,
    show (rdat1 V c).owesAt () t.succ = (rdat1 V c).owesAt () t.castSucc from rfl]
  simp only [cc1__logits_kernel_eq_skeleton]; unfold cc1__logits_kernel_skel owns
  iintro ⟨HΦ, Ho, ⟨%f0, %hf0, H0⟩, ⟨%f1, %hf1, H1⟩, ⟨%f2, %hf2, H2⟩, ⟨%f3, -, H3⟩⟩
  sl_exec
  sl_step
  iframe HΦ Ho
  isplitl [H0]
  · iexists (Y 0); isplitr; · ipureintro; exact rfl
    iexists f0; iframe H0; ipureintro; exact hf0
  isplitl [H1]
  · iexists (Y 1); isplitr; · ipureintro; exact rfl
    iexists f1; iframe H1; ipureintro; exact hf1
  isplitl [H2]
  · iexists (Y 2); isplitr; · ipureintro; exact rfl
    iexists f2; iframe H2; ipureintro; exact hf2
  iexists (k1_pay1 (Y 0) (Y 1) (Y 2)); isplitr; · ipureintro; exact (after1_3 V c t _ _).mpr ⟨d0, d1, d2, by rw [h0, h1, h2]⟩
  iexists _; iframe H3; ipureintro
  rw [read_write_whole _ _ hz, ← hf0, ← hf1, ← hf2]
  unfold body_obligation1.sl.v0 body_obligation1.sl.v3 body_obligation1.sl.v7
  rw [readAt_whole _ _ hz, readAt_whole _ _ hz, readAt_whole _ _ hz]

theorem lt_extent {ix k d : Nat} {cl : Pipeline.Clip} (h : Pipeline.Clip.Ok ix k d cl) {j : Nat} (hj : j < k) (hd : ix * k + j < d) :
    j < cl.extent k := by
  cases cl with
  | none => exact hj
  | some n => have := h.2.2; show j < n; omega

theorem moved_of_eq {G : Pipeline.Grid} (w : Window sig G) (i : G.Coords) (j : w.block.Idx) (I : w.shape.Idx)
    (h : ∀ a, w.indexMap i a * w.size a + (j a).val = (I a).val) : w.moved i j = true :=
  (w.moved_iff i j).mpr fun a => lt_extent (w.hclip i a) (j a).isLt (lt_of_eq_of_lt (h a) (I a).isLt)

theorem fet1_of_moved (w : Fin cfg1.W) (t : Fin cfg1.N) (d) (j : (cfg1.win w).block.Idx)
    (hm : (cfg1.win w).moved (cfg1.grid.coords t) j = true) :
    fet1 V c w t d j = iblk1 V c w t fun a => ⟨(j a).val, ((cfg1.win w).moved_iff _ j).mp hm a⟩ := by
  unfold fet1 Window.fill; rw [dif_pos hm]

theorem coords1 (t : Fin cfg1.N) : (cfg1.grid.coords t 0).val = t.val := by
  have hN : grid1.N = 25 := N_1
  have ht : t.val < grid1.N := t.isLt
  have hs : grid1.stride 0 = 1 := by decide
  show t.val / grid1.stride 0 % 25 = t.val
  rw [hs]; omega

theorem tr0 (i : grid1.Coords) : cc1_transform_0 i = ![0, 0] := by unfold cc1_transform_0; simp
theorem tr1 (i : grid1.Coords) : cc1_transform_1 i = ![(i 0).val, 0] := by
  unfold cc1_transform_1
  have : (i 0).val < 25 := (i 0).isLt
  simp; omega
theorem tr2 (i : grid1.Coords) : cc1_transform_2 i = ![0, (i 0).val] := by
  unfold cc1_transform_2
  have : (i 0).val < 25 := (i 0).isLt
  simp; omega
theorem tr3 (i : grid1.Coords) : cc1_transform_3 i = ![0, (i 0).val] := by
  unfold cc1_transform_3
  have : (i 0).val < 25 := (i 0).isLt
  simp; omega

theorem fet1_1_apply (t : Fin cfg1.N) (d) (q : Fin 2048) (k : Fin 1024) (h : 2048 * t.val + q.val < 50257) :
    fet1 V c 1 t d (ix2 q k) = V c main_arg12 (ix2 ⟨2048 * t.val + q.val, h⟩ k) := by
  have hc := coords1 t
  have E : ∀ a, cc1_transform_1 (cfg1.grid.coords t) a * (cfg1.win 1).size a + (ix2 q k a).val = (ix2 (⟨2048 * t.val + q.val, h⟩ : Fin 50257) k a).val := fun a => by
    rw [tr1]
    match a with
    | ⟨0, _⟩ => show (cfg1.grid.coords t 0).val * 2048 + q.val = 2048 * t.val + q.val; omega
    | ⟨1, _⟩ => show 0 * 1024 + k.val = k.val; omega
  rw [fet1_of_moved V c 1 t d _ (moved_of_eq _ _ _ _ E)]
  unfold iblk1; rw [View.read_apply]
  show V c main_arg12 _ = V c main_arg12 _
  congr 1; funext a; apply Fin.ext
  show _ + 1 * _ = _; rw [Nat.one_mul]; exact E a

theorem fet1_2_apply (t : Fin cfg1.N) (d) (q : Fin 2048) (h : 2048 * t.val + q.val < 50257) :
    fet1 V c 2 t d (ix2 (0 : Fin 1) q) = V c main_v16 (ix2 (0 : Fin 1) ⟨2048 * t.val + q.val, h⟩) := by
  have hc := coords1 t
  have E : ∀ a, cc1_transform_2 (cfg1.grid.coords t) a * (cfg1.win 2).size a + (ix2 (0 : Fin 1) q a).val = (ix2 (0 : Fin 1) (⟨2048 * t.val + q.val, h⟩ : Fin 50257) a).val := fun a => by
    rw [tr2]
    match a with
    | ⟨0, _⟩ => show 0 * 1 + 0 = 0; omega
    | ⟨1, _⟩ => show (cfg1.grid.coords t 0).val * 2048 + q.val = 2048 * t.val + q.val; omega
  rw [fet1_of_moved V c 2 t d _ (moved_of_eq _ _ _ _ E)]
  unfold iblk1; rw [View.read_apply]
  show V c main_v16 _ = V c main_v16 _
  congr 1; funext a; apply Fin.ext
  show _ + 1 * _ = _; rw [Nat.one_mul]; exact E a

theorem fet1_0_apply (t : Fin cfg1.N) (d) (k : Fin 1024) :
    fet1 V c 0 t d (ix2 (0 : Fin 1) k) = V c main_v15_0 (ix2 (0 : Fin 1) k) := by
  have E : ∀ a, cc1_transform_0 (cfg1.grid.coords t) a * (cfg1.win 0).size a + (ix2 (0 : Fin 1) k a).val = (ix2 (0 : Fin 1) k a).val := fun a => by
    rw [tr0]
    match a with
    | ⟨0, _⟩ => show 0 * 1 + 0 = 0; omega
    | ⟨1, _⟩ => show 0 * 1024 + k.val = k.val; omega
  rw [fet1_of_moved V c 0 t d _ (moved_of_eq _ _ _ _ E)]
  unfold iblk1; rw [View.read_apply]
  show V c main_v15_0 _ = V c main_v15_0 _
  congr 1; funext a; apply Fin.ext
  show _ + 1 * _ = _; rw [Nat.one_mul]; exact E a

-- The claim about one element of the result: at a column `v < 50257` it is the payload of three blocks that agree with the entry arrays where that column reads them.
def OutP (i : S1x51200.Idx) (val : Elt F .f32) : Prop :=
  ∀ (v : Fin 50257) (q : Fin 2048), (i 1).val = v.val → q.val = v.val % 2048 →
    ∃ (x0 : Vec F S1x1024 .f32) (x1 : Vec F S2048x1024 .f32) (x2 : Vec F S1x2048 .f32),
      (∀ k : Fin 1024, x0 (ix2 (0 : Fin 1) k) = V c main_v15_0 (ix2 (0 : Fin 1) k))
      ∧ (∀ k : Fin 1024, x1 (ix2 q k) = V c main_arg12 (ix2 v k))
      ∧ x2 (ix2 (0 : Fin 1) q) = V c main_v16 (ix2 (0 : Fin 1) v)
      ∧ val = k1_pay1 x0 x1 x2 (ix2 (0 : Fin 1) q)

theorem outP_of (t : Fin cfg1.N) (q : Fin 2048) (i : S1x51200.Idx)
    (hi : (i 1).val = 2048 * t.val + q.val) (d0 d1 d2) :
    OutP V c i (k1_pay1 (fet1 V c 0 t d0) (fet1 V c 1 t d1) (fet1 V c 2 t d2) (ix2 (0 : Fin 1) q)) := by
  intro v q' hv hq'
  have e : q' = q := Fin.ext (by rw [hq', ← hv, hi]; have := q.isLt; omega)
  subst e
  have hv' : 2048 * t.val + q'.val < 50257 := by have := v.isLt; omega
  have e' : v = ⟨2048 * t.val + q'.val, hv'⟩ := Fin.ext (by rw [← hv, hi])
  subst e'
  exact ⟨_, _, _, fun k => fet1_0_apply V c t d0 k, fun k => fet1_1_apply V c t d1 q' k hv', fet1_2_apply V c t d2 q' hv', rfl⟩

theorem outP_flushed (t : Fin cfg1.N) (X) (hL : (rdat1 V c).Leaves 3 t X)
    (y : ((cfg1.win 3).xblock (cfg1.grid.coords t)).Idx) :
    OutP V c (((cfg1.win 3).blk t).view.emb y)
      (_root_.cast (congrArg (Elt F) ((cfg1.win 3).blk t).view.elt_eq.symm) ((cfg1.win 3).cut (cfg1.grid.coords t) X y)) := by
  obtain ⟨Y, -, hA⟩ := hL
  obtain ⟨d0, d1, d2, rfl⟩ := (after1_3 V c t Y X).mp hA
  have hc := coords1 t
  have hy1 : (y 1).val < 2048 := (y 1).isLt
  have hy0 : (y 0).val < 1 := (y 0).isLt
  have he : ((((cfg1.win 3).blk t).view.emb y : S1x51200.Idx) 1).val = 2048 * t.val + (y 1).val := by
    show cc1_transform_3 (cfg1.grid.coords t) 1 * 2048 + 1 * (y 1).val = _
    rw [tr3]; show (cfg1.grid.coords t 0).val * 2048 + 1 * (y 1).val = _; omega
  have hidx : (cfg1.win 3).xinj (cfg1.grid.coords t) y = ix2 (0 : Fin 1) (⟨(y 1).val, hy1⟩ : Fin 2048) := by
    funext a; apply Fin.ext
    match a with
    | ⟨0, _⟩ => show (y 0).val = 0; omega
    | ⟨1, _⟩ => rfl
  rw [cast_eq]
  show OutP V c _ (k1_pay1 _ _ _ ((cfg1.win 3).xinj (cfg1.grid.coords t) y))
  rw [hidx]
  exact outP_of V c t ⟨(y 1).val, hy1⟩ _ he d0 d1 d2

theorem out1_apply (X : Buf (Elt F) ((cfg1.win 3).arr.view.loc (c.tc : Thread nD τ)))
    (hX : (rdat1 V c).ArrAt 3 cfg1.N X) (v : Fin 50257) :
    ∃ (x0 : Vec F S1x1024 .f32) (x1 : Vec F S2048x1024 .f32) (x2 : Vec F S1x2048 .f32),
      (∀ k : Fin 1024, x0 (ix2 (0 : Fin 1) k) = V c main_v15_0 (ix2 (0 : Fin 1) k))
      ∧ (∀ k : Fin 1024, x1 (ix2 (⟨v.val % 2048, Nat.mod_lt _ (by omega)⟩ : Fin 2048) k) = V c main_arg12 (ix2 v k))
      ∧ x2 (ix2 (0 : Fin 1) (⟨v.val % 2048, Nat.mod_lt _ (by omega)⟩ : Fin 2048)) = V c main_v16 (ix2 (0 : Fin 1) v)
      ∧ X (ix2 (0 : Fin 1) (⟨v.val, by omega⟩ : Fin 51200))
          = k1_pay1 x0 x1 x2 (ix2 (0 : Fin 1) (⟨v.val % 2048, Nat.mod_lt _ (by omega)⟩ : Fin 2048)) := by
  have hN : cfg1.N = 25 := N_1
  have hv := v.isLt
  let t : Fin cfg1.N := ⟨v.val / 2048, by rw [hN]; omega⟩
  have hc := coords1 t
  have htv : t.val = v.val / 2048 := rfl
  have hi : (ix2 (0 : Fin 1) (⟨v.val, by omega⟩ : Fin 51200) : S1x51200.Idx) ∈ ((cfg1.win 3).blk t).view.set := by
    show _ ∈ ((View.whole main_v17).slice (win1_3.rect t)).set
    rw [View.set_slice_whole, Rect.mem_set_unit]
    intro a
    match a with
    | ⟨0, _⟩ =>
      show cc1_transform_3 (cfg1.grid.coords t) 0 * 1 ≤ 0 ∧ 0 < cc1_transform_3 (cfg1.grid.coords t) 0 * 1 + 1
      rw [tr3]; show 0 * 1 ≤ 0 ∧ 0 < 0 * 1 + 1; omega
    | ⟨1, _⟩ =>
      show cc1_transform_3 (cfg1.grid.coords t) 1 * 2048 ≤ v.val ∧ v.val < cc1_transform_3 (cfg1.grid.coords t) 1 * 2048 + 2048
      rw [tr3]; show (cfg1.grid.coords t 0).val * 2048 ≤ v.val ∧ v.val < (cfg1.grid.coords t 0).val * 2048 + 2048; omega
  exact arrAt_forall_of_leaves (rdat1 V c) 3 (OutP V c) (fun t _ X hL y => outP_flushed V c t X hL y) cfg1.N t _ X t.isLt
    (flush1_3 t) hi hX v ⟨v.val % 2048, Nat.mod_lt _ (by omega)⟩ rfl rfl

end Cert.KernelIdeal.R1

end
-- ==== Proof.RunMain.lean ====
import proofs.«429206_j20933670601086_3_alg».proof.Proof.Gen.KernelIdeal.Regions
import proofs.«429206_j20933670601086_3_alg».proof.Proof.Frame0
import proofs.«429206_j20933670601086_3_alg».proof.Proof.Frame1
import Idealize.ShloMosaic.Lib.Pipeline.FrameSuffix

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg)

variable {F : FTy → Type} [FloatOps F]

local notation "𝕄" => MT nD τ sig Unit (Elt F) ℕ (UR sig nD τ) ℕ
open Cert.KernelIdeal Cert.KernelIdeal.Gen

variable (m : (ℓ : Loc nD τ sig) → Buf (Elt F) ℓ)

section
variable (c : Dev nD)

abbrev E0 : Valuation τ sig (Elt F) := fun b => m (c, b)
abbrev E1 : Valuation τ sig (Elt F) := StableHlo.after hostOps0 (E0 m c)
abbrev Vin0 : R0.Entry F := fun d b => E1 m d b

/-- E1 with each windowed array of region 0 replaced by its final contents. -/
def E2 : Valuation τ sig (Elt F) :=
  Pipeline.withArrays spec0 c (E1 m c) fun w => (R0.dat0 (Vin0 m) c).arrAt w cfg0.N

theorem E2_arr (w : Fin cfg0.W) :
    E2 m c (Proc.devRef .tc (Pipeline.arrRef spec0 w)) = (R0.dat0 (Vin0 m) c).arrAt w cfg0.N :=
  Pipeline.withArrays_arr spec0 launch0.win.arr_inj c _ _ w
theorem E2_of_ne (b : Ref sig .tc) (hb : ∀ w, Pipeline.arrRef spec0 w ≠ b) :
    E2 m c (Proc.devRef .tc b) = E1 m c (Proc.devRef .tc b) :=
  Pipeline.withArrays_of_ne spec0 c _ _ b hb

theorem isIn0 : ∀ w : Fin cfg0.W, Pipeline.arrRef spec0 w ≠ main_v15_0 → Pipeline.arrRef spec0 w ≠ main_v15_1 →
    (cfg0.win w).isOut = false := by decide

theorem E2_main_v15_0 : E2 m c (Proc.devRef .tc main_v15_0) = (R0.dat0 (Vin0 m) c).arrAt 11 cfg0.N := E2_arr m c 11
theorem E2_main_v15_1 : E2 m c (Proc.devRef .tc main_v15_1) = (R0.dat0 (Vin0 m) c).arrAt 12 cfg0.N := E2_arr m c 12
/-- An input window's final contents are its entry contents, and a buffer under no window is not replaced. -/
theorem E2_other (b : Ref sig .tc) (h0 : b ≠ main_v15_0) (h1 : b ≠ main_v15_1) :
    E2 m c (Proc.devRef .tc b) = E1 m c (Proc.devRef .tc b) := by
  by_cases h : ∃ w, Pipeline.arrRef spec0 w = b
  · obtain ⟨w, rfl⟩ := h
    rw [E2_arr, (R0.dat0 (Vin0 m) c).arrAt_in w (isIn0 w h0 h1) _, R0.A_eq0]
  · exact E2_of_ne m c b fun w e => h ⟨w, e⟩

abbrev E3 : Valuation τ sig (Elt F) := StableHlo.after hostOps1 (E2 m c)
abbrev Vin1 : R1.Entry F := fun d b => E3 m d b

variable (X : Buf (Elt F) ((c : Thread nD τ).loc main_v17))

/-- `X` is a contents the second kernel may leave in its output array `main_v17`. -/
abbrev Out1 : Prop := (R1.rdat1 (Vin1 m) c).ArrAt 3 cfg1.N X

abbrev E4 : Valuation τ sig (Elt F) := Function.update (E3 m c) (Proc.devRef .tc main_v17) X

theorem E4_main_v17 : E4 m c X (Proc.devRef .tc main_v17) = X := Function.update_self ..
theorem E4_other (b : Ref sig .tc) (h : b ≠ main_v17) : E4 m c X (Proc.devRef .tc b) = E3 m c (Proc.devRef .tc b) :=
  Function.update_of_ne (StableHlo.devRef_ne_of_ne h) ..

abbrev E5 : Valuation τ sig (Elt F) := StableHlo.after hostOps2 (E4 m c X)
abbrev E6 : Valuation τ sig (Elt F) := StableHlo.after hostOps2_1 (E5 m c X)
abbrev Wfin : Valuation τ sig (Elt F) := StableHlo.after hostOps2_2 (E6 m c X)

/-- No host stretch writes `b`, and it is none of the three arrays the two kernels write. -/
abbrev Kept (b : Ref sig .tc) : Prop :=
  ¬ (Proc.devRef .tc b : DevRef τ sig).isScoped ∧ b ∉ hostOps0_W ∧ b ∉ hostOps1_W ∧ b ∉ hostOps2_W ∧ b ∉ hostOps2_1_W
    ∧ b ∉ hostOps2_2_W ∧ b ≠ main_v15_0 ∧ b ≠ main_v15_1 ∧ b ≠ main_v17

theorem Wfin_kept (b : Ref sig .tc) : Kept b → Wfin m c X (Proc.devRef .tc b) = m ((c : Thread nD τ).loc b)
  | ⟨_, h0, h1, h2, h3, h4, r0, r1, r2⟩ =>
    (StableHlo.after_of_writes_sub hostOps2_2 (E6 m c X) hostOps2_2_writes h4).trans <|
    (StableHlo.after_of_writes_sub hostOps2_1 (E5 m c X) hostOps2_1_writes h3).trans <|
    (StableHlo.after_of_writes_sub hostOps2 (E4 m c X) hostOps2_writes h2).trans <|
    (E4_other m c X b r2).trans <|
    (StableHlo.after_of_writes_sub hostOps1 (E2 m c) hostOps1_writes h1).trans <|
    (E2_other m c b r0 r1).trans <| StableHlo.after_of_writes_sub hostOps0 (E0 m c) hostOps0_writes h0

end

def rdats : (p : Fin 2) → (c : Dev nD) → Pipeline.RDat τ (Elt F) Unit ℕ (UR sig nD τ) ℕ (Pipeline.pin (pcfgs (F := F)) adm p) c
  | ⟨0, _⟩ => fun c => (R0.dat0 (Vin0 m) c).toR
  | ⟨1, _⟩ => fun c => R1.rdat1 (Vin1 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

section
variable (ops : List (HloOp τ sig (Elt F))) (hsub : ops.Forall fun op => op.bufs ⊆ StableHlo.tcRefs τ sig)
  (hfresh : ops.Forall fun op => op.fresh = ∅)

abbrev hseg (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

variable (W : (c : Dev nD) → Buf (Elt F) ((c : Thread nD τ).loc main_v17) → Valuation τ sig (Elt F))

abbrev HX (c : Dev nD) : sProp 𝕄 :=
  iprop(∃ X, ⌜Out1 m c X⌝ ∗ StableHlo.held (c : Thread nD τ) (Pipeline.ucRefs τ sig) (W c X))

set_option backward.isDefEq.respectTransparency.types false in
def hsegX : Pipeline.HostSeg (Name := ℕ) (U := UR sig nD τ) (pcfgs (F := F)) defs₀ 𝒱₀ L lv where
  prog := StableHlo.seq ops
  pre c := iprop(HX m W c ∗ R c)
  post c := iprop(HX m (fun c X => StableHlo.after ops (W c X)) c ∗ R c)
  run c {β} k K := by
    iintro ⟨Hk, Hbd, ⟨⟨%X, %hX, Hh⟩, HR⟩, -⟩
    have hseq := StableHlo.wp_seq (defs := Pipeline.defs (pcfgs (F := F)) defs₀) (Variants.lift 𝒱₀) none Set.univ c (Pipeline.ucRefs τ sig) k (K := K) ops
      (fun op h => Pipeline.sub_ucRefs op ((List.forall_iff_forall_mem.mp hsub) op h))
      (List.forall_iff_forall_mem.mp hfresh) (W c X)
    iapply hseq $$ [Hbd Hh]
    · isplitl [Hbd] <;> iassumption
    iintro ⟨Hbd, Hh⟩
    iapply Hk
    isplitl [Hbd]; · iexact Hbd
    isplitl [Hh]
    · iexists X; isplitr; · ipureintro; exact hX
      iexact Hh
    iexact HR

end

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem arraysAt_open {cfg : Cfg sig Λ₀} {c : Dev nD} (rd : Pipeline.RDat τ (Elt F) Unit ℕ (UR sig nD τ) ℕ cfg c) (n : ℕ) :
    (rd.arraysAt n : sProp 𝕄) ⊢ iprop(∃ A, ⌜∀ w, rd.ArrAt w n (A w)⌝ ∗ rd.arrays A) := by
  unfold Pipeline.RDat.arraysAt Pipeline.RDat.arrays
  iintro Ha
  ihave Ha' := BI.bigSep_exists_pi _ _ $$ Ha
  icases Ha' with ⟨%A, Ha⟩
  ihave Ha2 := BI.bigSep_pure_sep _ _ _ $$ Ha
  icases Ha2 with ⟨%hA, Ha⟩
  iexists A; isplitr; · ipureintro; exact fun w => hA w (Finset.mem_univ w)
  iexact Ha

theorem ub_of_arrays {p : Fin 2} (lf : Pipeline.LaunchFacts (nD := nD) (τ := τ) cfgs p) (c : Dev nD)
    (hshare : ∀ w, (rdats m p c).share w = fullShare) (V V' : (b : Ref sig .tc) → Buf (Elt F) ((c : Thread nD τ).loc b))
    (A : (w : Fin (cfgs p).W) → Buf (Elt F) (((cfgs p).spec w).arr.view.loc (c : Thread nD τ)))
    (hA : ∀ w, A w = V' (Pipeline.arrRef (cfgs p).spec w))
    (hrest : ∀ b, (∀ w, Pipeline.arrRef (cfgs p).spec w ≠ b) → V' b = V b) :
    iprop((rdats m p c).arrays A ∗ Pipeline.unscopedRest (cfgs p).spec c V) ⊢ (unscopedBufs c V' : sProp 𝕄) := by
  rw [Pipeline.unscopedBufs_split (Pipeline.pin (pcfgs (F := F)) adm) p lf.win.arr_unscoped lf.win.arr_inj c V',
    Pipeline.RDat.arrays_eq (pcfgs (F := F)) adm (rdats m) p c lf.arr_whole hshare]
  refine sep_mono (Entails.of_eq (bigSep_congr fun w _ => by rw [hA])) (Entails.of_eq ?_)
  unfold Pipeline.unscopedRest
  exact bigSep_congr fun b hb => by
    rw [hrest b fun w e => (Finset.mem_sdiff.mp hb).2 (Finset.mem_image.mpr ⟨w, Finset.mem_univ _, e⟩)]

set_option backward.isDefEq.respectTransparency.types false in
def regOf (p : Fin 2) (lf : Pipeline.LaunchFacts (nD := nD) (τ := τ) cfgs p) (V : Dev nD → Valuation τ sig (Elt F))
    (S : Dev nD → sProp 𝕄) (hq : ∀ c w, (rdats m p c).q w = fullShare)
    (hA : ∀ c w, (rdats m p c).A w = V c (Proc.devRef .tc (Pipeline.arrRef (cfgs p).spec w)))
    (howed : ∀ c t, (rdats m p c).owed t = 0) (hrec : ∀ c t, (rdats m p c).recorded t = Set.univ)
    (hbody : ∀ c, (rdats m p c).BodyObligation defs₀ 𝒱₀ () Set.univ)
    (hfst : ∀ c, Pipeline.ΦA (cfgs p).spec c ⊢ (rdats m p c).Φ 0)
    (hlst : ∀ c, (rdats m p c).Φ (Fin.last (cfgs p).N) ⊢ Pipeline.ΦA (cfgs p).spec c)
    (hS : ∀ (c : Dev nD) (A : (w : Fin (cfgs p).W) → Buf (Elt F) (((cfgs p).spec w).arr.view.loc (c : Thread nD τ))),
      (∀ w, (rdats m p c).ArrAt w (cfgs p).N (A w)) → ∃ V' : Valuation τ sig (Elt F),
        (∀ w, A w = V' (Proc.devRef .tc (Pipeline.arrRef (cfgs p).spec w)))
        ∧ (∀ b : Ref sig .tc, (∀ w, Pipeline.arrRef (cfgs p).spec w ≠ b) → V' (Proc.devRef .tc b) = V c (Proc.devRef .tc b))
        ∧ (StableHlo.held (c : Thread nD τ) (Pipeline.ucRefs τ sig) V' ⊢ S c)) :
    Pipeline.RDat.RegionSeg (pcfgs (F := F)) adm (rdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.RDat.hwaits_of_owed_zero _ _ _ _ L lv p howed
  pre c := iprop(StableHlo.held (c : Thread nD τ) (Pipeline.ucRefs τ sig) (V c) ∗ R c)
  post c := iprop(S c ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.RDat.arrays_of_unscopedBufs (p := p) (pcfgs (F := F)) adm (rdats m) lf.win lf.arr_whole c
      ((rdats m p c).share_full (hq c)) (fun b => V c b) (hA c)
    rw [Pipeline.unscopedBufs_held c (V c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      rw [howed c 0]
      icases HO with ⟨%W, HO⟩; iexists W; isplitr
      · ipureintro; exact fun x _ => Or.inl (by rw [hrec c 0]; trivial)
      iexact HO
    isplitl [Hp]; · iexact Hp
    iexact Hrest
  hin c := by
    refine (?_ : _ ⊢ Pipeline.ΦA (cfgs p).spec c).trans (hfst c)
    unfold Pipeline.ΦA
    iintro ⟨Hp, -, Hr⟩
    isplitl [Hr]; · iexact Hr
    iexact Hp
  hout c := by
    rw [Pipeline.ownSems0_none]
    refine (hlst c).trans ?_
    unfold Pipeline.ΦA
    iintro ⟨Hr, Hp⟩
    isplitl [Hp]; · iexact Hp
    isplitr; · iempintro
    iexact Hr
  hexit c := by
    iintro ⟨Ha, HO, HY, Hrest⟩
    ihave Ha' := arraysAt_open (rdats m p c) _ $$ Ha
    icases Ha' with ⟨%A, %hA', Ha⟩
    obtain ⟨V', h1, h2, h3⟩ := hS c A hA'
    imodintro
    isplitl [Ha Hrest]
    · iapply h3
      iapply (Entails.of_eq (Pipeline.unscopedBufs_held c V'))
      iapply (ub_of_arrays m lf c ((rdats m p c).share_full (hq c)) (fun b => V c b) (fun b => V' b) A h1 h2)
      isplitl [Ha] <;> iassumption
    isplitl [HY]; · iexact HY
    unfold Pipeline.RDat.owesAt Pipeline.owesWithin
    rw [howed c (Fin.last _)]
    icases HO with ⟨%W, -, HO⟩; iexists W; iexact HO

theorem isIn1 : ∀ w : Fin cfg1.W, w ≠ 3 → (cfg1.win w).isOut = false ∧ Pipeline.arrRef spec1 w ≠ main_v17 := by decide

set_option backward.isDefEq.respectTransparency.types false in
/-- The first kernel takes the buffers from `E1` to `E2`. -/
def reg0 : Pipeline.RDat.RegionSeg (pcfgs (F := F)) adm (rdats m) () defs₀ 𝒱₀ L lv 0 :=
  regOf m 0 launch0 (E1 m) (fun c => StableHlo.held (c : Thread nD τ) (Pipeline.ucRefs τ sig) (E2 m c))
    (R0.q_eq0 (Vin0 m)) (R0.A_eq0 (Vin0 m)) (R0.owed_eq0 (Vin0 m)) (R0.recorded_eq0 (Vin0 m))
    (fun c => (R0.body_obligation0 (Vin0 m) c).toR) (R0.hin0 (Vin0 m)) (R0.hout0 (Vin0 m))
    fun c A hA => ⟨E2 m c, fun w => ((R0.dat0 (Vin0 m) c).toR_arrAt w _ _ (hA w)).trans (E2_arr m c w).symm, E2_of_ne m c, .rfl⟩

set_option backward.isDefEq.respectTransparency.types false in
/-- The second kernel takes the buffers from `E3` to `main_v17` at SOME contents `Out1` allows, every other buffer as entered. -/
def reg1 : Pipeline.RDat.RegionSeg (pcfgs (F := F)) adm (rdats m) () defs₀ 𝒱₀ L lv 1 :=
  regOf m 1 launch1 (E3 m) (HX m (E4 m))
    (R1.q_eq1 (Vin1 m)) (R1.A_eq1 (Vin1 m)) (R1.owed_eq1 (Vin1 m)) (R1.recorded_eq1 (Vin1 m))
    (R1.body_obligation1 (Vin1 m)) (R1.hin1 (Vin1 m)) (R1.hout1 (Vin1 m))
    fun c (A : (w : Fin cfg1.W) → Buf (Elt F) ((spec1 w).arr.view.loc (c : Thread nD τ))) hA => ⟨E4 m c (A 3),
      fun (w : Fin cfg1.W) => by
        by_cases hw : w = 3
        · subst hw; exact (E4_main_v17 m c (A 3)).symm
        · have h1 : (R1.rdat1 (Vin1 m) c).ArrAt w cfg1.N (A w) := hA w
          rw [(R1.rdat1 (Vin1 m) c).ArrAt_in w (isIn1 w hw).1] at h1
          exact h1.trans ((R1.A_eq1 (Vin1 m) c w).trans (E4_other m c (A 3) _ (isIn1 w hw).2).symm),
      fun b hb => E4_other m c (A 3) b fun e => hb 3 e.symm,
      by
        iintro H; iexists (A 3); isplitr
        · ipureintro; exact hA 3
        iexact H⟩

abbrev Tₙ (c : Dev nD) : sProp 𝕄 := iprop(HX m (Wfin m) c ∗ ∃ r, prngReg c r)

abbrev segsR : List (Pipeline.RDat.Seg (pcfgs (F := F)) adm (rdats m) () defs₀ 𝒱₀ L lv) :=
  [ .host (hseg hostOps0 hostOps0_sub hostOps0_fresh (E0 m)),
    .region (reg0 m),
    .host (hseg hostOps1 hostOps1_sub hostOps1_fresh (E2 m)),
    .region (reg1 m),
    .host (hsegX m hostOps2 hostOps2_sub hostOps2_fresh (E4 m)),
    .host (hsegX m hostOps2_1 hostOps2_1_sub hostOps2_1_fresh (E5 m)),
    .host (hsegX m hostOps2_2 hostOps2_2_sub hostOps2_2_fresh (E6 m)) ]

abbrev AsLaunched (s : MemSt nD τ sig (Elt F)) (c : Dev nD) (b : Ref sig .tc) : Prop :=
  s.mem ((c.tc : Thread nD τ).loc b) = m ((c.tc : Thread nD τ).loc b)
abbrev ArgsKept (s : MemSt nD τ sig (Elt F)) (c : Dev nD) : Prop :=
  AsLaunched m s c main_arg0 ∧ AsLaunched m s c main_arg1 ∧ AsLaunched m s c main_arg2 ∧ AsLaunched m s c main_arg3
  ∧ AsLaunched m s c main_arg4 ∧ AsLaunched m s c main_arg5 ∧ AsLaunched m s c main_arg6 ∧ AsLaunched m s c main_arg7
  ∧ AsLaunched m s c main_arg8 ∧ AsLaunched m s c main_arg9 ∧ AsLaunched m s c main_arg10 ∧ AsLaunched m s c main_arg11
  ∧ AsLaunched m s c main_arg12 ∧ AsLaunched m s c main_arg13

set_option backward.isDefEq.respectTransparency.types false in
/-- @main terminates, and finally on every core, for some X that Out1 allows, the three results are Wfin's at X and the arguments as launched. -/
theorem run_values (ρ : Dev nD → PrngReg) :
    θ_run defs (onTc (τ := τ) (main (F := F))) ⟨m, fun _ => 0, ρ⟩ (fun r => ∀ c : Dev nD,
      ∃ X : Buf (Elt F) ((c : Thread nD τ).loc main_v17), Out1 m c X
      ∧ r.2.mem ((c.tc : Thread nD τ).loc main_v19) = Wfin m c X (Proc.devRef .tc main_v19)
      ∧ r.2.mem ((c.tc : Thread nD τ).loc main_v20) = Wfin m c X (Proc.devRef .tc main_v20)
      ∧ r.2.mem ((c.tc : Thread nD τ).loc main_v15_1) = Wfin m c X (Proc.devRef .tc main_v15_1)
      ∧ ArgsKept m r.2 c) :=
  Pipeline.RDat.θ_run_regions_kit (pcfgs (F := F)) adm (rdats m) () cellOf_inj emb₁ defs₀ 𝒱₀ L lv m ρ main (segsR m)
    (fun c Q => by
      rewrite [main_chain c, Pipeline.RDat.Seg.run_eq_chain]
      exact .rfl)
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ R c)) (Tₙ := Tₙ m)
    (hch := ⟨fun _ => .rfl, fun _ => .rfl, fun _ => .rfl, fun _ => .rfl, fun _ => .rfl, fun _ => .rfl, fun _ => .rfl, fun c =>
      (show iprop(HX m (Wfin m) c ∗ R c) ⊢ iprop(Tₙ m c ∗ ∃ W, owes (c : Thread nD τ) (0 : CellTallies nD τ sig Unit) W) from by
        iintro ⟨H, Hp, HO⟩
        isplitr [HO]
        · isplitl [H] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∃ X : Buf (Elt F) ((c : Thread nD τ).loc main_v17), Out1 m c X
      ∧ ∀ b ∈ Pipeline.ucRefs τ sig, s.mem (((c : Thread nD τ)).1, b) = Wfin m c X b)
    (hfin := fun c s' => by
      iintro ⟨⟨⟨%X, %hX, Hh⟩, -⟩, HSI⟩
      unfold StableHlo.held
      ihave Hr := (pointsTo_read_all (Pipeline.ucRefs τ sig) (fun b => (((c : Thread nD τ)).1, b)) (Wfin m c X) s') $$ [Hh HSI]
      · isplitl [Hh] <;> iassumption
      icases Hr with ⟨%h, HSI⟩
      imodintro
      isplitr; · ipureintro; exact ⟨X, hX, h⟩
      iexact HSI)
    (hQ := fun s h c => by
      obtain ⟨X, hX, hb⟩ := h c
      have ha : ∀ b, Kept b → AsLaunched m s c b := fun b hk => (hb _ (mem_uc b hk.1)).trans (Wfin_kept m c X b hk)
      exact ⟨X, hX, hb _ (mem_uc main_v19 (by decide)), hb _ (mem_uc main_v20 (by decide)), hb _ (mem_uc main_v15_1 (by decide)),
        ha main_arg0 (by decide), ha main_arg1 (by decide), ha main_arg2 (by decide), ha main_arg3 (by decide), ha main_arg4 (by decide),
        ha main_arg5 (by decide), ha main_arg6 (by decide), ha main_arg7 (by decide), ha main_arg8 (by decide), ha main_arg9 (by decide),
        ha main_arg10 (by decide), ha main_arg11 (by decide), ha main_arg12 (by decide), ha main_arg13 (by decide)⟩)

/-- The run's values forgotten: every final state has the argument arrays as launched. -/
theorem frame (ρ : Dev nD → PrngReg) :
    θ_run defs (onTc (τ := τ) (main (F := F))) ⟨m, fun _ => 0, ρ⟩ (fun r => ∀ c : Dev nD, ArgsKept m r.2 c) :=
  (run_values m ρ).mono fun r h c => let ⟨_, _, _, _, _, h'⟩ := h c; h'

end Cert.KernelIdeal.Run

end
-- ==== Proof.Finite.lean ====
import proofs.«429206_j20933670601086_3_alg».proof.Defs
import proofs.«429206_j20933670601086_3_alg».proof.Proof.Gen.Pre_finite_inputs
import Idealize.ShloMosaic.Lib.ReduceAll
import Idealize.ShloMosaic.Lib.ValueIdx
import Mathlib.Data.EReal.Basic

noncomputable section

namespace Cert.FiniteSide

open Idealize.ShloMosaic Idealize.SL.Sem

abbrev S0 : Shape := ⟨0, ![]⟩

instance subsingleton_S0_idx : Subsingleton S0.Idx := ⟨fun a b => funext fun d => d.elim0⟩

theorem real_of_abs_lt_top (x : EReal) (h : max x (-x) < ⊤) : ∃ r : ℝ, x = (r : EReal) := by
  induction x using EReal.rec with
  | bot => simp at h
  | coe r => exact ⟨r, rfl⟩
  | top => simp at h

theorem inf_pattern : Ideal.ofBits .f32 0x7F800000#32 = ⊤ := by simp [Ideal.ofBits, Ideal.ieee]

theorem all_real {s u : Shape} {axes : List (Fin s.rank)}
    (x : FVec Ideal s .f32) (b : S0.BroadcastsInDim s (![] : Fin 0 → Fin s.rank))
    (h : s.ReducesTo axes S0) (hu : 0 < u.numel) (init : IVec u 1) (j : S0.Idx)
    (e : Host.reduce IntOp.andi
          (cmpf .olt (Host.absf x) (broadcastInDim s ![] b (constant (F := Ideal) S0 .f32 0x7F800000#32))) init h hu j = 1#1)
    (i : s.Idx) : ∃ r : ℝ, x i = (r : EReal) := by
  have hi := Host.reduce_andi_all _ init h hu j e i
  have hlt : max (x i) (-(x i)) < ⊤ := by
    by_contra hn
    have h2 : Ideal.cmp .olt (max (x i) (-(x i))) (Ideal.ofBits .f32 0x7F800000#32) = 1#1 := hi
    rw [inf_pattern] at h2
    change BitVec.ofBool (decide (max (x i) (-(x i)) < ⊤)) = 1#1 at h2
    rw [decide_eq_false hn] at h2
    exact absurd h2 (by decide)
  exact real_of_abs_lt_top _ hlt

theorem finite_args [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal))
    ∧ (∀ i, ∃ r : ℝ, m ((c.tc : Thread Cert.KernelIdeal.nD Cert.KernelIdeal.τ).loc Cert.KernelIdeal.main_arg11) i = (r : EReal))
    ∧ (∀ i, ∃ r : ℝ, m ((c.tc : Thread Cert.KernelIdeal.nD Cert.KernelIdeal.τ).loc Cert.KernelIdeal.main_arg12) i = (r : EReal))
    ∧ (∀ i, ∃ r : ℝ, m ((c.tc : Thread Cert.KernelIdeal.nD Cert.KernelIdeal.τ).loc Cert.KernelIdeal.main_arg13) i = (r : EReal)) := by
  have h0 := congrFun (h c) ValueIdx.ix0
  dsimp only [Cert.Pre_finite_inputs.fn, Cert.Pre_finite_inputs.fn_part1, Cert.Pre_finite_inputs.fn_part2,
    Cert.Pre_finite_inputs.fn_part3, Idealize.ShloMosaic.andi] at h0
  simp only [IntOp.andi_eq_one] at h0
  obtain ⟨⟨⟨⟨⟨⟨⟨⟨⟨⟨⟨⟨h1, h2⟩, h3⟩, h4⟩, h5⟩, h6⟩, h7⟩, h8⟩, h9⟩, h10⟩, h11⟩, h12⟩, h13⟩ := h0
  exact ⟨all_real _ _ _ _ _ _ h1, all_real _ _ _ _ _ _ h2, all_real _ _ _ _ _ _ h3, all_real _ _ _ _ _ _ h4,
    all_real _ _ _ _ _ _ h5, all_real _ _ _ _ _ _ h6, all_real _ _ _ _ _ _ h7, all_real _ _ _ _ _ _ h8,
    all_real _ _ _ _ _ _ h9, all_real _ _ _ _ _ _ h10, all_real _ _ _ _ _ _ h11, all_real _ _ _ _ _ _ h12,
    all_real _ _ _ _ _ _ h13⟩

end Cert.FiniteSide

end
-- ==== Proof.HostValue.lean ====
import proofs.«429206_j20933670601086_3_alg».proof.Proof.Gen.KernelIdeal.Launch
import proofs.«429206_j20933670601086_3_alg».proof.Proof.Gen.KernelIdeal.Regions
import Idealize.ShloMosaic.Lib.StableHlo.Run
import Idealize.ShloMosaic.Lib.ValueIdx
import Idealize.ShloMosaic.Lib.ValueLayout

noncomputable section

namespace Cert.KernelIdeal.HostValue

open Cert.KernelIdeal Cert.KernelIdeal.Gen Idealize.ShloMosaic Idealize.ShloMosaic.ValueIdx

variable {F : FTy → Type} [FloatOps F]

theorem ops0_of (W : Valuation τ sig (Elt F)) (r : Ref sig .tc) (h : r ∉ hostOps0_W) :
    StableHlo.after hostOps0 W (Proc.devRef .tc r) = W (Proc.devRef .tc r) :=
  StableHlo.after_of_writes_sub hostOps0 _ hostOps0_writes h

theorem v10_apply (W : Valuation τ sig (Elt F)) (k : Fin 1024) :
    (StableHlo.after hostOps0 W (Proc.devRef .tc main_v10) : S1x1024.Idx → F .f32) (ix2 0 k)
      = (W (Proc.devRef .tc main_arg1) : S1x1x1024.Idx → F .f32) (ix3 0 0 k) := by
  have e : (StableHlo.after hostOps0 W (Proc.devRef .tc main_v10) : S1x1024.Idx → F .f32)
      = shapeCast S1x1024 (W (Proc.devRef .tc main_arg1) : S1x1x1024.Idx → F .f32) shapeCasts_S1x1x1024_S1x1024 := by
    dsimp only [hostOps0]; after_results; rfl
  rw [e]; exact shapeCast_1ab_ab_apply _ _ _ _

theorem v11_apply (W : Valuation τ sig (Elt F)) (j : Fin 2048) :
    (StableHlo.after hostOps0 W (Proc.devRef .tc main_v11) : S1x2048.Idx → F .f32) (ix2 0 j)
      = (W (Proc.devRef .tc main_arg5) : S2048.Idx → F .f32) (ix1 j) := by
  have e : (StableHlo.after hostOps0 W (Proc.devRef .tc main_v11) : S1x2048.Idx → F .f32)
      = shapeCast S1x2048 (W (Proc.devRef .tc main_arg5) : S2048.Idx → F .f32) shapeCasts_S2048_S1x2048 := by
    dsimp only [hostOps0]; after_results; rfl
  rw [e]; exact shapeCast_a_1a_apply _ _ _ _

theorem v12_apply (W : Valuation τ sig (Elt F)) (i : Fin 1024) :
    (StableHlo.after hostOps0 W (Proc.devRef .tc main_v12) : S1x1024.Idx → F .f32) (ix2 0 i)
      = (W (Proc.devRef .tc main_arg7) : S1024.Idx → F .f32) (ix1 i) := by
  have e : (StableHlo.after hostOps0 W (Proc.devRef .tc main_v12) : S1x1024.Idx → F .f32)
      = shapeCast S1x1024 (W (Proc.devRef .tc main_arg7) : S1024.Idx → F .f32) shapeCasts_S1024_S1x1024 := by
    dsimp only [hostOps0]; after_results; rfl
  rw [e]; exact shapeCast_a_1a_apply _ _ _ _

theorem v13_apply (W : Valuation τ sig (Elt F)) (r : Fin 3072) :
    (StableHlo.after hostOps0 W (Proc.devRef .tc main_v13) : S1x3072.Idx → F .f32) (ix2 0 r)
      = (W (Proc.devRef .tc main_arg10) : S3072.Idx → F .f32) (ix1 r) := by
  have e : (StableHlo.after hostOps0 W (Proc.devRef .tc main_v13) : S1x3072.Idx → F .f32)
      = shapeCast S1x3072 (W (Proc.devRef .tc main_arg10) : S3072.Idx → F .f32) shapeCasts_S3072_S1x3072 := by
    dsimp only [hostOps0]; after_results; rfl
  rw [e]; exact shapeCast_a_1a_apply _ _ _ _

theorem v14_apply (W : Valuation τ sig (Elt F)) (r : Fin 3072) :
    (StableHlo.after hostOps0 W (Proc.devRef .tc main_v14) : S1x3072.Idx → F .f32) (ix2 0 r)
      = (W (Proc.devRef .tc main_arg11) : S3072.Idx → F .f32) (ix1 r) := by
  have e : (StableHlo.after hostOps0 W (Proc.devRef .tc main_v14) : S1x3072.Idx → F .f32)
      = shapeCast S1x3072 (W (Proc.devRef .tc main_arg11) : S3072.Idx → F .f32) shapeCasts_S3072_S1x3072 := by
    dsimp only [hostOps0]; after_results; rfl
  rw [e]; exact shapeCast_a_1a_apply _ _ _ _

def rowIdx (a0 : IVec S1 32) : IVec S_ 32 :=
  select (cmpi .slt (shapeCast S_ a0 shapeCasts_S1_S_) (constantI S_ 32 0#32))
    (addi (shapeCast S_ a0 shapeCasts_S1_S_) (constantI S_ 32 50257#32)) (shapeCast S_ a0 shapeCasts_S1_S_)

def colIdx : IVec S_ 32 :=
  select (cmpi .slt (constantI S_ 32 0#32) (constantI S_ 32 0#32)) (addi (constantI S_ 32 0#32) (constantI S_ 32 1024#32))
    (constantI S_ 32 0#32)

def rowK (a0 : IVec S1 32) (a3 : FVec F S50257x1024 .f32) : FVec F S1x1024 .f32 :=
  Host.dynamicSlice S1x1024 a3
    (fun k => ((![rowIdx a0, colIdx] : Fin 2 → IVec S_ 32) k (Shape.Idx.first h_S_)).toInt) sliceFits_S50257x1024_S1x1024

def embK (a0 : IVec S1 32) (a3 : FVec F S50257x1024 .f32) : Fin 1024 → F .f32 := fun k =>
  shapeCast S1x1024 (shapeCast S1024 (rowK a0 a3) shapeCasts_S1x1024_S1024) shapeCasts_S1024_S1x1024 (ix2 0 k)

theorem pair_cast {T : BufTy} (V : Valuation τ sig (Elt F)) (r0 r1 : Ref sig .tc) (hT : ∀ k, (![r0, r1] k).ty = T) :
    (fun k => cast (congrArg (fun U : BufTy => U.Contents (Elt F)) (hT k)) (V (Proc.devRef .tc (![r0, r1] k))))
      = ![cast (congrArg (fun U : BufTy => U.Contents (Elt F)) (hT 0)) (V (Proc.devRef .tc r0)),
          cast (congrArg (fun U : BufTy => U.Contents (Elt F)) (hT 1)) (V (Proc.devRef .tc r1))] := by
  funext k; fin_cases k <;> rfl

theorem v9_eq (W : Valuation τ sig (Elt F)) :
    (StableHlo.after hostOps0 W (Proc.devRef .tc main_v9) : S1x1024.Idx → F .f32)
      = shapeCast S1x1024 (shapeCast S1024
          (rowK (W (Proc.devRef .tc main_arg0) : S1.Idx → BitVec 32) (W (Proc.devRef .tc main_arg3) : S50257x1024.Idx → F .f32))
          shapeCasts_S1x1024_S1024) shapeCasts_S1024_S1x1024 := by
  dsimp only [hostOps0]; after_results
  rw [pair_cast]
  case hT => intro k; fin_cases k <;> rfl
  after_results_simp
  rfl

theorem v9_apply (W : Valuation τ sig (Elt F)) (k : Fin 1024) :
    (StableHlo.after hostOps0 W (Proc.devRef .tc main_v9) : S1x1024.Idx → F .f32) (ix2 0 k)
      = embK (W (Proc.devRef .tc main_arg0)) (W (Proc.devRef .tc main_arg3)) k := by
  rw [v9_eq]; rfl

theorem embK_eq_rowK (tok : IVec S1 32) (tbl : FVec F S50257x1024 .f32) (k : Fin 1024) :
    embK tok tbl k = rowK tok tbl (ix2 0 k) := by
  unfold embK
  rw [shapeCast_a_1a_apply, shapeCast_1a_a_apply]

theorem embK_mem (tok : IVec S1 32) (tbl : FVec F S50257x1024 .f32) (k : Fin 1024) : ∃ i, embK tok tbl k = tbl i := by
  rw [embK_eq_rowK]
  exact ⟨_, rfl⟩

theorem ops1_of (W : Valuation τ sig (Elt F)) (r : Ref sig .tc) (h : r ∉ hostOps1_W) :
    StableHlo.after hostOps1 W (Proc.devRef .tc r) = W (Proc.devRef .tc r) :=
  StableHlo.after_of_writes_sub hostOps1 _ hostOps1_writes h

theorem v16_apply (W : Valuation τ sig (Elt F)) (v : Fin 50257) :
    (StableHlo.after hostOps1 W (Proc.devRef .tc main_v16) : S1x50257.Idx → F .f32) (ix2 0 v)
      = (W (Proc.devRef .tc main_arg13) : S50257.Idx → F .f32) (ix1 v) := by
  have e : (StableHlo.after hostOps1 W (Proc.devRef .tc main_v16) : S1x50257.Idx → F .f32)
      = shapeCast S1x50257 (W (Proc.devRef .tc main_arg13) : S50257.Idx → F .f32) shapeCasts_S50257_S1x50257 := by
    dsimp only [hostOps1]; after_results; rfl
  rw [e]; exact shapeCast_a_1a_apply _ _ _ _

theorem ofBuf_toBuf {sg : RefSig} {Vl : EltTy → Type} {T : BufTy} (x : StableHlo.TRef sg T) (v : T.Contents Vl) :
    x.ofBuf (x.toBuf v) = v := by
  obtain ⟨r, rfl, h1, h2⟩ := x
  rfl

def LSk (x : FVec F S1x50257 .f32) : FVec F S1x50257 .f32 :=
  let mx : FVec F S1 .f32 :=
    maximumf (broadcastInDim S1 ![] bcast_S_S1 (constant (F := F) S_ .f32 0xFF800000#32))
      (Host.reduce FloatOps.maximumf x (constant (F := F) S_ .f32 0xFF800000#32) reducesTo_S1x50257_S1_d1 h_S_)
  let sh : FVec F S1x50257 .f32 :=
    subf x (broadcastInDim S1x50257 ![0, 1] bcast_S1x1_S1x50257_0_1 (broadcastInDim S1x1 ![0] bcast_S1_S1x1_0 mx))
  let se : FVec F S1 .f32 :=
    Host.reduceAdd (Host.exp sh) (constant (F := F) S_ .f32 0x00000000#32) reducesTo_S1x50257_S1_d1 h_S_
  subf sh (broadcastInDim S1x50257 ![0, 1] bcast_S1x1_S1x50257_0_1
    (Host.log (broadcastInDim S1x1 ![0] bcast_S1_S1x1_0 se)))

abbrev T (W : Valuation τ sig (Elt F)) : Valuation τ sig (Elt F) :=
  StableHlo.after hostOps2_2 (StableHlo.after hostOps2_1 (StableHlo.after hostOps2 W))

theorem tail_of (W : Valuation τ sig (Elt F)) (r : Ref sig .tc) (h2 : r ∉ hostOps2_W) (h21 : r ∉ hostOps2_1_W)
    (h22 : r ∉ hostOps2_2_W) : T W (Proc.devRef .tc r) = W (Proc.devRef .tc r) := by
  show StableHlo.after hostOps2_2 _ (Proc.devRef .tc r) = _
  rw [StableHlo.after_of_writes_sub hostOps2_2 _ hostOps2_2_writes h22,
    StableHlo.after_of_writes_sub hostOps2_1 _ hostOps2_1_writes h21,
    StableHlo.after_of_writes_sub hostOps2 _ hostOps2_writes h2]

theorem tail_v15_1 (W : Valuation τ sig (Elt F)) :
    T W (Proc.devRef .tc main_v15_1) = W (Proc.devRef .tc main_v15_1) :=
  tail_of W main_v15_1 (by decide) (by decide) (by decide)

theorem tail_v20_apply (W : Valuation τ sig (Elt F)) (k : Fin 1024) :
    (T W (Proc.devRef .tc main_v20) : S1x1x1024.Idx → F .f32) (ix3 0 0 k)
      = (W (Proc.devRef .tc main_v15_0) : S1x1024.Idx → F .f32) (ix2 0 k) := by
  have e : ∀ X : Valuation τ sig (Elt F),
      (StableHlo.after hostOps2_2 X (Proc.devRef .tc main_v20) : S1x1x1024.Idx → F .f32)
        = shapeCast S1x1x1024 (X (Proc.devRef .tc main_v15_0) : S1x1024.Idx → F .f32) shapeCasts_S1x1024_S1x1x1024 := by
    intro X; dsimp only [hostOps2_2]; after_results; rfl
  show (StableHlo.after hostOps2_2 _ (Proc.devRef .tc main_v20) : S1x1x1024.Idx → F .f32) (ix3 0 0 k) = _
  rw [e, shapeCast_ab_1ab_apply,
    StableHlo.after_of_writes_sub hostOps2_1 _ hostOps2_1_writes (by decide),
    StableHlo.after_of_writes_sub hostOps2 _ hostOps2_writes (by decide)]

theorem ops2_1_v19 (X : Valuation τ sig (Elt F)) :
    (StableHlo.after hostOps2_1 X (Proc.devRef .tc main_v19) : S1x50257.Idx → F .f32)
      = LSk (X (Proc.devRef .tc main_v18) : S1x50257.Idx → F .f32) := by
  dsimp only [hostOps2_1]; after_results
  simp only [ofBuf_toBuf]
  rfl

theorem ops2_v18 (W : Valuation τ sig (Elt F)) :
    (StableHlo.after hostOps2 W (Proc.devRef .tc main_v18) : S1x50257.Idx → F .f32)
      = extractStridedSlice S1x50257 ![0, 0] (W (Proc.devRef .tc main_v17) : S1x51200.Idx → F .f32)
          slices_S1x51200_S1x50257_0_0 := by
  dsimp only [hostOps2]; after_results

def col (j : S1x50257.Idx) : S1x51200.Idx := ix2 (0 : Fin 1) ⟨(j 1).val, by have := idx2_lt1 j; omega⟩

theorem tail_v19 (W : Valuation τ sig (Elt F)) :
    (T W (Proc.devRef .tc main_v19) : S1x50257.Idx → F .f32)
      = LSk (fun j => (W (Proc.devRef .tc main_v17) : S1x51200.Idx → F .f32) (col j)) := by
  show (StableHlo.after hostOps2_2 _ (Proc.devRef .tc main_v19) : S1x50257.Idx → F .f32) = _
  rw [StableHlo.after_of_writes_sub hostOps2_2 _ hostOps2_2_writes (by decide), ops2_1_v19, ops2_v18]
  congr 1
  funext j
  obtain ⟨a, b, rfl⟩ : ∃ (a : Fin 1) (b : Fin 50257), j = ix2 a b := ⟨j 0, j 1, eq_ix2 j⟩
  have ha : a = 0 := Subsingleton.elim _ _
  subst ha
  exact slice2_axis1_apply 0 _ _ 0 b _ (by show b.val = 0 + b.val; omega)

end Cert.KernelIdeal.HostValue

end
-- ==== Proof.LibOnline.lean ====
import Idealize.ShloMosaic.PureOps.Ideal
import Mathlib.Data.EReal.Basic
import Mathlib.Data.EReal.Operations
import Mathlib.Data.EReal.Inv
import Mathlib.Data.Finset.Lattice.Fold
import Mathlib.Algebra.BigOperators.Group.Finset.Basic
import Mathlib.Algebra.BigOperators.Ring.Finset
import Mathlib.Algebra.Order.BigOperators.Group.Finset
import Mathlib.Analysis.SpecialFunctions.Exp

noncomputable section

namespace Cert.LibOnline

open Idealize.ShloMosaic

def tileOf (j : Fin 2048) : Fin 8 := ⟨j.val / 256, by omega⟩

def laneOf (j : Fin 2048) : Fin 256 := ⟨j.val % 256, by omega⟩

def posOf (t : Fin 8) (l : Fin 256) : Fin 2048 := ⟨t.val * 256 + l.val, by omega⟩

theorem tileOf_posOf (t : Fin 8) (l : Fin 256) : tileOf (posOf t l) = t := by
  apply Fin.ext; simp only [tileOf, posOf]; omega
theorem laneOf_posOf (t : Fin 8) (l : Fin 256) : laneOf (posOf t l) = l := by
  apply Fin.ext; simp only [laneOf, posOf]; omega
theorem posOf_tileOf_laneOf (j : Fin 2048) : posOf (tileOf j) (laneOf j) = j := by
  apply Fin.ext; simp only [tileOf, laneOf, posOf]; omega

def posEquiv : Fin 8 × Fin 256 ≃ Fin 2048 where
  toFun p := posOf p.1 p.2
  invFun j := (tileOf j, laneOf j)
  left_inv p := Prod.ext (tileOf_posOf p.1 p.2) (laneOf_posOf p.1 p.2)
  right_inv j := posOf_tileOf_laneOf j

theorem sum_tiles {α : Type*} [AddCommMonoid α] (F : Fin 8 → Fin 256 → α) :
    ∑ t, ∑ l, F t l = ∑ j : Fin 2048, F (tileOf j) (laneOf j) := by
  rw [← Fintype.sum_prod_type (f := fun p : Fin 8 × Fin 256 => F p.1 p.2)]
  exact (Equiv.sum_comp posEquiv.symm (fun p : Fin 8 × Fin 256 => F p.1 p.2)).symm

def upto (n : ℕ) : Finset (Fin 8) := Finset.univ.filter (fun t => t.val < n)

theorem upto_zero : upto 0 = ∅ := by
  ext t; simp [upto]
theorem upto_succ {n : ℕ} (h : n < 8) : upto (n + 1) = insert (⟨n, h⟩ : Fin 8) (upto n) := by
  ext t; simp only [upto, Finset.mem_filter, Finset.mem_univ, true_and, Finset.mem_insert, Fin.ext_iff]; omega
theorem not_mem_upto {n : ℕ} (h : n < 8) : (⟨n, h⟩ : Fin 8) ∉ upto n := by
  simp [upto]
theorem upto_eight : upto 8 = Finset.univ := by
  ext t; simp only [upto, Finset.mem_filter, Finset.mem_univ, true_and, iff_true]; exact t.isLt

theorem coe_sum {ι : Type*} (S : Finset ι) (f : ι → ℝ) :
    ((∑ i ∈ S, f i : ℝ) : EReal) = ∑ i ∈ S, (f i : EReal) := by
  classical
  refine Finset.induction_on S (by simp) ?_
  intro a S ha ih
  rw [Finset.sum_insert ha, Finset.sum_insert ha, EReal.coe_add, ih]

theorem rescale_weighted {ι κ : Type*} (T : Finset ι) (J : Finset κ) (a b : ℝ) (f g : ι → κ → ℝ) :
    Ideal.exp ((a : EReal) - b) * ∑ t ∈ T, ∑ j ∈ J, Ideal.exp ((f t j : EReal) - a) * (g t j : EReal)
      = ∑ t ∈ T, ∑ j ∈ J, Ideal.exp ((f t j : EReal) - b) * (g t j : EReal) := by
  simp only [← EReal.coe_sub, Ideal.exp_coe, ← EReal.coe_mul, ← coe_sum]
  rw [EReal.coe_eq_coe_iff, Finset.mul_sum]
  refine Finset.sum_congr rfl fun t _ => ?_
  rw [Finset.mul_sum]
  refine Finset.sum_congr rfl fun j _ => ?_
  rw [← mul_assoc, ← Real.exp_add]; congr 2; ring

section

variable (s : Fin 8 → Fin 256 → EReal) (e : Fin 8 → Fin 256 → Fin 1024 → EReal)

def tileMax (t : Fin 8) : EReal := Finset.univ.sup (s t)

def M : ℕ → EReal
  | 0 => ⊥
  | n + 1 => max (M n) (if h : n < 8 then tileMax s ⟨n, h⟩ else ⊥)

def L : ℕ → EReal
  | 0 => 0
  | n + 1 => Ideal.exp (M s n - M s (n + 1)) * L n
      + (if h : n < 8 then ∑ j, Ideal.exp (s ⟨n, h⟩ j - M s (n + 1)) else 0)

def A : ℕ → Fin 1024 → EReal
  | 0 => fun _ => 0
  | n + 1 => fun k => Ideal.exp (M s n - M s (n + 1)) * A n k
      + (if h : n < 8 then ∑ j, Ideal.exp (s ⟨n, h⟩ j - M s (n + 1)) * e ⟨n, h⟩ j k else 0)

theorem M_zero : M s 0 = ⊥ := rfl
theorem M_succ_lt {n : ℕ} (h : n < 8) : M s (n + 1) = max (M s n) (tileMax s ⟨n, h⟩) := by
  show max (M s n) (if h : n < 8 then tileMax s ⟨n, h⟩ else ⊥) = _
  rw [dif_pos h]

theorem L_zero : L s 0 = 0 := rfl
theorem L_succ_lt {n : ℕ} (h : n < 8) :
    L s (n + 1) = Ideal.exp (M s n - M s (n + 1)) * L s n
      + ∑ j, Ideal.exp (s ⟨n, h⟩ j - M s (n + 1)) := by
  show _ + (if h : n < 8 then ∑ j, Ideal.exp (s ⟨n, h⟩ j - M s (n + 1)) else 0) = _
  rw [dif_pos h]

theorem A_zero (k : Fin 1024) : A s e 0 k = 0 := rfl
theorem A_succ_lt {n : ℕ} (h : n < 8) (k : Fin 1024) :
    A s e (n + 1) k = Ideal.exp (M s n - M s (n + 1)) * A s e n k
      + ∑ j, Ideal.exp (s ⟨n, h⟩ j - M s (n + 1)) * e ⟨n, h⟩ j k := by
  show _ + (if h : n < 8 then ∑ j, Ideal.exp (s ⟨n, h⟩ j - M s (n + 1)) * e ⟨n, h⟩ j k else 0) = _
  rw [dif_pos h]

-- The denominator is the weighted sum at weight one.
theorem L_eq_A (n : ℕ) (k : Fin 1024) : L s n = A s (fun _ _ _ => 1) n k := by
  induction n with
  | zero => rfl
  | succ n ih =>
    show _ * L s n + _ = _ * A s _ n k + _
    rw [ih]; simp only [mul_one]

theorem M_eq_sup (n : ℕ) (hn : n ≤ 8) : M s n = (upto n).sup (tileMax s) := by
  induction n with
  | zero => rw [M_zero, upto_zero, Finset.sup_empty]
  | succ n ih =>
    have h : n < 8 := hn
    rw [M_succ_lt s h, ih (le_of_lt h), upto_succ h, Finset.sup_insert, max_comm]

theorem M_eight : M s 8 = Finset.univ.sup (fun j : Fin 2048 => s (tileOf j) (laneOf j)) := by
  rw [M_eq_sup s 8 le_rfl, upto_eight]
  apply le_antisymm
  · refine Finset.sup_le fun t _ => Finset.sup_le fun l _ => ?_
    have h := Finset.le_sup (f := fun j : Fin 2048 => s (tileOf j) (laneOf j)) (Finset.mem_univ (posOf t l))
    simpa only [tileOf_posOf, laneOf_posOf] using h
  · refine Finset.sup_le fun j _ => ?_
    exact le_trans (Finset.le_sup (f := s (tileOf j)) (Finset.mem_univ (laneOf j)))
      (Finset.le_sup (f := tileMax s) (Finset.mem_univ (tileOf j)))

variable (hs : ∀ t j, ∃ r : ℝ, s t j = (r : EReal))
include hs

theorem tileMax_real (t : Fin 8) : ∃ r : ℝ, tileMax s t = (r : EReal) := by
  have htop : tileMax s t ≠ ⊤ := by
    apply ne_of_lt
    refine (Finset.sup_lt_iff (bot_lt_top)).2 fun j _ => ?_
    obtain ⟨r, hr⟩ := hs t j
    rw [hr]; exact EReal.coe_lt_top r
  have hbot : tileMax s t ≠ ⊥ := by
    obtain ⟨r, hr⟩ := hs t ⟨0, by omega⟩
    have hle : s t ⟨0, by omega⟩ ≤ tileMax s t := Finset.le_sup (f := s t) (Finset.mem_univ _)
    rw [hr] at hle
    exact ne_of_gt (lt_of_lt_of_le (EReal.bot_lt_coe r) hle)
  exact ⟨(tileMax s t).toReal, (EReal.coe_toReal htop hbot).symm⟩

theorem M_succ_real (n : ℕ) (hn : n < 8) : ∃ r : ℝ, M s (n + 1) = (r : EReal) := by
  induction n with
  | zero =>
    obtain ⟨r, hr⟩ := tileMax_real s hs ⟨0, hn⟩
    exact ⟨r, by rw [M_succ_lt s hn, M_zero, hr, max_eq_right bot_le]⟩
  | succ n ih =>
    obtain ⟨a, ha⟩ := ih (by omega)
    obtain ⟨b, hb⟩ := tileMax_real s hs ⟨n + 1, hn⟩
    exact ⟨max a b, by rw [M_succ_lt s hn, ha, hb]; exact (EReal.coe_strictMono.monotone.map_max).symm⟩

theorem M_eight_real : ∃ r : ℝ, M s 8 = (r : EReal) := M_succ_real s hs 7 (by omega)

theorem A_eq_sum (he : ∀ t j k, ∃ r : ℝ, e t j k = (r : EReal)) (n : ℕ) (hn : n ≤ 8) (k : Fin 1024) :
    A s e n k = ∑ t ∈ upto n, ∑ j, Ideal.exp (s t j - M s n) * e t j k := by
  induction n with
  | zero => rw [A_zero, upto_zero, Finset.sum_empty]
  | succ n ih =>
    have h : n < 8 := hn
    rw [A_succ_lt s e h, ih (le_of_lt h), upto_succ h, Finset.sum_insert (not_mem_upto h), add_comm]
    congr 1
    cases n with
    | zero => rw [upto_zero, Finset.sum_empty, Finset.sum_empty, mul_zero]
    | succ m =>
      obtain ⟨a, ha⟩ := M_succ_real s hs m (by omega)
      obtain ⟨b, hb⟩ := M_succ_real s hs (m + 1) h
      choose sr hsr using hs
      choose er her using he
      simp only [ha, hb, hsr, her]
      exact rescale_weighted _ _ a b sr (fun t j => er t j k)

theorem L_eq_sum (n : ℕ) (hn : n ≤ 8) :
    L s n = ∑ t ∈ upto n, ∑ j, Ideal.exp (s t j - M s n) := by
  rw [L_eq_A s n 0, A_eq_sum s _ hs (fun _ _ _ => ⟨1, EReal.coe_one.symm⟩) n hn 0]
  simp only [mul_one]

theorem L_eight : L s 8 = ∑ j : Fin 2048, Ideal.exp (s (tileOf j) (laneOf j) - M s 8) := by
  rw [L_eq_sum s hs 8 le_rfl, upto_eight]
  exact sum_tiles (fun t l => Ideal.exp (s t l - M s 8))

theorem L_eight_real_pos : ∃ r : ℝ, 0 < r ∧ L s 8 = (r : EReal) := by
  obtain ⟨m, hm⟩ := M_eight_real s hs
  rw [L_eight s hs]
  choose sr hsr using hs
  refine ⟨∑ j : Fin 2048, Real.exp (sr (tileOf j) (laneOf j) - m),
    Finset.sum_pos (fun j _ => Real.exp_pos _) Finset.univ_nonempty, ?_⟩
  simp only [hm, hsr, ← EReal.coe_sub, Ideal.exp_coe, ← coe_sum]

variable (he : ∀ t j k, ∃ r : ℝ, e t j k = (r : EReal))
include he

theorem A_eight (k : Fin 1024) :
    A s e 8 k = ∑ j : Fin 2048, Ideal.exp (s (tileOf j) (laneOf j) - M s 8) * e (tileOf j) (laneOf j) k := by
  rw [A_eq_sum s e hs he 8 le_rfl, upto_eight]
  exact sum_tiles (fun t l => Ideal.exp (s t l - M s 8) * e t l k)

end

theorem mul_inv_eq_div (x l : ℝ) (hl : l ≠ 0) :
    (x : EReal) * Ideal.div 1 (l : EReal) = Ideal.div (x : EReal) (l : EReal) := by
  rw [Ideal.div_coe hl, Ideal.div_coe hl, one_mul]

theorem sum_mul_inv (f : Fin 2048 → ℝ) (g : Fin 2048 → ℝ) (l : ℝ) (hl : l ≠ 0) :
    (∑ j, (f j : EReal) * (g j : EReal)) * Ideal.div 1 (l : EReal)
      = ∑ j, Ideal.div (f j : EReal) (l : EReal) * (g j : EReal) := by
  simp only [Ideal.div_coe hl, one_mul, ← EReal.coe_mul, ← coe_sum]
  rw [EReal.coe_eq_coe_iff, Finset.sum_mul]
  refine Finset.sum_congr rfl fun j _ => ?_
  ring

end Cert.LibOnline

end
-- ==== Proof.Chain0.lean ====
import proofs.«429206_j20933670601086_3_alg».proof.Proof.Steps0
import proofs.«429206_j20933670601086_3_alg».proof.Proof.LibOnline
import Idealize.ShloMosaic.Lib.ValueIdx

noncomputable section

namespace Cert.KernelIdeal.R0

open Idealize.ShloMosaic Cert.KernelIdeal Cert.KernelIdeal.Gen Idealize.ShloMosaic.ValueIdx

variable {F : FTy → Type} [FloatOps F]

section

variable (e h : Vec F S1x1024 .f32) (enc : Fin 8 → Vec F S256x1024 .f32) (aw : Fin 8 → Vec F S256x2048 .f32) (ab : Fin 8 → Vec F S1x256 .f32)

def chain : ℕ → Vec F S1x1 .f32 × Vec F S1x1 .f32 × Vec F S1x1024 .f32
  | 0 => (mNew e h (aw 0) (ab 0) k0_pay14, lNew e h (aw 0) (ab 0) k0_pay14 k0_pay15, accNew e h (enc 0) (aw 0) (ab 0) k0_pay14 k0_pay16)
  | n + 1 =>
    if hn : n + 1 < 8 then
      (mNew e h (aw ⟨n + 1, hn⟩) (ab ⟨n + 1, hn⟩) (chain n).1,
       lNew e h (aw ⟨n + 1, hn⟩) (ab ⟨n + 1, hn⟩) (chain n).1 (chain n).2.1,
       accNew e h (enc ⟨n + 1, hn⟩) (aw ⟨n + 1, hn⟩) (ab ⟨n + 1, hn⟩) (chain n).1 (chain n).2.2)
    else chain n

theorem chain_zero : chain e h enc aw ab 0 = (mNew e h (aw 0) (ab 0) k0_pay14, lNew e h (aw 0) (ab 0) k0_pay14 k0_pay15, accNew e h (enc 0) (aw 0) (ab 0) k0_pay14 k0_pay16) := rfl

theorem chain_succ (n : ℕ) (hn : n + 1 < 8) : chain e h enc aw ab (n + 1) =
    (mNew e h (aw ⟨n + 1, hn⟩) (ab ⟨n + 1, hn⟩) (chain e h enc aw ab n).1,
     lNew e h (aw ⟨n + 1, hn⟩) (ab ⟨n + 1, hn⟩) (chain e h enc aw ab n).1 (chain e h enc aw ab n).2.1,
     accNew e h (enc ⟨n + 1, hn⟩) (aw ⟨n + 1, hn⟩) (ab ⟨n + 1, hn⟩) (chain e h enc aw ab n).1 (chain e h enc aw ab n).2.2) := by
  rw [chain, dif_pos hn]

def scoresAll : Vec F S1x2048 .f32 := fun j =>
  sTile e h (aw (Cert.LibOnline.tileOf (j 1))) (ab (Cert.LibOnline.tileOf (j 1))) (ix2 0 (Cert.LibOnline.laneOf (j 1)))

end

end Cert.KernelIdeal.R0

end
-- ==== Proof.SpecIdx.lean ====
import Idealize.ShloMosaic.Lib.ValueIdx
import Idealize.ShloMosaic.PureOps.Ideal

noncomputable section

namespace Cert.Spec

open Idealize.ShloMosaic Idealize.ShloMosaic.ValueIdx

def vec1 {n : Nat} (x : (⟨1, ![n]⟩ : Shape).Idx → EReal) : Fin n → EReal := fun k => x (ix1 k)
def mat {a b : Nat} (x : (⟨2, ![a, b]⟩ : Shape).Idx → EReal) : Fin a → Fin b → EReal := fun i k => x (ix2 i k)
def hid {n : Nat} (x : (⟨3, ![1, 1, n]⟩ : Shape).Idx → EReal) : Fin n → EReal := fun k => x (ix3 0 0 k)

def unrow {n : Nat} (f : Fin n → EReal) : (⟨2, ![1, n]⟩ : Shape).Idx → EReal := fun j => f (j 1)
def unhid {n : Nat} (f : Fin n → EReal) : (⟨3, ![1, 1, n]⟩ : Shape).Idx → EReal := fun j => f (j 2)

theorem unrow_ix2 {n : Nat} (f : Fin n → EReal) (p : Fin 1) (q : Fin n) : unrow f (ix2 p q) = f q := rfl
theorem unhid_ix3 {n : Nat} (f : Fin n → EReal) (p q : Fin 1) (r : Fin n) : unhid f (ix3 p q r) = f r := rfl

-- An index of a two-axis shape is determined by its two coordinates.
theorem ix2_of_val {n0 n1 : Nat} {j : (⟨2, ![n0, n1]⟩ : Shape).Idx} {i : Fin n0} {k : Fin n1}
    (h0 : (j 0).val = i.val) (h1 : (j 1).val = k.val) : j = ix2 i k :=
  (eq_ix2 j).trans (congrArg₂ ix2 (Fin.ext h0) (Fin.ext h1))

theorem row_ix2 {n : Nat} (j : (⟨2, ![1, n]⟩ : Shape).Idx) : j = ix2 (0 : Fin 1) (j 1) :=
  ix2_of_val (Nat.lt_one_iff.mp (j 0).isLt) rfl

-- A row is determined by its entries.
theorem unrow_ext {n : Nat} {x : (⟨2, ![1, n]⟩ : Shape).Idx → EReal} {f : Fin n → EReal}
    (h : ∀ q, x (ix2 0 q) = f q) : x = unrow f :=
  funext fun j => by rw [row_ix2 j]; exact h (j 1)

end Cert.Spec

end
-- ==== Proof.Glue0.lean ====
import proofs.«429206_j20933670601086_3_alg».proof.Proof.Frame0
import proofs.«429206_j20933670601086_3_alg».proof.Proof.Pieces0
import proofs.«429206_j20933670601086_3_alg».proof.Proof.Chain0
import proofs.«429206_j20933670601086_3_alg».proof.Proof.SpecIdx
import Idealize.ShloMosaic.Lib.ValueIdx
import Idealize.ShloMosaic.Lib.Pipeline.Value

set_option maxRecDepth 16384

noncomputable section

namespace Cert.KernelIdeal.R0

open Idealize.ShloMosaic Idealize.ShloMosaic.TcCoe Cert.KernelIdeal Cert.KernelIdeal.Gen Idealize.ShloMosaic.ValueIdx

variable {F : FTy → Type} [FloatOps F]

variable (V : Entry F) (c : Dev nD)

theorem tval_lt (t : Fin cfg0.N) : t.val < 8 := by have h := t.isLt; have h8 : cfg0.N = 8 := N_0; omega

theorem idx_const : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

theorem idx_tile : ∀ t : Fin cfg0.N,
    (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = t.val) :=
  (by decide +kernel : ∀ t : Fin grid0.N, _)

-- A block's element sits in its array at the block index times the block size plus its own coordinate.
theorem bE_apply (t : Fin cfg0.N) (k : Fin 1024) :
    bE V c t (ix2 0 k) = (V c main_v9 : S1x1024.Idx → Elt F .f32) (ix2 0 k) := by
  obtain ⟨⟨e0, e1⟩, -⟩ := idx_const t
  exact congrArg (V c main_v9 : S1x1024.Idx → Elt F .f32) (Spec.ix2_of_val
    (win0_0.rect_emb_val_of_index_zero t (0 : Fin 2) e0 (ix2 0 k)) (win0_0.rect_emb_val_of_index_zero t (1 : Fin 2) e1 (ix2 0 k)))

theorem bH_apply (t : Fin cfg0.N) (k : Fin 1024) :
    bH V c t (ix2 0 k) = (V c main_v10 : S1x1024.Idx → Elt F .f32) (ix2 0 k) := by
  obtain ⟨-, ⟨e0, e1⟩, -⟩ := idx_const t
  exact congrArg (V c main_v10 : S1x1024.Idx → Elt F .f32) (Spec.ix2_of_val
    (win0_1.rect_emb_val_of_index_zero t (0 : Fin 2) e0 (ix2 0 k)) (win0_1.rect_emb_val_of_index_zero t (1 : Fin 2) e1 (ix2 0 k)))

theorem bEnc_apply (t : Fin cfg0.N) (q : Fin 256) (k : Fin 1024) :
    bEnc V c t (ix2 q k) = (V c main_arg2 : S2048x1024.Idx → Elt F .f32) (ix2 ⟨256 * t.val + q.val, by have := tval_lt t; omega⟩ k) := by
  obtain ⟨⟨e0, e1⟩, -⟩ := idx_tile t
  refine congrArg (V c main_arg2 : S2048x1024.Idx → Elt F .f32) (Spec.ix2_of_val ?_
    (win0_2.rect_emb_val_of_index_zero t (1 : Fin 2) e1 (ix2 q k)))
  show win0_2.index t (0 : Fin 2) * 256 + 1 * q.val = 256 * t.val + q.val; omega

theorem bAw_apply (t : Fin cfg0.N) (q : Fin 256) (k : Fin 2048) :
    bAw V c t (ix2 q k) = (V c main_arg4 : S2048x2048.Idx → Elt F .f32) (ix2 ⟨256 * t.val + q.val, by have := tval_lt t; omega⟩ k) := by
  obtain ⟨-, ⟨e0, e1⟩, -⟩ := idx_tile t
  refine congrArg (V c main_arg4 : S2048x2048.Idx → Elt F .f32) (Spec.ix2_of_val ?_
    (win0_3.rect_emb_val_of_index_zero t (1 : Fin 2) e1 (ix2 q k)))
  show win0_3.index t (0 : Fin 2) * 256 + 1 * q.val = 256 * t.val + q.val; omega

theorem bAb_apply (t : Fin cfg0.N) (q : Fin 256) :
    bAb V c t (ix2 0 q) = (V c main_v11 : S1x2048.Idx → Elt F .f32) (ix2 0 ⟨256 * t.val + q.val, by have := tval_lt t; omega⟩) := by
  obtain ⟨-, -, e0, e1⟩ := idx_tile t
  refine congrArg (V c main_v11 : S1x2048.Idx → Elt F .f32) (Spec.ix2_of_val
    (win0_4.rect_emb_val_of_index_zero t (0 : Fin 2) e0 (ix2 0 q)) ?_)
  show win0_4.index t (1 : Fin 2) * 256 + 1 * q.val = 256 * t.val + q.val; omega

theorem bCw_apply (t : Fin cfg0.N) (i : Fin 1024) (k : Fin 2048) :
    bCw V c t (ix2 i k) = (V c main_arg6 : S1024x2048.Idx → Elt F .f32) (ix2 i k) := by
  obtain ⟨-, -, ⟨e0, e1⟩, -⟩ := idx_const t
  exact congrArg (V c main_arg6 : S1024x2048.Idx → Elt F .f32) (Spec.ix2_of_val
    (win0_5.rect_emb_val_of_index_zero t (0 : Fin 2) e0 (ix2 i k)) (win0_5.rect_emb_val_of_index_zero t (1 : Fin 2) e1 (ix2 i k)))

theorem bCb_apply (t : Fin cfg0.N) (k : Fin 1024) :
    bCb V c t (ix2 0 k) = (V c main_v12 : S1x1024.Idx → Elt F .f32) (ix2 0 k) := by
  obtain ⟨-, -, -, ⟨e0, e1⟩, -⟩ := idx_const t
  exact congrArg (V c main_v12 : S1x1024.Idx → Elt F .f32) (Spec.ix2_of_val
    (win0_6.rect_emb_val_of_index_zero t (0 : Fin 2) e0 (ix2 0 k)) (win0_6.rect_emb_val_of_index_zero t (1 : Fin 2) e1 (ix2 0 k)))

theorem bWih_apply (t : Fin cfg0.N) (i : Fin 3072) (k : Fin 1024) :
    bWih V c t (ix2 i k) = (V c main_arg8 : S3072x1024.Idx → Elt F .f32) (ix2 i k) := by
  obtain ⟨-, -, -, -, ⟨e0, e1⟩, -⟩ := idx_const t
  exact congrArg (V c main_arg8 : S3072x1024.Idx → Elt F .f32) (Spec.ix2_of_val
    (win0_7.rect_emb_val_of_index_zero t (0 : Fin 2) e0 (ix2 i k)) (win0_7.rect_emb_val_of_index_zero t (1 : Fin 2) e1 (ix2 i k)))

theorem bWhh_apply (t : Fin cfg0.N) (i : Fin 3072) (k : Fin 1024) :
    bWhh V c t (ix2 i k) = (V c main_arg9 : S3072x1024.Idx → Elt F .f32) (ix2 i k) := by
  obtain ⟨-, -, -, -, -, ⟨e0, e1⟩, -⟩ := idx_const t
  exact congrArg (V c main_arg9 : S3072x1024.Idx → Elt F .f32) (Spec.ix2_of_val
    (win0_8.rect_emb_val_of_index_zero t (0 : Fin 2) e0 (ix2 i k)) (win0_8.rect_emb_val_of_index_zero t (1 : Fin 2) e1 (ix2 i k)))

theorem bBih_apply (t : Fin cfg0.N) (k : Fin 3072) :
    bBih V c t (ix2 0 k) = (V c main_v13 : S1x3072.Idx → Elt F .f32) (ix2 0 k) := by
  obtain ⟨-, -, -, -, -, -, ⟨e0, e1⟩, -⟩ := idx_const t
  exact congrArg (V c main_v13 : S1x3072.Idx → Elt F .f32) (Spec.ix2_of_val
    (win0_9.rect_emb_val_of_index_zero t (0 : Fin 2) e0 (ix2 0 k)) (win0_9.rect_emb_val_of_index_zero t (1 : Fin 2) e1 (ix2 0 k)))

theorem bBhh_apply (t : Fin cfg0.N) (k : Fin 3072) :
    bBhh V c t (ix2 0 k) = (V c main_v14 : S1x3072.Idx → Elt F .f32) (ix2 0 k) := by
  obtain ⟨-, -, -, -, -, -, -, e0, e1⟩ := idx_const t
  exact congrArg (V c main_v14 : S1x3072.Idx → Elt F .f32) (Spec.ix2_of_val
    (win0_10.rect_emb_val_of_index_zero t (0 : Fin 2) e0 (ix2 0 k)) (win0_10.rect_emb_val_of_index_zero t (1 : Fin 2) e1 (ix2 0 k)))

theorem bE_const (t t' : Fin cfg0.N) : bE V c t = bE V c t' := by
  funext j; rw [Spec.row_ix2 j]
  exact (bE_apply V c t _).trans (bE_apply V c t' _).symm
theorem bH_const (t t' : Fin cfg0.N) : bH V c t = bH V c t' := by
  funext j; rw [Spec.row_ix2 j]
  exact (bH_apply V c t _).trans (bH_apply V c t' _).symm

theorem flushed11_eq (t : Fin cfg0.N) (hf : (cfg0.win 11).flush t = true) :
    (dat0 V c).flushed 11 t = ((cfg0.win 11).blk t).view.read (Elt F) (out12 V c d17) := by
  have h1 : t.val = 7 := by have := (flush0_11 t).mp hf; have := tval_lt t; omega
  obtain rfl : t = tLast := Fin.ext h1
  show (cfg0.win 11).cut (grid0.coords tLast) ((dat0 V c).after 11 tLast) = _
  rw [after0_11_last]
  have hz' : (fun a => win0_11.index tLast a * main_v15_0.ty.shape.size a) = fun _ => 0 := funext fun a => by fin_cases a <;> decide +kernel
  exact (Memref.read_access_unit_zero (Elt F) main_v15_0 hz' (fun a => by rw [congrFun hz' a]; simp) (out12 V c d17)).symm

theorem flushed12_eq (t : Fin cfg0.N) (hf : (cfg0.win 12).flush t = true) :
    (dat0 V c).flushed 12 t = ((cfg0.win 12).blk t).view.read (Elt F) (out13 V c (sc17 V c d17 6 six_lt)) := by
  have h1 : t.val = 7 := by have := (flush0_12 t).mp hf; have := tval_lt t; omega
  obtain rfl : t = tLast := Fin.ext h1
  show (cfg0.win 12).cut (grid0.coords tLast) ((dat0 V c).after 12 tLast) = _
  rw [after0_12_last]
  have hz' : (fun a => win0_12.index tLast a * main_v15_1.ty.shape.size a) = fun _ => 0 := funext fun a => by fin_cases a <;> decide +kernel
  exact (Memref.read_access_unit_zero (Elt F) main_v15_1 hz' (fun a => by rw [congrFun hz' a]; simp) (out13 V c (sc17 V c d17 6 six_lt))).symm

-- A block at offset zero whose extents are the array's holds every index of the array.
theorem mem_whole {s : Shape} (lo xs : Fin s.rank → Nat) (hlo : ∀ a, lo a = 0) (hxs : ∀ a, xs a = s.size a) (i : s.Idx)
    (a : Fin s.rank) : lo a ≤ (i a : Nat) ∧ (i a : Nat) < lo a + xs a := by
  rw [hlo, hxs, Nat.zero_add]; exact ⟨Nat.zero_le _, (i a).isLt⟩

theorem final11 : (dat0 V c).arrAt 11 cfg0.N = out12 V c d17 :=
  (dat0 V c).arrAt_eq_of_cover 11 (out12 V c d17) (flushed11_eq V c) fun i =>
    ⟨tLast, (flush0_11 tLast).mpr rfl, by
      show i ∈ ((View.whole main_v15_0).slice (win0_11.rect tLast)).set
      rw [View.set_slice_whole, Rect.mem_set_unit]
      exact mem_whole (fun a => win0_11.index tLast a * win0_11.size a) (win0_11.xsize (grid0.coords tLast))
        (by decide +kernel) (by decide +kernel) i⟩

theorem final12 : (dat0 V c).arrAt 12 cfg0.N = out13 V c (sc17 V c d17 6 six_lt) :=
  (dat0 V c).arrAt_eq_of_cover 12 (out13 V c (sc17 V c d17 6 six_lt)) (flushed12_eq V c) fun i =>
    ⟨tLast, (flush0_12 tLast).mpr rfl, by
      show i ∈ ((View.whole main_v15_1).slice (win0_12.rect tLast)).set
      rw [View.set_slice_whole, Rect.mem_set_unit]
      exact mem_whole (fun a => win0_12.index tLast a * win0_12.size a) (win0_12.xsize (grid0.coords tLast))
        (by decide +kernel) (by decide +kernel) i⟩

abbrev tt (t : Fin 8) : Fin cfg0.N := ⟨t.val, by rw [show cfg0.N = 8 from N_0]; exact t.isLt⟩
abbrev cE : Vec F S1x1024 .f32 := bE V c tLast
abbrev cH : Vec F S1x1024 .f32 := bH V c tLast
abbrev cEnc (t : Fin 8) : Vec F S256x1024 .f32 := bEnc V c (tt t)
abbrev cAw (t : Fin 8) : Vec F S256x2048 .f32 := bAw V c (tt t)
abbrev cAb (t : Fin 8) : Vec F S1x256 .f32 := bAb V c (tt t)

-- The carried maximum, denominator and weighted sum after each point but the last are the chain's.
theorem mla0_chain (n : ℕ) (hn : n < cfg0.N) (h6 : n ≤ 6) :
    mla0 V c n hn = chain (cE V c) (cH V c) (cEnc V c) (cAw V c) (cAb V c) n := by
  induction n with
  | zero =>
    rw [mla0_zero, chain_zero, bE_const V c ⟨0, hn⟩ tLast, bH_const V c ⟨0, hn⟩ tLast]
    rfl
  | succ n ih =>
    rw [mla0_succ V c n hn (by omega), chain_succ _ _ _ _ _ n (by omega), ih (Nat.lt_of_succ_lt hn) (by omega),
      bE_const V c ⟨n + 1, hn⟩ tLast, bH_const V c ⟨n + 1, hn⟩ tLast]

theorem chain7 : chain (cE V c) (cH V c) (cEnc V c) (cAw V c) (cAb V c) 7
    = (mNew (bE V c tLast) (bH V c tLast) (bAw V c tLast) (bAb V c tLast) (mla0 V c 6 six_lt).1,
       lNew (bE V c tLast) (bH V c tLast) (bAw V c tLast) (bAb V c tLast) (mla0 V c 6 six_lt).1 (mla0 V c 6 six_lt).2.1,
       accNew (bE V c tLast) (bH V c tLast) (bEnc V c tLast) (bAw V c tLast) (bAb V c tLast) (mla0 V c 6 six_lt).1 (mla0 V c 6 six_lt).2.2) := by
  rw [chain_succ _ _ _ _ _ 6 (by decide), mla0_chain V c 6 six_lt le_rfl]

theorem sc17_tile (d : Vec F S1x2048 .f32) (n : ℕ) (hn : n < cfg0.N) (h6 : n ≤ 6) (t' : Fin 8) (ht : t'.val ≤ n)
    (q : Fin 256) (j : Fin 2048) (hj : j.val = 256 * t'.val + q.val) :
    sc17 V c d n hn (ix2 0 j) = sTile (cE V c) (cH V c) (cAw V c t') (cAb V c t') (ix2 0 q) := by
  show _ = sTile (bE V c tLast) (bH V c tLast) (bAw V c (tt t')) (bAb V c (tt t')) (ix2 0 q)
  induction n with
  | zero =>
    have e1 : j = ⟨q.val, Nat.lt_trans q.isLt (by decide)⟩ := Fin.ext (by show j.val = q.val; omega)
    have e2 : tt t' = ⟨0, hn⟩ := Fin.ext (by show t'.val = 0; omega)
    rw [e1, e2, sc17_zero_tile V c d hn q, bE_const V c ⟨0, hn⟩ tLast, bH_const V c ⟨0, hn⟩ tLast]
  | succ n ih =>
    by_cases hlast : t'.val = n + 1
    · have e1 : j = ⟨256 * (n + 1) + q.val, by have := q.isLt; omega⟩ := Fin.ext (by rw [hj, hlast])
      have e2 : tt t' = ⟨n + 1, hn⟩ := Fin.ext hlast
      rw [e1, e2, sc17_succ_tile V c d n hn (by omega) q, bE_const V c ⟨n + 1, hn⟩ tLast, bH_const V c ⟨n + 1, hn⟩ tLast]
    · rw [sc17_succ_keep V c d n hn (by omega) j (Or.inl (by omega))]
      exact ih (Nat.lt_of_succ_lt hn) (by omega) (by omega)

theorem scores_apply (j : Fin 2048) :
    lastScores V c (sc17 V c d17 6 six_lt) (ix2 0 j) = scoresAll (cE V c) (cH V c) (cAw V c) (cAb V c) (ix2 0 j) := by
  show _ = sTile (cE V c) (cH V c) (cAw V c (Cert.LibOnline.tileOf j)) (cAb V c (Cert.LibOnline.tileOf j)) (ix2 0 (Cert.LibOnline.laneOf j))
  unfold lastScores
  have hj : j.val < 2048 := j.isLt
  by_cases h : 1792 ≤ j.val
  · rw [dif_pos h]
    have ht : tt (Cert.LibOnline.tileOf j) = tLast := Fin.ext (by show j.val / 256 = 7; omega)
    have hl : (⟨j.val - 1792, by omega⟩ : Fin 256) = Cert.LibOnline.laneOf j := Fin.ext (by show j.val - 1792 = j.val % 256; omega)
    show sTile (bE V c tLast) (bH V c tLast) (bAw V c tLast) (bAb V c tLast) (ix2 0 _)
      = sTile (bE V c tLast) (bH V c tLast) (bAw V c (tt (Cert.LibOnline.tileOf j))) (bAb V c (tt (Cert.LibOnline.tileOf j))) (ix2 0 (Cert.LibOnline.laneOf j))
    rw [ht, hl]
  · rw [dif_neg h]
    exact sc17_tile V c d17 6 six_lt le_rfl (Cert.LibOnline.tileOf j) (by show j.val / 256 ≤ 6; omega) (Cert.LibOnline.laneOf j) j
      (by show j.val = 256 * (j.val / 256) + j.val % 256; omega)

theorem scores_eq : lastScores V c (sc17 V c d17 6 six_lt) = scoresAll (cE V c) (cH V c) (cAw V c) (cAb V c) := by
  funext j; rw [Spec.row_ix2 j]
  exact scores_apply V c (j 1)

theorem arr12_eq : (dat0 V c).arrAt 12 cfg0.N
    = attnwOut (chain (cE V c) (cH V c) (cEnc V c) (cAw V c) (cAb V c) 7).2.1 (scoresAll (cE V c) (cH V c) (cAw V c) (cAb V c))
        (chain (cE V c) (cH V c) (cEnc V c) (cAw V c) (cAb V c) 7).1 := by
  rw [final12, out13_eq, scores_eq, chain7]

theorem arr11_eq : (dat0 V c).arrAt 11 cfg0.N
    = hnewOut (cE V c) (cH V c) (bCw V c tLast) (bCb V c tLast) (bWih V c tLast) (bWhh V c tLast) (bBih V c tLast) (bBhh V c tLast)
        (chain (cE V c) (cH V c) (cEnc V c) (cAw V c) (cAb V c) 7).2.1 (chain (cE V c) (cH V c) (cEnc V c) (cAw V c) (cAb V c) 7).2.2 := by
  rw [final11, out12_eq, chain7]

end Cert.KernelIdeal.R0

end
-- ==== Proof.PayAttn.lean ====
import proofs.«429206_j20933670601086_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.KernelIdeal.PayIdx

open Cert.KernelIdeal Cert.KernelIdeal.Gen Idealize.ShloMosaic Idealize.ShloMosaic.ValueIdx

theorem ofBits_neg_inf_f32 : Ideal.ofBits .f32 0xFF800000#32 = ⊥ := by
  simp [Ideal.ofBits, Ideal.ieee]

-- A one-row product into the zero accumulator is, at a column, the sum over the shared axis.
theorem plain_matmul_zero_apply {K N : Nat} {φ₁ φ₂ : FTy} (lhs : FVec Ideal ⟨2, ![1, K]⟩ φ₁)
    (rhs : FVec Ideal ⟨2, ![K, N]⟩ φ₂) (q : Fin N) :
    FloatOps.matmul (DotDims.plain 1 K N) none lhs rhs (constant (F := Ideal) ⟨2, ![1, N]⟩ .f32 0x00000000#32) (ix2 0 q)
      = ∑ k : Fin K, lhs (ix2 0 k) * rhs (ix2 k q) := by
  rw [Ideal.matmul_constant_zero_apply, ← Equiv.sum_comp (contrEquiv1 (DotDims.plain 1 K N) K rfl rfl).symm]
  refine Finset.sum_congr rfl fun k _ => ?_
  have hk := contrEquiv1_symm_val (DotDims.plain 1 K N) K rfl rfl k
  have el : (DotDims.plain 1 K N).lhsIdx (ix2 0 q) ((contrEquiv1 (DotDims.plain 1 K N) K rfl rfl).symm k) = ix2 0 k :=
    funext fun a => Fin.ext (by
      match a with
      | ⟨0, _⟩ => rfl
      | ⟨1, _⟩ => exact hk)
  have er : (DotDims.plain 1 K N).rhsIdx (ix2 0 q) ((contrEquiv1 (DotDims.plain 1 K N) K rfl rfl).symm k) = ix2 k q :=
    funext fun a => Fin.ext (by
      match a with
      | ⟨0, _⟩ => exact hk
      | ⟨1, _⟩ => rfl)
  rw [el, er]

theorem bcast11_apply {α : Type} {n : Nat} (x : S1x1.Idx → α) (h : S1x1.Broadcasts ⟨2, ![1, n]⟩) (p : Fin 1) (q : Fin n) :
    broadcastTo ⟨2, ![1, n]⟩ x h (ix2 p q) = x (ix2 0 0) :=
  broadcastTo_apply x h (ix2 p q) (ix2 0 0) fun a => match a with
    | ⟨0, _⟩ => rfl
    | ⟨1, _⟩ => rfl

theorem pay4_eq (v30 : FVec Ideal S1x1 .f32) : k0_pay4 v30 = v30 := shapeCast_self v30 _

theorem pay14_apply : (k0_pay14 (F := Ideal)) (ix2 0 0) = ⊥ := by
  unfold k0_pay14
  simp only [shapeCast_self]
  exact ofBits_neg_inf_f32

theorem pay15_apply : (k0_pay15 (F := Ideal)) (ix2 0 0) = 0 := by
  unfold k0_pay15
  simp only [shapeCast_self]
  exact Ideal.ofBits_zero_f32

theorem pay16_apply (k : Fin 1024) : (k0_pay16 (F := Ideal)) (ix2 0 k) = 0 := by
  unfold k0_pay16
  simp only [shapeCast_self]
  exact Ideal.ofBits_zero_f32

theorem pay17_eq (v5 : Vec Ideal S1x1024 .f32) : k0_pay17 v5 = v5 := shapeCast_self v5 _

theorem pay18_apply (v3 : Vec Ideal S1x1024 .f32) (k : Fin 1024) : k0_pay18 v3 (ix2 0 k) = v3 (ix2 0 k) := by
  unfold k0_pay18
  simp only [shapeCast_self]
  rfl

theorem pay19_apply (v5 : Vec Ideal S1x1024 .f32) (k : Fin 1024) : k0_pay19 v5 (ix2 0 k) = v5 (ix2 0 k) := by
  unfold k0_pay19
  rw [pay17_eq]
  rfl

theorem pay6_apply (v62 : Vec Ideal S1x1 .f32) : k0_pay6 v62 (ix2 0 0) = Ideal.div 1 (v62 (ix2 0 0)) := by
  unfold k0_pay6
  show Ideal.div (Ideal.ofBits .f32 0x3F800000#32) _ = _
  rw [Ideal.ofBits_one_f32]

-- A row against a matrix given by its rows: the matrix is transposed inside the product.
theorem matmulAT_apply (x : FVec Ideal S1x1024 .bf16) (w : FVec Ideal S256x1024 .bf16) (q : Fin 256) :
    matmul dot_S1x1024_S1024x256_S1x256_1_0_0_1_n_n none x (transpose S1024x256 [1, 0] w Facts₀.transposes_S256x1024_p1_0_S1024x256)
        (constant (F := Ideal) S1x256 .f32 0x00000000#32) (ix2 0 q)
      = ∑ k : Fin 1024, x (ix2 0 k) * w (ix2 q k) :=
  (plain_matmul_zero_apply x _ q).trans
    (Finset.sum_congr rfl fun k _ => congrArg (x (ix2 0 k) * ·) (transpose_ix2_apply w _ k q))

theorem fold_max_bot {ι : Type} (s : Finset ι) (f : ι → EReal) : s.fold max ⊥ f = s.sup f := by
  classical
  induction s using Finset.induction_on with
  | empty => simp
  | insert a s ha ih => rw [Finset.fold_insert ha, Finset.sup_insert, ih]

theorem lift_row (k : Fin 256) : Facts₀.reduces_S1x256_S1.lift (ix1 (0 : Fin 1)) k = ix2 (0 : Fin 1) k := by
  funext a
  match a with
  | ⟨0, _⟩ => rfl
  | ⟨1, _⟩ => rfl

theorem laneSum_apply (src : FVec Ideal S1x256 .f32) (hφ : FKind.Formats .f32)
    (hacc : (0x00000000#32 : BitVec 32) = 0x00000000#32) :
    multiReduction (F := Ideal) .add [1] S1 src 0x00000000#32 Facts₀.reduces_S1x256_S1 hφ hacc (ix1 0)
      = ∑ q : Fin 256, src (ix2 0 q) :=
  (Ideal.multiReduction_add_single src 0x00000000#32 Facts₀.reduces_S1x256_S1 hφ hacc (ix1 0)).trans
    (Finset.sum_congr rfl fun q _ => congrArg src (lift_row q))

-- The lane maximum starts from -∞, so it is the supremum of the lanes.
theorem laneMax_apply (src : FVec Ideal S1x256 .f32) (hφ : FKind.Formats .f32)
    (hacc : (0xFF800000#32 : BitVec 32) = 0xFF800000#32) :
    multiReduction (F := Ideal) .maximumf [1] S1 src 0xFF800000#32 Facts₀.reduces_S1x256_S1 hφ hacc (ix1 0)
      = Finset.univ.sup fun q : Fin 256 => src (ix2 0 q) := by
  refine (Ideal.multiReduction_maximumf_single src 0xFF800000#32 Facts₀.reduces_S1x256_S1 hφ hacc (ix1 0)).trans ?_
  show Finset.fold max (Ideal.ofBits .f32 0xFF800000#32) _ _ = _
  rw [ofBits_neg_inf_f32, fold_max_bot]
  exact Finset.sup_congr rfl fun q _ => congrArg src (lift_row q)

theorem pay20_apply (v3 v5 : Vec Ideal S1x1024 .f32) (v9 v11 : Vec Ideal S256x1024 .f32) (v18 : Vec Ideal S1x256 .f32)
    (q : Fin 256) :
    k0_pay20 v3 v5 v9 v11 v18 (ix2 0 q)
      = ((∑ k : Fin 1024, v3 (ix2 0 k) * v9 (ix2 q k)) + ∑ k : Fin 1024, v5 (ix2 0 k) * v11 (ix2 q k)) + v18 (ix2 0 q) := by
  unfold k0_pay20
  refine (addf_apply _ _ _).trans (congrArg₂ (· + ·) ((addf_apply _ _ _).trans (congrArg₂ (· + ·) ?_ ?_)) ?_)
  · exact (matmulAT_apply _ _ q).trans (Finset.sum_congr rfl fun k _ => congrArg (· * _) (pay18_apply v3 k))
  · exact (matmulAT_apply _ _ q).trans (Finset.sum_congr rfl fun k _ => congrArg (· * _) (pay19_apply v5 k))
  · exact congrFun (shapeCast_self v18 _) _

theorem pay21_eq (v3 v5 : Vec Ideal S1x1024 .f32) (v9 v11 : Vec Ideal S256x1024 .f32) (v18 : Vec Ideal S1x256 .f32) :
    k0_pay21 v3 v5 v9 v11 v18 = k0_pay20 v3 v5 v9 v11 v18 := shapeCast_self _ _

theorem pay22_apply (v3 v5 : Vec Ideal S1x1024 .f32) (v9 v11 : Vec Ideal S256x1024 .f32) (v18 : Vec Ideal S1x256 .f32)
    (v27 : Vec Ideal S1x1 .f32) :
    k0_pay22 v3 v5 v9 v11 v18 v27 (ix2 0 0)
      = max (v27 (ix2 0 0)) (Finset.univ.sup fun q : Fin 256 => k0_pay20 v3 v5 v9 v11 v18 (ix2 0 q)) := by
  unfold k0_pay22
  generalize k0_pay20 v3 v5 v9 v11 v18 = s
  refine (maximumf_apply _ _ _).trans (congrArg (max (v27 (ix2 0 0))) ?_)
  exact (shapeCast_a_1a_apply _ _ 0 0).trans (laneMax_apply s _ _)

theorem pay23_apply (v3 v5 : Vec Ideal S1x1024 .f32) (v9 v11 : Vec Ideal S256x1024 .f32) (v18 : Vec Ideal S1x256 .f32)
    (v27 v31 : Vec Ideal S1x1 .f32) :
    k0_pay23 v3 v5 v9 v11 v18 v27 v31 (ix2 0 0)
      = Ideal.exp (v31 (ix2 0 0) - k0_pay22 v3 v5 v9 v11 v18 v27 (ix2 0 0)) := by
  unfold k0_pay23
  generalize k0_pay22 v3 v5 v9 v11 v18 v27 = m
  rfl

theorem pay24_apply (v3 v5 : Vec Ideal S1x1024 .f32) (v9 v11 : Vec Ideal S256x1024 .f32) (v18 : Vec Ideal S1x256 .f32)
    (v27 : Vec Ideal S1x1 .f32) (q : Fin 256) :
    k0_pay24 v3 v5 v9 v11 v18 v27 (ix2 0 q)
      = k0_pay20 v3 v5 v9 v11 v18 (ix2 0 q) - k0_pay22 v3 v5 v9 v11 v18 v27 (ix2 0 0) := by
  unfold k0_pay24
  generalize k0_pay20 v3 v5 v9 v11 v18 = s
  generalize k0_pay22 v3 v5 v9 v11 v18 v27 = m
  exact (subf_apply _ _ _).trans (congrArg (s (ix2 0 q) - ·) (bcast11_apply m _ 0 q))

theorem pay2_apply (v33 : FVec Ideal S1x1 .f32) (v35 : FVec Ideal S1x256 .f32) (v37 : Vec Ideal S1x1 .f32) :
    k0_pay2 v33 v35 v37 (ix2 0 0) = v33 (ix2 0 0) * v37 (ix2 0 0) + ∑ q : Fin 256, Ideal.exp (v35 (ix2 0 q)) := by
  unfold k0_pay2
  refine (congrFun (shapeCast_self _ _) _).trans ?_
  refine (addf_apply _ _ _).trans (congrArg₂ (· + ·) (mulf_apply _ _ _) ?_)
  exact (shapeCast_a_1a_apply _ _ 0 0).trans (laneSum_apply (k0_pay1 v35) _ _)

theorem pay3_apply (v33 : FVec Ideal S1x1 .f32) (v35 : FVec Ideal S1x256 .f32) (v45 : Vec Ideal S256x1024 .f32)
    (v47 : Vec Ideal S1x1024 .f32) (k : Fin 1024) :
    k0_pay3 v33 v35 v45 v47 (ix2 0 k)
      = v33 (ix2 0 0) * v47 (ix2 0 k) + ∑ q : Fin 256, Ideal.exp (v35 (ix2 0 q)) * v45 (ix2 q k) := by
  unfold k0_pay3
  refine (congrFun (shapeCast_self _ _) _).trans ?_
  refine (addf_apply _ _ _).trans (congrArg₂ (· + ·)
    ((mulf_apply _ _ _).trans (congrArg (· * v47 (ix2 0 k)) (bcast11_apply v33 _ 0 k))) ?_)
  exact plain_matmul_zero_apply _ _ k

theorem pay7_apply (v62 : Vec Ideal S1x1 .f32) (v68 : Vec Ideal S1x2048 .f32) (v69 : Vec Ideal S1x1 .f32) (j : Fin 2048) :
    k0_pay7 v62 v68 v69 (ix2 0 j) = Ideal.exp (v68 (ix2 0 j) - v69 (ix2 0 0)) * Ideal.div 1 (v62 (ix2 0 0)) := by
  unfold k0_pay7
  refine (mulf_apply _ _ _).trans (congrArg₂ (· * ·) ?_ ?_)
  · exact congrArg (fun t => Ideal.exp (v68 (ix2 0 j) - t)) (bcast11_apply v69 _ 0 j)
  · exact (bcast11_apply _ _ 0 j).trans (pay6_apply v62)

end Cert.KernelIdeal.PayIdx

end
-- ==== Proof.Spec.lean ====
import Idealize.ShloMosaic.PureOps.Ideal

noncomputable section

namespace Cert.Spec

open Idealize.ShloMosaic

def lo (k : Fin 1024) : Fin 2048 := ⟨k.val, by omega⟩

def hi (k : Fin 1024) : Fin 2048 := ⟨1024 + k.val, by omega⟩

def g0 (i : Fin 1024) : Fin 3072 := ⟨i.val, by omega⟩
def g1 (i : Fin 1024) : Fin 3072 := ⟨1024 + i.val, by omega⟩
def g2 (i : Fin 1024) : Fin 3072 := ⟨2048 + i.val, by omega⟩

section

variable (emb h0 : Fin 1024 → EReal) (enc : Fin 2048 → Fin 1024 → EReal)
  (aW : Fin 2048 → Fin 2048 → EReal) (ab : Fin 2048 → EReal)
  (cW : Fin 1024 → Fin 2048 → EReal) (cb : Fin 1024 → EReal)
  (Wih Whh : Fin 3072 → Fin 1024 → EReal) (bih bhh : Fin 3072 → EReal)
  (oW : Fin 50257 → Fin 1024 → EReal) (ob : Fin 50257 → EReal)

def scores (j : Fin 2048) : EReal :=
  ((∑ k : Fin 1024, emb k * aW j (lo k)) + ∑ k : Fin 1024, h0 k * aW j (hi k)) + ab j

def smax : EReal := Finset.univ.sup (scores emb h0 aW ab)

def sexp (j : Fin 2048) : EReal := Ideal.exp (scores emb h0 aW ab j - smax emb h0 aW ab)
def ssum : EReal := ∑ j : Fin 2048, sexp emb h0 aW ab j

def attnw (j : Fin 2048) : EReal := Ideal.div (sexp emb h0 aW ab j) (ssum emb h0 aW ab)

def ctx (k : Fin 1024) : EReal := ∑ j : Fin 2048, attnw emb h0 aW ab j * enc j k

def xcomb (i : Fin 1024) : EReal :=
  max (((∑ k : Fin 1024, emb k * cW i (lo k)) + ∑ k : Fin 1024, ctx emb h0 enc aW ab k * cW i (hi k)) + cb i) 0

def gi (r : Fin 3072) : EReal := (∑ k : Fin 1024, xcomb emb h0 enc aW ab cW cb k * Wih r k) + bih r
def gh (r : Fin 3072) : EReal := (∑ k : Fin 1024, h0 k * Whh r k) + bhh r

def rg (i : Fin 1024) : EReal :=
  Ideal.logistic (gi emb h0 enc aW ab cW cb Wih bih (g0 i) + gh h0 Whh bhh (g0 i))
def zg (i : Fin 1024) : EReal :=
  Ideal.logistic (gi emb h0 enc aW ab cW cb Wih bih (g1 i) + gh h0 Whh bhh (g1 i))
def ng (i : Fin 1024) : EReal :=
  Ideal.tanh (gi emb h0 enc aW ab cW cb Wih bih (g2 i) + rg emb h0 enc aW ab cW cb Wih Whh bih bhh i * gh h0 Whh bhh (g2 i))

def hnew (i : Fin 1024) : EReal :=
  (1 - zg emb h0 enc aW ab cW cb Wih Whh bih bhh i) * ng emb h0 enc aW ab cW cb Wih Whh bih bhh i
    + zg emb h0 enc aW ab cW cb Wih Whh bih bhh i * h0 i

def logits (v : Fin 50257) : EReal :=
  (∑ k : Fin 1024, hnew emb h0 enc aW ab cW cb Wih Whh bih bhh k * oW v k) + ob v

end

end Cert.Spec

end
-- ==== Proof.AttnValue.lean ====
import proofs.«429206_j20933670601086_3_alg».proof.Proof.Chain0
import proofs.«429206_j20933670601086_3_alg».proof.Proof.PayAttn
import proofs.«429206_j20933670601086_3_alg».proof.Proof.LibOnline
import proofs.«429206_j20933670601086_3_alg».proof.Proof.Spec
import proofs.«429206_j20933670601086_3_alg».proof.Proof.SpecIdx
import Idealize.ShloMosaic.Lib.ValueIdx
import Idealize.ShloMosaic.Lib.Pipeline.FrameBody

noncomputable section

namespace Cert.KernelIdeal.AttnValue

open Cert.KernelIdeal Cert.KernelIdeal.Gen Cert.KernelIdeal.R0 Cert.KernelIdeal.PayIdx
open Idealize.ShloMosaic Idealize.ShloMosaic.ValueIdx Cert.LibOnline

theorem ld_awL (X : Vec Ideal S256x2048 .f32) (q : Fin 256) (k : Fin 1024) :
    View.ld X rAwL (ix2 q k) = X (ix2 q (Spec.lo k)) :=
  congrArg X (Spec.ix2_of_val (by show 0 + 1 * q.val = q.val; omega) (by show 0 + 1 * k.val = k.val; omega))

theorem ld_awR (X : Vec Ideal S256x2048 .f32) (q : Fin 256) (k : Fin 1024) :
    View.ld X rAwR (ix2 q k) = X (ix2 q (Spec.hi k)) :=
  congrArg X (Spec.ix2_of_val (by show 0 + 1 * q.val = q.val; omega) (by show 1024 + 1 * k.val = 1024 + k.val; omega))

section

variable (e h : Vec Ideal S1x1024 .f32) (enc : Fin 8 → Vec Ideal S256x1024 .f32)
  (aw : Fin 8 → Vec Ideal S256x2048 .f32) (ab : Fin 8 → Vec Ideal S1x256 .f32)

def embF : Fin 1024 → EReal := fun k => e (ix2 0 k)

def h0F : Fin 1024 → EReal := fun k => h (ix2 0 k)

def aWF : Fin 2048 → Fin 2048 → EReal := fun j k => aw (tileOf j) (ix2 (laneOf j) k)

def abF : Fin 2048 → EReal := fun j => ab (tileOf j) (ix2 0 (laneOf j))

def encF : Fin 2048 → Fin 1024 → EReal := fun j k => enc (tileOf j) (ix2 (laneOf j) k)

def sF : Fin 8 → Fin 256 → EReal := fun t q => Spec.scores (embF e) (h0F h) (aWF aw) (abF ab) (posOf t q)

def eeF : Fin 8 → Fin 256 → Fin 1024 → EReal := fun t q k => enc t (ix2 q k)

theorem sTile_apply (t : Fin 8) (q : Fin 256) :
    sTile e h (aw t) (ab t) (ix2 0 q) = Spec.scores (embF e) (h0F h) (aWF aw) (abF ab) (posOf t q) := by
  unfold sTile
  refine (congrFun (pay21_eq _ _ _ _ _) _).trans ?_
  refine (pay20_apply _ _ _ _ _ q).trans ?_
  unfold Spec.scores
  refine congrArg₂ (· + ·) (congrArg₂ (· + ·) (Finset.sum_congr rfl fun k _ => ?_)
    (Finset.sum_congr rfl fun k _ => ?_)) ?_
  · rw [ld_awL]; unfold aWF embF; rw [tileOf_posOf, laneOf_posOf]
  · rw [ld_awR]; unfold aWF h0F; rw [tileOf_posOf, laneOf_posOf]
  · unfold abF; rw [tileOf_posOf, laneOf_posOf]

theorem scoresAll_apply (j : Fin 2048) :
    scoresAll e h aw ab (ix2 0 j) = Spec.scores (embF e) (h0F h) (aWF aw) (abF ab) j := by
  show sTile e h (aw (tileOf j)) (ab (tileOf j)) (ix2 0 (laneOf j)) = _
  rw [sTile_apply, posOf_tileOf_laneOf]

section Point

variable (aw1 : Vec Ideal S256x2048 .f32) (ab1 : Vec Ideal S1x256 .f32) (enc1 : Vec Ideal S256x1024 .f32)
  (m l : Vec Ideal S1x1 .f32) (acc : Vec Ideal S1x1024 .f32)

theorem mNew_apply :
    mNew e h aw1 ab1 m (ix2 0 0)
      = max (m (ix2 0 0)) (Finset.univ.sup fun q : Fin 256 => sTile e h aw1 ab1 (ix2 0 q)) := by
  unfold mNew sTile
  rw [pay4_eq, pay21_eq]
  exact pay22_apply _ _ _ _ _ _

theorem rescale_apply :
    R0.rescale e h aw1 ab1 m (ix2 0 0) = Ideal.exp (m (ix2 0 0) - mNew e h aw1 ab1 m (ix2 0 0)) := by
  unfold R0.rescale mNew
  rw [pay4_eq]
  exact pay23_apply _ _ _ _ _ _ _

theorem shifted_apply (q : Fin 256) :
    shifted e h aw1 ab1 m (ix2 0 q) = sTile e h aw1 ab1 (ix2 0 q) - mNew e h aw1 ab1 m (ix2 0 0) := by
  unfold shifted mNew sTile
  rw [pay4_eq, pay21_eq]
  exact pay24_apply _ _ _ _ _ _ q

theorem lNew_apply :
    lNew e h aw1 ab1 m l (ix2 0 0)
      = R0.rescale e h aw1 ab1 m (ix2 0 0) * l (ix2 0 0) + ∑ q : Fin 256, Ideal.exp (shifted e h aw1 ab1 m (ix2 0 q)) := by
  unfold lNew
  exact pay2_apply _ _ _

theorem accNew_apply (k : Fin 1024) :
    accNew e h enc1 aw1 ab1 m acc (ix2 0 k)
      = R0.rescale e h aw1 ab1 m (ix2 0 0) * acc (ix2 0 k)
        + ∑ q : Fin 256, Ideal.exp (shifted e h aw1 ab1 m (ix2 0 q)) * enc1 (ix2 q k) := by
  unfold accNew
  exact pay3_apply _ _ _ _ k

end Point

theorem step_eq (n : ℕ) (hn : n < 8) (m l : Vec Ideal S1x1 .f32) (acc : Vec Ideal S1x1024 .f32)
    (hm : m (ix2 0 0) = M (sF e h aw ab) n) (hl : l (ix2 0 0) = L (sF e h aw ab) n)
    (hacc : ∀ k, acc (ix2 0 k) = A (sF e h aw ab) (eeF enc) n k) :
    mNew e h (aw ⟨n, hn⟩) (ab ⟨n, hn⟩) m (ix2 0 0) = M (sF e h aw ab) (n + 1)
    ∧ lNew e h (aw ⟨n, hn⟩) (ab ⟨n, hn⟩) m l (ix2 0 0) = L (sF e h aw ab) (n + 1)
    ∧ ∀ k, accNew e h (enc ⟨n, hn⟩) (aw ⟨n, hn⟩) (ab ⟨n, hn⟩) m acc (ix2 0 k) = A (sF e h aw ab) (eeF enc) (n + 1) k := by
  have hs : ∀ q, sTile e h (aw ⟨n, hn⟩) (ab ⟨n, hn⟩) (ix2 0 q) = sF e h aw ab ⟨n, hn⟩ q :=
    fun q => sTile_apply e h aw ab ⟨n, hn⟩ q
  have hM : mNew e h (aw ⟨n, hn⟩) (ab ⟨n, hn⟩) m (ix2 0 0) = M (sF e h aw ab) (n + 1) := by
    rw [mNew_apply, hm, M_succ_lt _ hn]
    simp only [hs]
    rfl
  refine ⟨hM, ?_, fun k => ?_⟩
  · rw [lNew_apply, rescale_apply, hM, hm, hl, L_succ_lt _ hn]
    simp only [shifted_apply, hM, hs]
  · rw [accNew_apply, rescale_apply, hM, hm, hacc k, A_succ_lt _ _ hn]
    simp only [shifted_apply, hM, hs]
    rfl

theorem chain_eq (n : ℕ) (hn : n < 8) :
    (chain e h enc aw ab n).1 (ix2 0 0) = M (sF e h aw ab) (n + 1)
    ∧ (chain e h enc aw ab n).2.1 (ix2 0 0) = L (sF e h aw ab) (n + 1)
    ∧ ∀ k, (chain e h enc aw ab n).2.2 (ix2 0 k) = A (sF e h aw ab) (eeF enc) (n + 1) k := by
  induction n with
  | zero =>
    rw [chain_zero]
    exact step_eq e h enc aw ab 0 hn (k0_pay14 (F := Ideal)) (k0_pay15 (F := Ideal)) (k0_pay16 (F := Ideal))
      pay14_apply pay15_apply (fun k => pay16_apply k)
  | succ n ih =>
    obtain ⟨i1, i2, i3⟩ := ih (by omega)
    rw [chain_succ e h enc aw ab n hn]
    exact step_eq e h enc aw ab (n + 1) hn _ _ _ i1 i2 i3

section Final

theorem sF_pos (j : Fin 2048) :
    sF e h aw ab (tileOf j) (laneOf j) = Spec.scores (embF e) (h0F h) (aWF aw) (abF ab) j := by
  unfold sF; rw [posOf_tileOf_laneOf]

theorem eeF_pos (j : Fin 2048) (k : Fin 1024) : eeF enc (tileOf j) (laneOf j) k = encF enc j k := rfl

theorem M_eq_smax : M (sF e h aw ab) 8 = Spec.smax (embF e) (h0F h) (aWF aw) (abF ab) := by
  rw [M_eight]
  unfold Spec.smax
  exact Finset.sup_congr rfl fun j _ => sF_pos e h aw ab j

variable (he : ∀ k, ∃ r : ℝ, embF e k = (r : EReal)) (hh : ∀ k, ∃ r : ℝ, h0F h k = (r : EReal))
  (haw : ∀ j k, ∃ r : ℝ, aWF aw j k = (r : EReal)) (hab : ∀ j, ∃ r : ℝ, abF ab j = (r : EReal))
include he hh haw hab

theorem scores_real (j : Fin 2048) : ∃ r : ℝ, Spec.scores (embF e) (h0F h) (aWF aw) (abF ab) j = (r : EReal) := by
  choose er her using he
  choose hr hhr using hh
  choose ar har using haw
  choose br hbr using hab
  refine ⟨((∑ k, er k * ar j (Spec.lo k)) + ∑ k, hr k * ar j (Spec.hi k)) + br j, ?_⟩
  unfold Spec.scores
  simp only [her, hhr, har, hbr, ← EReal.coe_mul, ← coe_sum, ← EReal.coe_add]

theorem sF_real (t : Fin 8) (q : Fin 256) : ∃ r : ℝ, sF e h aw ab t q = (r : EReal) :=
  scores_real e h aw ab he hh haw hab (posOf t q)

theorem smax_real : ∃ r : ℝ, Spec.smax (embF e) (h0F h) (aWF aw) (abF ab) = (r : EReal) := by
  rw [← M_eq_smax]
  exact M_eight_real _ (sF_real e h aw ab he hh haw hab)

theorem L_eq_ssum : L (sF e h aw ab) 8 = Spec.ssum (embF e) (h0F h) (aWF aw) (abF ab) := by
  rw [L_eight _ (sF_real e h aw ab he hh haw hab), M_eq_smax]
  unfold Spec.ssum Spec.sexp
  exact Finset.sum_congr rfl fun j _ => by rw [sF_pos]

theorem ssum_real_pos : ∃ r : ℝ, 0 < r ∧ Spec.ssum (embF e) (h0F h) (aWF aw) (abF ab) = (r : EReal) := by
  rw [← L_eq_ssum e h aw ab he hh haw hab]
  exact L_eight_real_pos _ (sF_real e h aw ab he hh haw hab)

-- After the eighth point the online state is the plain softmax's, so the stored weights are the specification's.
theorem attnw_value :
    attnwOut (chain e h enc aw ab 7).2.1 (scoresAll e h aw ab) (chain e h enc aw ab 7).1
      = Spec.unrow (Spec.attnw (embF e) (h0F h) (aWF aw) (abF ab)) := by
  refine Spec.unrow_ext fun q => ?_
  unfold attnwOut
  refine (pay7_apply _ _ _ q).trans ?_
  obtain ⟨c1, c2, -⟩ := chain_eq e h enc aw ab 7 (by omega)
  rw [c1, c2, scoresAll_apply, M_eq_smax, L_eq_ssum e h aw ab he hh haw hab]
  unfold Spec.attnw Spec.sexp
  obtain ⟨sr, hsr⟩ := scores_real e h aw ab he hh haw hab q
  obtain ⟨mr, hmr⟩ := smax_real e h aw ab he hh haw hab
  obtain ⟨lr, hlpos, hlr⟩ := ssum_real_pos e h aw ab he hh haw hab
  rw [hsr, hmr, hlr, ← EReal.coe_sub, Ideal.exp_coe]
  exact mul_inv_eq_div _ _ (ne_of_gt hlpos)

variable (henc : ∀ j k, ∃ r : ℝ, encF enc j k = (r : EReal))
include henc

theorem eeF_real (t : Fin 8) (q : Fin 256) (k : Fin 1024) : ∃ r : ℝ, eeF enc t q k = (r : EReal) := by
  obtain ⟨r, hr⟩ := henc (posOf t q) k
  refine ⟨r, ?_⟩
  unfold encF at hr
  rw [tileOf_posOf, laneOf_posOf] at hr
  exact hr

theorem ctx_value (k : Fin 1024) :
    (chain e h enc aw ab 7).2.2 (ix2 0 k) * Ideal.div 1 ((chain e h enc aw ab 7).2.1 (ix2 0 0))
      = Spec.ctx (embF e) (h0F h) (encF enc) (aWF aw) (abF ab) k := by
  obtain ⟨-, c2, c3⟩ := chain_eq e h enc aw ab 7 (by omega)
  rw [c3 k, c2, A_eight _ _ (sF_real e h aw ab he hh haw hab) (eeF_real e h enc aw ab he hh haw hab henc) k,
    M_eq_smax, L_eq_ssum e h aw ab he hh haw hab]
  unfold Spec.ctx Spec.attnw Spec.sexp
  obtain ⟨mr, hmr⟩ := smax_real e h aw ab he hh haw hab
  obtain ⟨lr, hlpos, hlr⟩ := ssum_real_pos e h aw ab he hh haw hab
  choose sr hsr using scores_real e h aw ab he hh haw hab
  choose gr hgr using henc
  simp only [sF_pos, eeF_pos, hsr, hmr, hlr, hgr, ← EReal.coe_sub, Ideal.exp_coe]
  exact sum_mul_inv (fun j => Real.exp (sr j - mr)) (fun j => gr j k) lr (ne_of_gt hlpos)

end Final

end

end Cert.KernelIdeal.AttnValue

end
-- ==== Proof.PayGru.lean ====
import proofs.«429206_j20933670601086_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import proofs.«429206_j20933670601086_3_alg».proof.Proof.Spec
import proofs.«429206_j20933670601086_3_alg».proof.Proof.PayAttn

noncomputable section

namespace Cert.KernelIdeal.PayIdx

open Cert.KernelIdeal Cert.KernelIdeal.Gen Idealize.ShloMosaic Idealize.ShloMosaic.ValueIdx

theorem dot1024_eq : dot_S1x1024_S1024x1024_S1x1024_1_0_0_1_n_n = DotDims.plain 1 1024 1024 := rfl
theorem dot768_eq : dot_S1x1024_S1024x768_S1x768_1_0_0_1_n_n = DotDims.plain 1 1024 768 := rfl
theorem dot2048_eq : dot_S1x1024_S1024x2048_S1x2048_1_0_0_1_n_n = DotDims.plain 1 1024 2048 := rfl

theorem k1_pay1_apply (v0 : Vec Ideal S1x1024 .f32) (v3 : Vec Ideal S2048x1024 .f32) (v7 : Vec Ideal S1x2048 .f32)
    (q : Fin 2048) :
    k1_pay1 v0 v3 v7 (ix2 0 q) = (∑ k : Fin 1024, v0 (ix2 0 k) * v3 (ix2 q k)) + v7 (ix2 0 q) := by
  unfold k1_pay1
  simp only [matmul, shapeCast_self, dot2048_eq]
  rw [addf_apply, plain_matmul_zero_apply]
  refine congrArg (· + v7 (ix2 0 q)) (Finset.sum_congr rfl fun k _ => ?_)
  rw [transpose_ix2_apply, truncf_apply, truncf_apply]

theorem scalar_ofBits (φ : FTy) (b : BitVec φ.bits) : Scalar.ofBits (F := Ideal) φ b = Ideal.ofBits φ b := rfl

theorem k0_pay8_apply (v7 : FVec Ideal S1x1024 .bf16) (v62 : Vec Ideal S1x1 .f32) (v65 : Vec Ideal S1x1024 .f32)
    (v77 v79 : Vec Ideal S1024x1024 .f32) (v86 : Vec Ideal S1x1024 .f32) (i : Fin 1024) :
    k0_pay8 v7 v62 v65 v77 v79 v86 (ix2 0 i)
      = max (((∑ k : Fin 1024, v7 (ix2 0 k) * v77 (ix2 i k))
          + ∑ k : Fin 1024, (v65 (ix2 0 k) * Ideal.div 1 (v62 (ix2 0 0))) * v79 (ix2 i k)) + v86 (ix2 0 i)) 0 := by
  unfold k0_pay8
  simp only [matmul, shapeCast_self, dot1024_eq]
  rw [truncf_apply, maximumf_apply, addf_apply, addf_apply, plain_matmul_zero_apply, plain_matmul_zero_apply,
    broadcast_apply, scalar_ofBits, Ideal.ofBits_zero_f32]
  refine congrArg (fun s => max (s + v86 (ix2 0 i)) 0) ?_
  refine congrArg₂ (· + ·) (Finset.sum_congr rfl fun k _ => ?_) (Finset.sum_congr rfl fun k _ => ?_)
  · rw [transpose_ix2_apply, truncf_apply]
  · rw [transpose_ix2_apply, truncf_apply, truncf_apply, mulf_apply, bcast11_apply, pay6_apply]

theorem k0_pay9_apply (v94 : Vec Ideal S768x1024 .f32) (j : S768x1024.Idx) : k0_pay9 v94 j = v94 j := rfl

theorem k0_pay10_apply (v92 : Vec Ideal S768x1024 .f32) (k : Fin 1024) (r : Fin 768) :
    k0_pay10 v92 (ix2 k r) = v92 (ix2 r k) := by
  unfold k0_pay10
  rw [transpose_ix2_apply, truncf_apply]

-- Four 768-wide rows joined along the row: column r is column r % 768 of piece r / 768.
theorem concat4_apply {α : Type} (x : Fin 4 → S1x768.Idx → α)
    (h : Shape.Concatenates [S1x768, S1x768, S1x768, S1x768] S1x3072 1) (r : Fin 3072) :
    concatenate S1x3072 1 [⟨S1x768, x 0⟩, ⟨S1x768, x 1⟩, ⟨S1x768, x 2⟩, ⟨S1x768, x 3⟩] h (ix2 0 r)
      = x ⟨r.val / 768, by omega⟩ (ix2 0 ⟨r.val % 768, Nat.mod_lt _ (by decide)⟩) :=
  concatenate_ofFn_apply (t := S1x3072) (s₁ := S1x768) 1 x h rfl 768 rfl (ix2 0 r) _ rfl _ rfl fun b hb => by
    match b with
    | ⟨0, _⟩ => rfl
    | ⟨1, _⟩ => exact absurd rfl hb

-- Four one-row products against the transposed 768-row bands of W, joined, are the row against W.
theorem gates_apply (x : FVec Ideal S1x1024 .bf16) (B : Fin 4 → FVec Ideal S1024x768 .bf16) (b : FVec Ideal S1x3072 .f32)
    (h : Shape.Concatenates [S1x768, S1x768, S1x768, S1x768] S1x3072 1) (W : Fin 3072 → Fin 1024 → EReal)
    (e : ∀ (n : Fin 4) (ρ : Fin 768) (k : Fin 1024), B n (ix2 k ρ) = W ⟨ρ.val + 768 * n.val, by omega⟩ k) (r : Fin 3072) :
    addf (concatenate S1x3072 1
        [⟨S1x768, FloatOps.matmul (DotDims.plain 1 1024 768) none x (B 0) (constant (F := Ideal) S1x768 .f32 0x00000000#32)⟩,
         ⟨S1x768, FloatOps.matmul (DotDims.plain 1 1024 768) none x (B 1) (constant (F := Ideal) S1x768 .f32 0x00000000#32)⟩,
         ⟨S1x768, FloatOps.matmul (DotDims.plain 1 1024 768) none x (B 2) (constant (F := Ideal) S1x768 .f32 0x00000000#32)⟩,
         ⟨S1x768, FloatOps.matmul (DotDims.plain 1 1024 768) none x (B 3) (constant (F := Ideal) S1x768 .f32 0x00000000#32)⟩] h)
      b (ix2 0 r)
      = (∑ k : Fin 1024, x (ix2 0 k) * W r k) + b (ix2 0 r) := by
  refine (addf_apply _ _ _).trans (congrArg (· + b (ix2 0 r)) ?_)
  refine (concat4_apply (fun n => FloatOps.matmul (DotDims.plain 1 1024 768) none x (B n)
    (constant (F := Ideal) S1x768 .f32 0x00000000#32)) h r).trans ?_
  refine (plain_matmul_zero_apply x _ _).trans (Finset.sum_congr rfl fun k _ => ?_)
  rw [e]
  exact congrArg (x (ix2 0 k) * W · k) (Fin.ext (by show r.val % 768 + 768 * (r.val / 768) = r.val; omega))

theorem k0_pay11_apply_of (v91 : FVec Ideal S1x1024 .bf16) (v96 : FVec Ideal S1024x768 .bf16)
    (v100 v108 v116 : Vec Ideal S768x1024 .f32) (v125 : Vec Ideal S1x3072 .f32) (W : Fin 3072 → Fin 1024 → EReal)
    (e0 : ∀ (ρ : Fin 768) (k : Fin 1024), v96 (ix2 k ρ) = W ⟨ρ.val, by omega⟩ k)
    (e1 : ∀ (ρ : Fin 768) (k : Fin 1024), v100 (ix2 ρ k) = W ⟨ρ.val + 768, by omega⟩ k)
    (e2 : ∀ (ρ : Fin 768) (k : Fin 1024), v108 (ix2 ρ k) = W ⟨ρ.val + 1536, by omega⟩ k)
    (e3 : ∀ (ρ : Fin 768) (k : Fin 1024), v116 (ix2 ρ k) = W ⟨ρ.val + 2304, by omega⟩ k) (r : Fin 3072) :
    k0_pay11 v91 v96 v100 v108 v116 v125 (ix2 0 r) = (∑ k : Fin 1024, v91 (ix2 0 k) * W r k) + v125 (ix2 0 r) := by
  unfold k0_pay11
  simp only [matmul, shapeCast_self, dot768_eq]
  refine gates_apply _ ![_, _, _, _] _ _ W (fun n => ?_) r
  fin_cases n
  · exact e0
  · exact fun ρ k => (transpose_ix2_apply _ _ k ρ).trans (e1 ρ k)
  · exact fun ρ k => (transpose_ix2_apply _ _ k ρ).trans (e2 ρ k)
  · exact fun ρ k => (transpose_ix2_apply _ _ k ρ).trans (e3 ρ k)

theorem k0_pay12_apply_of (v8 : FVec Ideal S1x1024 .bf16) (v95 : FVec Ideal S768x1024 .bf16)
    (v102 v110 v118 : Vec Ideal S768x1024 .f32) (v129 : Vec Ideal S1x3072 .f32) (W : Fin 3072 → Fin 1024 → EReal)
    (e0 : ∀ (ρ : Fin 768) (k : Fin 1024), v95 (ix2 ρ k) = W ⟨ρ.val, by omega⟩ k)
    (e1 : ∀ (ρ : Fin 768) (k : Fin 1024), v102 (ix2 ρ k) = W ⟨ρ.val + 768, by omega⟩ k)
    (e2 : ∀ (ρ : Fin 768) (k : Fin 1024), v110 (ix2 ρ k) = W ⟨ρ.val + 1536, by omega⟩ k)
    (e3 : ∀ (ρ : Fin 768) (k : Fin 1024), v118 (ix2 ρ k) = W ⟨ρ.val + 2304, by omega⟩ k) (r : Fin 3072) :
    k0_pay12 v8 v95 v102 v110 v118 v129 (ix2 0 r) = (∑ k : Fin 1024, v8 (ix2 0 k) * W r k) + v129 (ix2 0 r) := by
  unfold k0_pay12
  simp only [matmul, shapeCast_self, dot768_eq]
  refine gates_apply _ ![_, _, _, _] _ _ W (fun n => ?_) r
  fin_cases n
  · exact fun ρ k => (transpose_ix2_apply _ _ k ρ).trans (e0 ρ k)
  · exact fun ρ k => (transpose_ix2_apply _ _ k ρ).trans (e1 ρ k)
  · exact fun ρ k => (transpose_ix2_apply _ _ k ρ).trans (e2 ρ k)
  · exact fun ρ k => (transpose_ix2_apply _ _ k ρ).trans (e3 ρ k)

theorem logistic_apply {s : Shape} {φ : FTy} (a : FVec Ideal s φ) (i : s.Idx) :
    Idealize.ShloMosaic.logistic a i = Ideal.logistic (a i) := rfl
theorem tanh_apply {s : Shape} {φ : FTy} (a : FVec Ideal s φ) (i : s.Idx) :
    Idealize.ShloMosaic.tanh a i = Ideal.tanh (a i) := rfl

theorem k0_pay13_apply (v91 : FVec Ideal S1x1024 .bf16) (v96 : FVec Ideal S1024x768 .bf16)
    (v100 v108 v116 : Vec Ideal S768x1024 .f32) (v125 : Vec Ideal S1x3072 .f32) (i : Fin 1024) :
    k0_pay13 v91 v96 v100 v108 v116 v125 (ix2 0 i) = k0_pay11 v91 v96 v100 v108 v116 v125 (ix2 0 (Spec.g0 i)) := by
  unfold k0_pay13
  exact slice2_axis1_apply 0 _ _ 0 i (Spec.g0 i) (Nat.zero_add _).symm

-- The three gates read the thirds of the two pre-activations; the cell's output is (1 - z) * n + z * h.
theorem k0_pay5_apply (v6 : FVec Ideal S1x1024 .f32) (v127 v131 : FVec Ideal S1x3072 .f32) (v132 : FVec Ideal S1x1024 .f32)
    (i : Fin 1024) :
    k0_pay5 v6 v127 v131 v132 (ix2 0 i)
      = (1 - Ideal.logistic (v127 (ix2 0 (Spec.g1 i)) + v131 (ix2 0 (Spec.g1 i))))
          * Ideal.tanh (v127 (ix2 0 (Spec.g2 i))
              + Ideal.logistic (v132 (ix2 0 i) + v131 (ix2 0 (Spec.g0 i))) * v131 (ix2 0 (Spec.g2 i)))
        + Ideal.logistic (v127 (ix2 0 (Spec.g1 i)) + v131 (ix2 0 (Spec.g1 i))) * v6 (ix2 0 i) := by
  have s : ∀ (o : Nat) (g : Fin 3072) (hg : g.val = o + i.val) (X : FVec Ideal S1x3072 .f32) (h : S1x3072.Slices ![0, o] S1x1024),
      extractStridedSlice S1x1024 ![0, o] X h (ix2 0 i) = X (ix2 0 g) := fun o g hg X h =>
    slice2_axis1_apply o X h 0 i g hg
  unfold k0_pay5
  simp only [addf_apply, mulf_apply, subf_apply, broadcast_apply, scalar_ofBits, Ideal.ofBits_one_f32, tanh_apply,
    logistic_apply, s 0 (Spec.g0 i) (Nat.zero_add _).symm, s 1024 (Spec.g1 i) rfl, s 2048 (Spec.g2 i) rfl]

end Cert.KernelIdeal.PayIdx

end
-- ==== Proof.GruValue.lean ====
import proofs.«429206_j20933670601086_3_alg».proof.Proof.Steps0
import proofs.«429206_j20933670601086_3_alg».proof.Proof.PayGru
import proofs.«429206_j20933670601086_3_alg».proof.Proof.PayAttn
import proofs.«429206_j20933670601086_3_alg».proof.Proof.Spec
import proofs.«429206_j20933670601086_3_alg».proof.Proof.SpecIdx
import Idealize.ShloMosaic.Lib.ValueIdx

noncomputable section

namespace Cert.KernelIdeal.GruValue

open Cert.KernelIdeal Cert.KernelIdeal.Gen Cert.KernelIdeal.R0 Cert.KernelIdeal.PayIdx Idealize.ShloMosaic
  Idealize.ShloMosaic.ValueIdx

-- A window of a matrix read at a local position is the matrix at the window's offset plus that position.
theorem ld_cwL (cw : Vec Ideal S1024x2048 .f32) (i k : Fin 1024) :
    View.ld cw rCwL (ix2 i k) = cw (ix2 i (Spec.lo k)) :=
  congrArg cw (Spec.ix2_of_val (by show 0 + 1 * i.val = i.val; omega) (by show 0 + 1 * k.val = k.val; omega))
theorem ld_cwR (cw : Vec Ideal S1024x2048 .f32) (i k : Fin 1024) :
    View.ld cw rCwR (ix2 i k) = cw (ix2 i (Spec.hi k)) :=
  congrArg cw (Spec.ix2_of_val (by show 0 + 1 * i.val = i.val; omega) (by show 1024 + 1 * k.val = 1024 + k.val; omega))
theorem ld_G0 (w : Vec Ideal S3072x1024 .f32) (ρ : Fin 768) (k : Fin 1024) :
    View.ld w rG0 (ix2 ρ k) = w (ix2 (⟨ρ.val, by omega⟩ : Fin 3072) k) :=
  congrArg w (Spec.ix2_of_val (by show 0 + 1 * ρ.val = ρ.val; omega) (by show 0 + 1 * k.val = k.val; omega))
theorem ld_G1 (w : Vec Ideal S3072x1024 .f32) (ρ : Fin 768) (k : Fin 1024) :
    View.ld w rG1 (ix2 ρ k) = w (ix2 (⟨ρ.val + 768, by omega⟩ : Fin 3072) k) :=
  congrArg w (Spec.ix2_of_val (by show 768 + 1 * ρ.val = ρ.val + 768; omega) (by show 0 + 1 * k.val = k.val; omega))
theorem ld_G2 (w : Vec Ideal S3072x1024 .f32) (ρ : Fin 768) (k : Fin 1024) :
    View.ld w rG2 (ix2 ρ k) = w (ix2 (⟨ρ.val + 1536, by omega⟩ : Fin 3072) k) :=
  congrArg w (Spec.ix2_of_val (by show 1536 + 1 * ρ.val = ρ.val + 1536; omega) (by show 0 + 1 * k.val = k.val; omega))
theorem ld_G3 (w : Vec Ideal S3072x1024 .f32) (ρ : Fin 768) (k : Fin 1024) :
    View.ld w rG3 (ix2 ρ k) = w (ix2 (⟨ρ.val + 2304, by omega⟩ : Fin 3072) k) :=
  congrArg w (Spec.ix2_of_val (by show 2304 + 1 * ρ.val = ρ.val + 2304; omega) (by show 0 + 1 * k.val = k.val; omega))

theorem xcomb_value (e : Vec Ideal S1x1024 .f32) (cw : Vec Ideal S1024x2048 .f32) (cb : Vec Ideal S1x1024 .f32)
    (l : Vec Ideal S1x1 .f32) (acc : Vec Ideal S1x1024 .f32)
    (emb ctxF : Fin 1024 → EReal) (cW : Fin 1024 → Fin 2048 → EReal) (cbF : Fin 1024 → EReal)
    (hE : ∀ k, e (ix2 0 k) = emb k) (hC : ∀ k, acc (ix2 0 k) * Ideal.div 1 (l (ix2 0 0)) = ctxF k)
    (hcw : ∀ i k, cw (ix2 i k) = cW i k) (hcb : ∀ i, cb (ix2 0 i) = cbF i) (i : Fin 1024) :
    xcombOut e cw cb l acc (ix2 0 i)
      = max (((∑ k, emb k * cW i (Spec.lo k)) + ∑ k, ctxF k * cW i (Spec.hi k)) + cbF i) 0 := by
  unfold xcombOut
  rw [k0_pay8_apply, hcb]
  refine congrArg (fun s => max (s + cbF i) 0) ?_
  refine congrArg₂ (· + ·) (Finset.sum_congr rfl fun k _ => ?_) (Finset.sum_congr rfl fun k _ => ?_)
  · rw [pay18_apply, hE, ld_cwL, hcw]
  · rw [hC, ld_cwR, hcw]

theorem gi_value (e : Vec Ideal S1x1024 .f32) (cw : Vec Ideal S1024x2048 .f32) (cb : Vec Ideal S1x1024 .f32)
    (wih : Vec Ideal S3072x1024 .f32) (bih : Vec Ideal S1x3072 .f32) (l : Vec Ideal S1x1 .f32)
    (acc : Vec Ideal S1x1024 .f32) (Wih : Fin 3072 → Fin 1024 → EReal) (bihF : Fin 3072 → EReal)
    (hwih : ∀ r k, wih (ix2 r k) = Wih r k) (hbih : ∀ r, bih (ix2 0 r) = bihF r) (r : Fin 3072) :
    k0_pay11 (xcombOut e cw cb l acc) (k0_pay10 (View.ld wih rG0)) (View.ld wih rG1) (View.ld wih rG2)
        (View.ld wih rG3) bih (ix2 0 r)
      = (∑ k, xcombOut e cw cb l acc (ix2 0 k) * Wih r k) + bihF r := by
  refine (k0_pay11_apply_of _ _ _ _ _ _ Wih (fun ρ k => ?_) (fun ρ k => ?_) (fun ρ k => ?_) (fun ρ k => ?_) r).trans ?_
  · rw [k0_pay10_apply, ld_G0, hwih]
  · rw [ld_G1, hwih]
  · rw [ld_G2, hwih]
  · rw [ld_G3, hwih]
  · rw [hbih]

theorem gh_value (h : Vec Ideal S1x1024 .f32) (whh : Vec Ideal S3072x1024 .f32) (bhh : Vec Ideal S1x3072 .f32)
    (h0 : Fin 1024 → EReal) (Whh : Fin 3072 → Fin 1024 → EReal) (bhhF : Fin 3072 → EReal)
    (hH : ∀ k, h (ix2 0 k) = h0 k) (hwhh : ∀ r k, whh (ix2 r k) = Whh r k) (hbhh : ∀ r, bhh (ix2 0 r) = bhhF r)
    (r : Fin 3072) :
    k0_pay12 (k0_pay19 h) (k0_pay9 (View.ld whh rG0)) (View.ld whh rG1) (View.ld whh rG2) (View.ld whh rG3) bhh
        (ix2 0 r)
      = (∑ k, h0 k * Whh r k) + bhhF r := by
  refine (k0_pay12_apply_of _ _ _ _ _ _ Whh (fun ρ k => ?_) (fun ρ k => ?_) (fun ρ k => ?_) (fun ρ k => ?_) r).trans ?_
  · rw [k0_pay9_apply, ld_G0, hwhh]
  · rw [ld_G1, hwhh]
  · rw [ld_G2, hwhh]
  · rw [ld_G3, hwhh]
  · rw [hbhh]
    exact congrArg (· + bhhF r) (Finset.sum_congr rfl fun k _ => by rw [pay19_apply, hH])

theorem hnew_value (e h : Vec Ideal S1x1024 .f32) (cw : Vec Ideal S1024x2048 .f32) (cb : Vec Ideal S1x1024 .f32)
    (wih whh : Vec Ideal S3072x1024 .f32) (bih bhh : Vec Ideal S1x3072 .f32) (l : Vec Ideal S1x1 .f32)
    (acc : Vec Ideal S1x1024 .f32)
    (emb h0 ctxF : Fin 1024 → EReal) (cW : Fin 1024 → Fin 2048 → EReal) (cbF : Fin 1024 → EReal)
    (Wih Whh : Fin 3072 → Fin 1024 → EReal) (bihF bhhF : Fin 3072 → EReal)
    (encS : Fin 2048 → Fin 1024 → EReal) (aWS : Fin 2048 → Fin 2048 → EReal) (abS : Fin 2048 → EReal)
    (hE : ∀ k, e (ix2 0 k) = emb k) (hH : ∀ k, h (ix2 0 k) = h0 k)
    (hC : ∀ k, acc (ix2 0 k) * Ideal.div 1 (l (ix2 0 0)) = ctxF k)
    (hcw : ∀ i k, cw (ix2 i k) = cW i k) (hcb : ∀ i, cb (ix2 0 i) = cbF i)
    (hwih : ∀ r k, wih (ix2 r k) = Wih r k) (hwhh : ∀ r k, whh (ix2 r k) = Whh r k)
    (hbih : ∀ r, bih (ix2 0 r) = bihF r) (hbhh : ∀ r, bhh (ix2 0 r) = bhhF r)
    (hctx : ctxF = Spec.ctx emb h0 encS aWS abS) :
    hnewOut e h cw cb wih whh bih bhh l acc
      = Spec.unrow (Spec.hnew emb h0 encS aWS abS cW cbF Wih Whh bihF bhhF) := by
  have hx : ∀ k, xcombOut e cw cb l acc (ix2 0 k) = Spec.xcomb emb h0 encS aWS abS cW cbF k := fun k => by
    rw [xcomb_value e cw cb l acc emb ctxF cW cbF hE hC hcw hcb k, hctx]
    rfl
  have hgi : ∀ r, k0_pay11 (xcombOut e cw cb l acc) (k0_pay10 (View.ld wih rG0)) (View.ld wih rG1) (View.ld wih rG2)
      (View.ld wih rG3) bih (ix2 0 r) = Spec.gi emb h0 encS aWS abS cW cbF Wih bihF r := fun r => by
    rw [gi_value e cw cb wih bih l acc Wih bihF hwih hbih r]
    exact congrArg (· + bihF r) (Finset.sum_congr rfl fun k _ => by rw [hx])
  have hgh : ∀ r, k0_pay12 (k0_pay19 h) (k0_pay9 (View.ld whh rG0)) (View.ld whh rG1) (View.ld whh rG2)
      (View.ld whh rG3) bhh (ix2 0 r) = Spec.gh h0 Whh bhhF r := fun r =>
    gh_value h whh bhh h0 Whh bhhF hH hwhh hbhh r
  refine Spec.unrow_ext fun i => ?_
  unfold hnewOut
  rw [k0_pay5_apply, k0_pay13_apply, pay17_eq, hH]
  simp only [hgi, hgh]
  rfl

end Cert.KernelIdeal.GruValue

end
-- ==== Proof.KValue.lean ====
import proofs.«429206_j20933670601086_3_alg».proof.Proof.RunMain
import proofs.«429206_j20933670601086_3_alg».proof.Proof.Frame1
import proofs.«429206_j20933670601086_3_alg».proof.Proof.Finite
import proofs.«429206_j20933670601086_3_alg».proof.Proof.HostValue
import proofs.«429206_j20933670601086_3_alg».proof.Proof.Glue0
import proofs.«429206_j20933670601086_3_alg».proof.Proof.AttnValue
import proofs.«429206_j20933670601086_3_alg».proof.Proof.GruValue
import proofs.«429206_j20933670601086_3_alg».proof.Proof.PayGru
import proofs.«429206_j20933670601086_3_alg».proof.Proof.Spec
import proofs.«429206_j20933670601086_3_alg».proof.Proof.SpecIdx
import Idealize.ShloMosaic.Lib.StableHlo.Run
import Idealize.ShloMosaic.Lib.ValueIdx
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem Cert.LibOnline

variable (m : (ℓ : Loc nD τ sig) → Buf (Elt Ideal) ℓ) (c : Dev nD)

abbrev emb : Fin 1024 → EReal :=
  HostValue.embK (F := Ideal) (m ((c.tc : Thread nD τ).loc main_arg0)) (m ((c.tc : Thread nD τ).loc main_arg3))
abbrev h0 : Fin 1024 → EReal := Spec.hid (m ((c.tc : Thread nD τ).loc main_arg1) : S1x1x1024.Idx → EReal)
abbrev enc : Fin 2048 → Fin 1024 → EReal := Spec.mat (m ((c.tc : Thread nD τ).loc main_arg2) : S2048x1024.Idx → EReal)
abbrev aW : Fin 2048 → Fin 2048 → EReal := Spec.mat (m ((c.tc : Thread nD τ).loc main_arg4) : S2048x2048.Idx → EReal)
abbrev ab : Fin 2048 → EReal := Spec.vec1 (m ((c.tc : Thread nD τ).loc main_arg5) : S2048.Idx → EReal)
abbrev cW : Fin 1024 → Fin 2048 → EReal := Spec.mat (m ((c.tc : Thread nD τ).loc main_arg6) : S1024x2048.Idx → EReal)
abbrev cb : Fin 1024 → EReal := Spec.vec1 (m ((c.tc : Thread nD τ).loc main_arg7) : S1024.Idx → EReal)
abbrev Wih : Fin 3072 → Fin 1024 → EReal := Spec.mat (m ((c.tc : Thread nD τ).loc main_arg8) : S3072x1024.Idx → EReal)
abbrev Whh : Fin 3072 → Fin 1024 → EReal := Spec.mat (m ((c.tc : Thread nD τ).loc main_arg9) : S3072x1024.Idx → EReal)
abbrev bih : Fin 3072 → EReal := Spec.vec1 (m ((c.tc : Thread nD τ).loc main_arg10) : S3072.Idx → EReal)
abbrev bhh : Fin 3072 → EReal := Spec.vec1 (m ((c.tc : Thread nD τ).loc main_arg11) : S3072.Idx → EReal)
abbrev oW : Fin 50257 → Fin 1024 → EReal := Spec.mat (m ((c.tc : Thread nD τ).loc main_arg12) : S50257x1024.Idx → EReal)
abbrev ob : Fin 50257 → EReal := Spec.vec1 (m ((c.tc : Thread nD τ).loc main_arg13) : S50257.Idx → EReal)

theorem Vin0_arg (b : Ref sig .tc) (h : b ∉ hostOps0_W) : Run.Vin0 m c b = m ((c.tc : Thread nD τ).loc b) :=
  HostValue.ops0_of (fun b => m (c, b)) b h

theorem pos_eq (j : Fin 2048) (h : 256 * (R0.tt (tileOf j)).val + (laneOf j).val < 2048) :
    (⟨256 * (R0.tt (tileOf j)).val + (laneOf j).val, h⟩ : Fin 2048) = j :=
  Fin.ext (by show 256 * (j.val / 256) + j.val % 256 = j.val; exact Nat.div_add_mod _ _)

theorem embF_eq : AttnValue.embF (R0.cE (Run.Vin0 m) c) = emb m c := by
  funext k
  show R0.bE (Run.Vin0 m) c R0.tLast (ix2 0 k) = _
  rw [R0.bE_apply]
  exact HostValue.v9_apply (fun b => m (c, b)) k

theorem h0F_eq : AttnValue.h0F (R0.cH (Run.Vin0 m) c) = h0 m c := by
  funext k
  show R0.bH (Run.Vin0 m) c R0.tLast (ix2 0 k) = _
  rw [R0.bH_apply]
  exact HostValue.v10_apply (fun b => m (c, b)) k

theorem aWF_eq : AttnValue.aWF (R0.cAw (Run.Vin0 m) c) = aW m c := by
  funext j k
  show R0.bAw (Run.Vin0 m) c (R0.tt (tileOf j)) (ix2 (laneOf j) k) = _
  rw [R0.bAw_apply, pos_eq, Vin0_arg m c main_arg4 (by decide)]
  rfl

theorem abF_eq : AttnValue.abF (R0.cAb (Run.Vin0 m) c) = ab m c := by
  funext j
  show R0.bAb (Run.Vin0 m) c (R0.tt (tileOf j)) (ix2 0 (laneOf j)) = _
  rw [R0.bAb_apply, pos_eq]
  exact HostValue.v11_apply (fun b => m (c, b)) j

theorem encF_eq : AttnValue.encF (R0.cEnc (Run.Vin0 m) c) = enc m c := by
  funext j k
  show R0.bEnc (Run.Vin0 m) c (R0.tt (tileOf j)) (ix2 (laneOf j) k) = _
  rw [R0.bEnc_apply, pos_eq, Vin0_arg m c main_arg2 (by decide)]
  rfl

variable (X : Buf (Elt Ideal) ((c : Thread nD τ).loc main_v17))

theorem Wfin_v15_1 :
    Run.Wfin m c X (Proc.devRef .tc main_v15_1) = (R0.dat0 (Run.Vin0 m) c).arrAt 12 cfg0.N := by
  show HostValue.T (Run.E4 m c X) (Proc.devRef .tc main_v15_1) = _
  rw [HostValue.tail_v15_1, Run.E4_other m c X main_v15_1 (by decide)]
  show StableHlo.after hostOps1 (Run.E2 m c) (Proc.devRef .tc main_v15_1) = _
  rw [HostValue.ops1_of _ main_v15_1 (by decide), Run.E2_main_v15_1]

theorem Vin1_v15_0 : Run.Vin1 m c main_v15_0 = (R0.dat0 (Run.Vin0 m) c).arrAt 11 cfg0.N := by
  show StableHlo.after hostOps1 (Run.E2 m c) (Proc.devRef .tc main_v15_0) = _
  rw [HostValue.ops1_of _ main_v15_0 (by decide), Run.E2_main_v15_0]

theorem Vin1_arg (b : Ref sig .tc) (h0 : b ∉ hostOps0_W) (h1 : b ∉ hostOps1_W) (hr0 : b ≠ main_v15_0) (hr1 : b ≠ main_v15_1) :
    Run.Vin1 m c b = m ((c.tc : Thread nD τ).loc b) := by
  show StableHlo.after hostOps1 (Run.E2 m c) (Proc.devRef .tc b) = _
  rw [HostValue.ops1_of _ b h1, Run.E2_other m c b hr0 hr1]
  exact HostValue.ops0_of (fun b => m (c, b)) b h0

section Values

variable [Cert.Pre_finite_inputs.Facts] (hpre : Cert.Pre_KernelIdeal m)
include hpre

-- Every float argument is real-valued, so every entry of the blocks read as families is.
theorem blocks_real :
    (∀ k, ∃ r : ℝ, AttnValue.embF (R0.cE (Run.Vin0 m) c) k = (r : EReal))
    ∧ (∀ k, ∃ r : ℝ, AttnValue.h0F (R0.cH (Run.Vin0 m) c) k = (r : EReal))
    ∧ (∀ j k, ∃ r : ℝ, AttnValue.aWF (R0.cAw (Run.Vin0 m) c) j k = (r : EReal))
    ∧ (∀ j, ∃ r : ℝ, AttnValue.abF (R0.cAb (Run.Vin0 m) c) j = (r : EReal))
    ∧ ∀ j k, ∃ r : ℝ, AttnValue.encF (R0.cEnc (Run.Vin0 m) c) j k = (r : EReal) := by
  obtain ⟨fh, fenc, ftbl, faw, fab, -⟩ := Cert.FiniteSide.finite_args m hpre c
  rw [embF_eq, h0F_eq, aWF_eq, abF_eq, encF_eq]
  refine ⟨fun k => ?_, fun k => fh _, fun j k => faw _, fun j => fab _, fun j k => fenc _⟩
  obtain ⟨i, hi⟩ := HostValue.embK_mem (F := Ideal) (m ((c.tc : Thread nD τ).loc main_arg0)) (m ((c.tc : Thread nD τ).loc main_arg3)) k
  obtain ⟨r, hr⟩ := ftbl i
  exact ⟨r, hi.trans hr⟩

theorem attnw_value :
    Run.Wfin m c X (Proc.devRef .tc main_v15_1) = Spec.unrow (Spec.attnw (emb m c) (h0 m c) (aW m c) (ab m c)) := by
  obtain ⟨he, hh, haw, hab, -⟩ := blocks_real m c hpre
  rw [Wfin_v15_1, R0.arr12_eq, AttnValue.attnw_value _ _ _ _ _ he hh haw hab, embF_eq, h0F_eq, aWF_eq, abF_eq]

theorem arr11_value :
    (R0.dat0 (Run.Vin0 m) c).arrAt 11 cfg0.N = Spec.unrow (Spec.hnew (emb m c) (h0 m c) (enc m c) (aW m c) (ab m c) (cW m c) (cb m c) (Wih m c) (Whh m c) (bih m c) (bhh m c)) := by
  obtain ⟨he, hh, haw, hab, henc⟩ := blocks_real m c hpre
  rw [R0.arr11_eq]
  exact GruValue.hnew_value _ _ _ _ _ _ _ _ _ _
    (emb m c) (h0 m c) (Spec.ctx (emb m c) (h0 m c) (enc m c) (aW m c) (ab m c)) (cW m c) (cb m c) (Wih m c) (Whh m c)
    (bih m c) (bhh m c) (enc m c) (aW m c) (ab m c)
    (fun k => congrFun (embF_eq m c) k)
    (fun k => congrFun (h0F_eq m c) k)
    (fun k => by
      rw [AttnValue.ctx_value _ _ _ _ _ he hh haw hab henc k, embF_eq, h0F_eq, encF_eq, aWF_eq, abF_eq])
    (fun i k => by rw [R0.bCw_apply, Vin0_arg m c main_arg6 (by decide)]; rfl)
    (fun i => by rw [R0.bCb_apply]; exact HostValue.v12_apply (fun b => m (c, b)) i)
    (fun r k => by rw [R0.bWih_apply, Vin0_arg m c main_arg8 (by decide)]; rfl)
    (fun r k => by rw [R0.bWhh_apply, Vin0_arg m c main_arg9 (by decide)]; rfl)
    (fun r => by rw [R0.bBih_apply]; exact HostValue.v13_apply (fun b => m (c, b)) r)
    (fun r => by rw [R0.bBhh_apply]; exact HostValue.v14_apply (fun b => m (c, b)) r)
    rfl

theorem hnew_value :
    Run.Wfin m c X (Proc.devRef .tc main_v20) = Spec.unhid (Spec.hnew (emb m c) (h0 m c) (enc m c) (aW m c) (ab m c) (cW m c) (cb m c) (Wih m c) (Whh m c) (bih m c) (bhh m c)) := by
  funext j
  obtain ⟨p, q, r, rfl⟩ : ∃ (p q : Fin 1) (r : Fin 1024), j = ix3 p q r := ⟨j 0, j 1, j 2, eq_ix3 j⟩
  obtain rfl : p = 0 := Subsingleton.elim _ _
  obtain rfl : q = 0 := Subsingleton.elim _ _
  rw [Spec.unhid_ix3]
  show (HostValue.T (Run.E4 m c X) (Proc.devRef .tc main_v20) : S1x1x1024.Idx → EReal) (ix3 0 0 r) = _
  rw [HostValue.tail_v20_apply, Run.E4_other m c X main_v15_0 (by decide)]
  show (Run.Vin1 m c main_v15_0 : S1x1024.Idx → EReal) (ix2 0 r) = _
  rw [Vin1_v15_0, arr11_value m c hpre]
  rfl

theorem logits_value (hX : Run.Out1 m c X) :
    Run.Wfin m c X (Proc.devRef .tc main_v19)
      = HostValue.LSk (F := Ideal) (Spec.unrow (Spec.logits (emb m c) (h0 m c) (enc m c) (aW m c) (ab m c) (cW m c) (cb m c) (Wih m c) (Whh m c) (bih m c) (bhh m c) (oW m c) (ob m c))) := by
  show (HostValue.T (Run.E4 m c X) (Proc.devRef .tc main_v19) : S1x50257.Idx → EReal) = _
  rw [HostValue.tail_v19]
  refine congrArg HostValue.LSk (Spec.unrow_ext fun v => ?_)
  rw [Run.E4_main_v17]
  obtain ⟨x0, x1, x2, e0, e1, e2, hv⟩ := R1.out1_apply (Run.Vin1 m) c X hX v
  refine Eq.trans (show X (HostValue.col (ix2 0 v)) = X (ix2 (0 : Fin 1) (⟨v.val, by omega⟩ : Fin 51200)) from rfl) ?_
  rw [hv, PayIdx.k1_pay1_apply]
  unfold Spec.logits
  refine congrArg₂ (· + ·) (Finset.sum_congr rfl fun k _ => ?_) ?_
  · rw [e0 k, e1 k, Vin1_v15_0, arr11_value m c hpre, Vin1_arg m c main_arg12 (by decide) (by decide) (by decide) (by decide)]
    rfl
  · rw [e2]
    refine Eq.trans (HostValue.v16_apply (Run.E2 m c) v) ?_
    rw [Run.E2_other m c main_arg13 (by decide) (by decide)]
    exact congrFun (HostValue.ops0_of (fun b => m (c, b)) main_arg13 (by decide)) (ix1 v)

theorem kernel_values (hX : Run.Out1 m c X) :
    Run.Wfin m c X (Proc.devRef .tc main_v19)
        = HostValue.LSk (F := Ideal) (Spec.unrow (Spec.logits (emb m c) (h0 m c) (enc m c) (aW m c) (ab m c) (cW m c) (cb m c) (Wih m c) (Whh m c) (bih m c) (bhh m c) (oW m c) (ob m c)))
    ∧ Run.Wfin m c X (Proc.devRef .tc main_v20) = Spec.unhid (Spec.hnew (emb m c) (h0 m c) (enc m c) (aW m c) (ab m c) (cW m c) (cb m c) (Wih m c) (Whh m c) (bih m c) (bhh m c))
    ∧ Run.Wfin m c X (Proc.devRef .tc main_v15_1) = Spec.unrow (Spec.attnw (emb m c) (h0 m c) (aW m c) (ab m c)) :=
  ⟨logits_value m c X hpre hX, hnew_value m c X hpre, attnw_value m c X hpre⟩

end Values

end Cert.KernelIdeal.KValue

end
-- ==== Proof.RefRun.lean ====
import proofs.«429206_j20933670601086_3_alg».proof.Proof.RefOps
import proofs.«429206_j20933670601086_3_alg».proof.Proof.RefRead
import Idealize.ShloMosaic.Lib.StableHlo.Run
import Idealize.ShloMosaic.Lib.ValueIdx
import Idealize.ShloMosaic.Lib.Pipeline.Frame

noncomputable section

namespace Cert.ReferenceIdeal.ValueP2

open Cert.ReferenceIdeal Cert.ReferenceIdeal.Gen Cert.RefRead Idealize.ShloMosaic Idealize.ShloMosaic.TcCoe Idealize.SL.Sem Idealize.ShloMosaic.StableHlo

variable {F : FTy → Type} [FloatOps F]

theorem pair_cast {T : BufTy} (V : Valuation τ sig (Elt F)) (r0 r1 : Ref sig .tc) (hT : ∀ k, (![r0, r1] k).ty = T) :
    (fun k => cast (congrArg (fun U : BufTy => U.Contents (Elt F)) (hT k)) (V (Proc.devRef .tc (![r0, r1] k))))
      = ![cast (congrArg (fun U : BufTy => U.Contents (Elt F)) (hT 0)) (V (Proc.devRef .tc r0)),
          cast (congrArg (fun U : BufTy => U.Contents (Elt F)) (hT 1)) (V (Proc.devRef .tc r1))] := by
  funext k; fin_cases k <;> rfl

theorem ofBuf_toBuf {sg : RefSig} {Vl : EltTy → Type} {T : BufTy} (x : TRef sg T) (v : T.Contents Vl) :
    x.ofBuf (x.toBuf v) = v := by
  obtain ⟨r, rfl, h1, h2⟩ := x
  rfl

/-- The `n` operations of `ops` from position `a`: the list is cut after each value that is used more than once. -/
abbrev cut (a n : ℕ) : List (HloOp τ sig (Elt F)) := ((ops (F := F)).drop a).take n

set_option maxRecDepth 8192 in
theorem ops_split : (ops : List (HloOp τ sig (Elt F)))
    = cut 0 18 ++ (cut 18 20 ++ (cut 38 8 ++ (cut 46 8 ++ (cut 54 33 ++ (cut 87 4 ++ (cut 91 15 ++ (cut 106 1))))))) := rfl

abbrev WA : List (Ref sig .tc) := [main_v0, main_c, main_v1, main_c_0, main_v2, main_v3, main_c_1, main_c_2, main_v4, main_c_3, main_c_4, main_v5, main_c_5, main_v6, main_v7, main_v8, main_v9, main_v10]
abbrev WB : List (Ref sig .tc) := [main_v11, main_v12, main_v13, main_v14, main_v15, main_cst, main_v16, main_cst_6, main_v17, main_v18, main_v19, main_v20, main_v21, main_v22, main_cst_7, main_v23, main_v24, main_v25, main_v26, main_v27]
abbrev WC : List (Ref sig .tc) := [main_v28, main_v29, main_v30, main_v31, main_v32, main_call0_cst, main_call0_v0, main_v33]
abbrev WD : List (Ref sig .tc) := [main_v34, main_v35, main_v36, main_v37, main_v38, main_v39, main_v40, main_v41]
abbrev WE : List (Ref sig .tc) := [main_v42, main_v43, main_v44, main_v45, main_v46, main_v47, main_v48, main_v49, main_v50, main_cst_8, main_v51, main_v52, main_cst_9, main_v53, main_v54, main_v55, main_v56, main_v57, main_cst_10, main_v58, main_v59, main_cst_11, main_v60, main_v61, main_v62, main_v63, main_v64, main_cst_12, main_v65, main_v66, main_v67, main_v68, main_v69]
abbrev WF : List (Ref sig .tc) := [main_v70, main_v71, main_v72, main_v73]
abbrev WG : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v74]
abbrev WH : List (Ref sig .tc) := [main_v75]

/-- Every operation of a stretch writes one of the stretch's listed references. -/
theorem writes :
    ((cut 0 18) : List (HloOp τ sig (Elt F))).Forall (fun op => op.writes ⊆ (WA.map (Proc.devRef (τ := τ) .tc)).toFinset)
    ∧ ((cut 18 20) : List (HloOp τ sig (Elt F))).Forall (fun op => op.writes ⊆ (WB.map (Proc.devRef (τ := τ) .tc)).toFinset)
    ∧ ((cut 38 8) : List (HloOp τ sig (Elt F))).Forall (fun op => op.writes ⊆ (WC.map (Proc.devRef (τ := τ) .tc)).toFinset)
    ∧ ((cut 46 8) : List (HloOp τ sig (Elt F))).Forall (fun op => op.writes ⊆ (WD.map (Proc.devRef (τ := τ) .tc)).toFinset)
    ∧ ((cut 54 33) : List (HloOp τ sig (Elt F))).Forall (fun op => op.writes ⊆ (WE.map (Proc.devRef (τ := τ) .tc)).toFinset)
    ∧ ((cut 87 4) : List (HloOp τ sig (Elt F))).Forall (fun op => op.writes ⊆ (WF.map (Proc.devRef (τ := τ) .tc)).toFinset)
    ∧ ((cut 91 15) : List (HloOp τ sig (Elt F))).Forall (fun op => op.writes ⊆ (WG.map (Proc.devRef (τ := τ) .tc)).toFinset)
    ∧ ((cut 106 1) : List (HloOp τ sig (Elt F))).Forall (fun op => op.writes ⊆ (WH.map (Proc.devRef (τ := τ) .tc)).toFinset) := by
  simp only [cut, ops, List.drop_succ_cons, List.drop_zero, List.take_succ_cons, List.take_zero, List.Forall, nullary_writes, unary_writes, binary_writes, ternary_writes, reshape_writes, unaryIndexed_writes, Finset.singleton_subset_iff, List.mem_toFinset]
  and_intros <;> exact List.mem_map_of_mem (by decide)

section Stretches

variable (W : Valuation τ sig (Elt F)) (r : Ref sig .tc)

theorem A_of (h : r ∉ WA) : after (cut 0 18) W (Proc.devRef .tc r) = W (Proc.devRef .tc r) :=
  after_of_writes_sub _ _ (writes (F := F)).1 h
theorem B_of (h : r ∉ WB) : after (cut 18 20) W (Proc.devRef .tc r) = W (Proc.devRef .tc r) :=
  after_of_writes_sub _ _ (writes (F := F)).2.1 h
theorem C_of (h : r ∉ WC) : after (cut 38 8) W (Proc.devRef .tc r) = W (Proc.devRef .tc r) :=
  after_of_writes_sub _ _ (writes (F := F)).2.2.1 h
theorem D_of (h : r ∉ WD) : after (cut 46 8) W (Proc.devRef .tc r) = W (Proc.devRef .tc r) :=
  after_of_writes_sub _ _ (writes (F := F)).2.2.2.1 h
theorem E_of (h : r ∉ WE) : after (cut 54 33) W (Proc.devRef .tc r) = W (Proc.devRef .tc r) :=
  after_of_writes_sub _ _ (writes (F := F)).2.2.2.2.1 h
theorem F_of (h : r ∉ WF) : after (cut 87 4) W (Proc.devRef .tc r) = W (Proc.devRef .tc r) :=
  after_of_writes_sub _ _ (writes (F := F)).2.2.2.2.2.1 h
theorem G_of (h : r ∉ WG) : after (cut 91 15) W (Proc.devRef .tc r) = W (Proc.devRef .tc r) :=
  after_of_writes_sub _ _ (writes (F := F)).2.2.2.2.2.2.1 h
theorem H_of (h : r ∉ WH) : after (cut 106 1) W (Proc.devRef .tc r) = W (Proc.devRef .tc r) :=
  after_of_writes_sub _ _ (writes (F := F)).2.2.2.2.2.2.2 h

variable {x0 : (⟨S1, .i32⟩ : BufTy).Contents (Elt F)} {x1 : (⟨S1x1x1024, .f32⟩ : BufTy).Contents (Elt F)} {x2 : (⟨S2048x1024, .f32⟩ : BufTy).Contents (Elt F)} {x3 : (⟨S50257x1024, .f32⟩ : BufTy).Contents (Elt F)} {x4 : (⟨S2048x2048, .f32⟩ : BufTy).Contents (Elt F)} {x5 : (⟨S2048, .f32⟩ : BufTy).Contents (Elt F)} {x6 : (⟨S1024x2048, .f32⟩ : BufTy).Contents (Elt F)} {x7 : (⟨S1024, .f32⟩ : BufTy).Contents (Elt F)} {x8 : (⟨S3072x1024, .f32⟩ : BufTy).Contents (Elt F)} {x9 : (⟨S3072x1024, .f32⟩ : BufTy).Contents (Elt F)} {x10 : (⟨S3072, .f32⟩ : BufTy).Contents (Elt F)} {x11 : (⟨S3072, .f32⟩ : BufTy).Contents (Elt F)} {x12 : (⟨S50257x1024, .f32⟩ : BufTy).Contents (Elt F)} {x13 : (⟨S50257, .f32⟩ : BufTy).Contents (Elt F)}

theorem A_v9 : after (cut 0 18) W (Proc.devRef .tc main_v9) = val_main_v9 (F := F) (W (Proc.devRef .tc main_arg0)) (W (Proc.devRef .tc main_arg3)) := by
  simp only [cut, ops, List.drop_succ_cons, List.drop_zero, List.take_succ_cons, List.take_zero]; after_results
  rw [pair_cast]
  case hT => intro k; fin_cases k <;> rfl
  after_results_simp
  rfl

theorem A_v10 : after (cut 0 18) W (Proc.devRef .tc main_v10) = val_main_v10 (F := F) (W (Proc.devRef .tc main_arg1)) := by
  simp only [cut, ops, List.drop_succ_cons, List.drop_zero, List.take_succ_cons, List.take_zero]; after_results; rfl

theorem B_v26
    (hv9 : W (Proc.devRef .tc main_v9) = val_main_v9 (F := F) x0 x3)
    (hv10 : W (Proc.devRef .tc main_v10) = val_main_v10 (F := F) x1)
    (ha4 : W (Proc.devRef .tc main_arg4) = x4)
    (ha5 : W (Proc.devRef .tc main_arg5) = x5) :
    after (cut 18 20) W (Proc.devRef .tc main_v26) = val_main_v26 (F := F) x0 x1 x3 x4 x5 := by
  simp only [cut, ops, List.drop_succ_cons, List.drop_zero, List.take_succ_cons, List.take_zero]; after_results_simp
  rw [hv9, hv10, ha4, ha5]
  rfl

theorem B_v27
    (hv9 : W (Proc.devRef .tc main_v9) = val_main_v9 (F := F) x0 x3)
    (hv10 : W (Proc.devRef .tc main_v10) = val_main_v10 (F := F) x1)
    (ha4 : W (Proc.devRef .tc main_arg4) = x4)
    (ha5 : W (Proc.devRef .tc main_arg5) = x5)
    (ha2 : W (Proc.devRef .tc main_arg2) = x2) :
    after (cut 18 20) W (Proc.devRef .tc main_v27) = val_main_v27 (F := F) x0 x1 x2 x3 x4 x5 := by
  simp only [cut, ops, List.drop_succ_cons, List.drop_zero, List.take_succ_cons, List.take_zero]; after_results_simp
  rw [hv9, hv10, ha4, ha5, ha2]
  rfl

theorem C_v33
    (hv9 : W (Proc.devRef .tc main_v9) = val_main_v9 (F := F) x0 x3)
    (hv27 : W (Proc.devRef .tc main_v27) = val_main_v27 (F := F) x0 x1 x2 x3 x4 x5)
    (ha6 : W (Proc.devRef .tc main_arg6) = x6)
    (ha7 : W (Proc.devRef .tc main_arg7) = x7) :
    after (cut 38 8) W (Proc.devRef .tc main_v33) = val_main_v33 (F := F) x0 x1 x2 x3 x4 x5 x6 x7 := by
  simp only [cut, ops, List.drop_succ_cons, List.drop_zero, List.take_succ_cons, List.take_zero]; after_results
  simp only [ofBuf_toBuf]
  rw [hv9, hv27, ha6, ha7]
  rfl

theorem D_v37
    (hv33 : W (Proc.devRef .tc main_v33) = val_main_v33 (F := F) x0 x1 x2 x3 x4 x5 x6 x7)
    (ha8 : W (Proc.devRef .tc main_arg8) = x8)
    (ha10 : W (Proc.devRef .tc main_arg10) = x10) :
    after (cut 46 8) W (Proc.devRef .tc main_v37) = val_main_v37 (F := F) x0 x1 x2 x3 x4 x5 x6 x7 x8 x10 := by
  simp only [cut, ops, List.drop_succ_cons, List.drop_zero, List.take_succ_cons, List.take_zero]; after_results
  rw [hv33, ha8, ha10]
  rfl

theorem D_v41
    (hv10 : W (Proc.devRef .tc main_v10) = val_main_v10 (F := F) x1)
    (ha9 : W (Proc.devRef .tc main_arg9) = x9)
    (ha11 : W (Proc.devRef .tc main_arg11) = x11) :
    after (cut 46 8) W (Proc.devRef .tc main_v41) = val_main_v41 (F := F) x1 x9 x11 := by
  simp only [cut, ops, List.drop_succ_cons, List.drop_zero, List.take_succ_cons, List.take_zero]; after_results
  rw [hv10, ha9, ha11]
  rfl

theorem E_v69
    (hv37 : W (Proc.devRef .tc main_v37) = val_main_v37 (F := F) x0 x1 x2 x3 x4 x5 x6 x7 x8 x10)
    (hv41 : W (Proc.devRef .tc main_v41) = val_main_v41 (F := F) x1 x9 x11)
    (hv10 : W (Proc.devRef .tc main_v10) = val_main_v10 (F := F) x1) :
    after (cut 54 33) W (Proc.devRef .tc main_v69) = val_main_v69 (F := F) x0 x1 x2 x3 x4 x5 x6 x7 x8 x9 x10 x11 := by
  simp only [cut, ops, List.drop_succ_cons, List.drop_zero, List.take_succ_cons, List.take_zero]; after_results_simp
  rw [hv37, hv41, hv10]
  rfl

theorem F_v73
    (hv69 : W (Proc.devRef .tc main_v69) = val_main_v69 (F := F) x0 x1 x2 x3 x4 x5 x6 x7 x8 x9 x10 x11)
    (ha12 : W (Proc.devRef .tc main_arg12) = x12)
    (ha13 : W (Proc.devRef .tc main_arg13) = x13) :
    after (cut 87 4) W (Proc.devRef .tc main_v73) = val_main_v73 (F := F) x0 x1 x2 x3 x4 x5 x6 x7 x8 x9 x10 x11 x12 x13 := by
  simp only [cut, ops, List.drop_succ_cons, List.drop_zero, List.take_succ_cons, List.take_zero]; after_results
  rw [hv69, ha12, ha13]
  rfl

theorem G_v74
    (hv73 : W (Proc.devRef .tc main_v73) = val_main_v73 (F := F) x0 x1 x2 x3 x4 x5 x6 x7 x8 x9 x10 x11 x12 x13) :
    after (cut 91 15) W (Proc.devRef .tc main_v74) = val_main_v74 (F := F) x0 x1 x2 x3 x4 x5 x6 x7 x8 x9 x10 x11 x12 x13 := by
  simp only [cut, ops, List.drop_succ_cons, List.drop_zero, List.take_succ_cons, List.take_zero]; after_results
  simp only [ofBuf_toBuf]
  rw [hv73]
  rfl

theorem H_v75
    (hv69 : W (Proc.devRef .tc main_v69) = val_main_v69 (F := F) x0 x1 x2 x3 x4 x5 x6 x7 x8 x9 x10 x11) :
    after (cut 106 1) W (Proc.devRef .tc main_v75) = val_main_v75 (F := F) x0 x1 x2 x3 x4 x5 x6 x7 x8 x9 x10 x11 := by
  simp only [cut, ops, List.drop_succ_cons, List.drop_zero, List.take_succ_cons, List.take_zero]; after_results
  rw [hv69]
  rfl

end Stretches

section Chain

variable (W : Valuation τ sig (Elt F))

abbrev V1 : Valuation τ sig (Elt F) := after (cut 0 18) W
abbrev V2 : Valuation τ sig (Elt F) := after (cut 18 20) (V1 W)
abbrev V3 : Valuation τ sig (Elt F) := after (cut 38 8) (V2 W)
abbrev V4 : Valuation τ sig (Elt F) := after (cut 46 8) (V3 W)
abbrev V5 : Valuation τ sig (Elt F) := after (cut 54 33) (V4 W)
abbrev V6 : Valuation τ sig (Elt F) := after (cut 87 4) (V5 W)
abbrev V7 : Valuation τ sig (Elt F) := after (cut 91 15) (V6 W)
abbrev V8 : Valuation τ sig (Elt F) := after (cut 106 1) (V7 W)

theorem ops_eq : after (ops : List (HloOp τ sig (Elt F))) W = V8 W := by
  rw [ops_split]; simp only [StableHlo.after_append]

/-- A reference no stretch writes holds, after every stretch, what it held at the start. -/
abbrev Wall : List (Ref sig .tc) := WA ++ (WB ++ (WC ++ (WD ++ (WE ++ (WF ++ (WG ++ WH))))))

theorem kept (r : Ref sig .tc) (h : r ∉ Wall) :
    V1 W (Proc.devRef .tc r) = W (Proc.devRef .tc r) ∧ V2 W (Proc.devRef .tc r) = W (Proc.devRef .tc r) ∧ V3 W (Proc.devRef .tc r) = W (Proc.devRef .tc r) ∧ V4 W (Proc.devRef .tc r) = W (Proc.devRef .tc r) ∧ V5 W (Proc.devRef .tc r) = W (Proc.devRef .tc r) ∧ V6 W (Proc.devRef .tc r) = W (Proc.devRef .tc r) ∧ V7 W (Proc.devRef .tc r) = W (Proc.devRef .tc r) ∧ V8 W (Proc.devRef .tc r) = W (Proc.devRef .tc r) := by
  simp only [Wall, List.mem_append, not_or] at h
  obtain ⟨hA, hB, hC, hD, hE, hF, hG, hH⟩ := h
  have e1 := A_of W r hA
  have e2 := (B_of (V1 W) r hB).trans e1
  have e3 := (C_of (V2 W) r hC).trans e2
  have e4 := (D_of (V3 W) r hD).trans e3
  have e5 := (E_of (V4 W) r hE).trans e4
  have e6 := (F_of (V5 W) r hF).trans e5
  have e7 := (G_of (V6 W) r hG).trans e6
  have e8 := (H_of (V7 W) r hH).trans e7
  exact ⟨e1, e2, e3, e4, e5, e6, e7, e8⟩

abbrev arg (r : Ref sig .tc) : r.ty.Contents (Elt F) := W (Proc.devRef .tc r)

/-- The three results after the whole list, as the stages of the arguments the list started from. -/
theorem results :
    V8 W (Proc.devRef .tc main_v74) = val_main_v74 (F := F) (arg W main_arg0) (arg W main_arg1) (arg W main_arg2) (arg W main_arg3) (arg W main_arg4) (arg W main_arg5) (arg W main_arg6) (arg W main_arg7) (arg W main_arg8) (arg W main_arg9) (arg W main_arg10) (arg W main_arg11) (arg W main_arg12) (arg W main_arg13)
    ∧ V8 W (Proc.devRef .tc main_v75) = val_main_v75 (F := F) (arg W main_arg0) (arg W main_arg1) (arg W main_arg2) (arg W main_arg3) (arg W main_arg4) (arg W main_arg5) (arg W main_arg6) (arg W main_arg7) (arg W main_arg8) (arg W main_arg9) (arg W main_arg10) (arg W main_arg11)
    ∧ V8 W (Proc.devRef .tc main_v26) = val_main_v26 (F := F) (arg W main_arg0) (arg W main_arg1) (arg W main_arg3) (arg W main_arg4) (arg W main_arg5) := by
  have h9 := A_v9 W
  have h10 := A_v10 W
  have h26 := B_v26 (V1 W) h9 h10 (kept W main_arg4 (by decide)).1 (kept W main_arg5 (by decide)).1
  have h27 := B_v27 (V1 W) h9 h10 (kept W main_arg4 (by decide)).1 (kept W main_arg5 (by decide)).1 (kept W main_arg2 (by decide)).1
  have h33 := C_v33 (V2 W) ((B_of _ main_v9 (by decide)).trans h9) h27 (kept W main_arg6 (by decide)).2.1 (kept W main_arg7 (by decide)).2.1
  have h10' := (C_of _ main_v10 (by decide)).trans ((B_of _ main_v10 (by decide)).trans h10)
  have h37 := D_v37 (V3 W) h33 (kept W main_arg8 (by decide)).2.2.1 (kept W main_arg10 (by decide)).2.2.1
  have h41 := D_v41 (V3 W) h10' (kept W main_arg9 (by decide)).2.2.1 (kept W main_arg11 (by decide)).2.2.1
  have h69 := E_v69 (V4 W) h37 h41 ((D_of _ main_v10 (by decide)).trans h10')
  have h73 := F_v73 (V5 W) h69 (kept W main_arg12 (by decide)).2.2.2.2.1 (kept W main_arg13 (by decide)).2.2.2.2.1
  have h74 := G_v74 (V6 W) h73
  have h75 := H_v75 (V7 W) ((G_of _ main_v69 (by decide)).trans ((F_of _ main_v69 (by decide)).trans h69))
  exact ⟨(H_of _ main_v74 (by decide)).trans h74, h75,
    (H_of _ main_v26 (by decide)).trans ((G_of _ main_v26 (by decide)).trans ((F_of _ main_v26 (by decide)).trans ((E_of _ main_v26 (by decide)).trans
      ((D_of _ main_v26 (by decide)).trans ((C_of _ main_v26 (by decide)).trans h26)))))⟩

end Chain

/-- Core `c`'s fourteen argument arrays in the state `r` are as they were in `m`. -/
abbrev ArgsKept (m : (ℓ : Loc nD τ sig) → Buf (Elt F) ℓ) (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)

/-- Every weakly fair execution of @main ends with each result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = val_main_v74 (F := F) (arg (launchContents m c) main_arg0) (arg (launchContents m c) main_arg1) (arg (launchContents m c) main_arg2) (arg (launchContents m c) main_arg3) (arg (launchContents m c) main_arg4) (arg (launchContents m c) main_arg5) (arg (launchContents m c) main_arg6) (arg (launchContents m c) main_arg7) (arg (launchContents m c) main_arg8) (arg (launchContents m c) main_arg9) (arg (launchContents m c) main_arg10) (arg (launchContents m c) main_arg11) (arg (launchContents m c) main_arg12) (arg (launchContents m c) main_arg13)
      ∧ r.2.mem ((c.tc : Thread nD τ).loc main_v75) = val_main_v75 (F := F) (arg (launchContents m c) main_arg0) (arg (launchContents m c) main_arg1) (arg (launchContents m c) main_arg2) (arg (launchContents m c) main_arg3) (arg (launchContents m c) main_arg4) (arg (launchContents m c) main_arg5) (arg (launchContents m c) main_arg6) (arg (launchContents m c) main_arg7) (arg (launchContents m c) main_arg8) (arg (launchContents m c) main_arg9) (arg (launchContents m c) main_arg10) (arg (launchContents m c) main_arg11)
      ∧ r.2.mem ((c.tc : Thread nD τ).loc main_v26) = val_main_v26 (F := F) (arg (launchContents m c) main_arg0) (arg (launchContents m c) main_arg1) (arg (launchContents m c) main_arg3) (arg (launchContents m c) main_arg4) (arg (launchContents m c) main_arg5)
      ∧ ArgsKept m r.2.mem c :=
  (θ_run defs _ _).mono (fun r h c =>
    have e := fun b => (h c b).trans (congrFun (ops_eq (launchContents m c)) _)
    have k : ∀ b ∉ Wall, r.2.mem ((c.tc : Thread nD τ).loc b) = m ((c.tc : Thread nD τ).loc b) :=
      fun b hb => (e b).trans (kept (launchContents m c) b hb).2.2.2.2.2.2.2
    have v := results (launchContents m c)
    ⟨(e _).trans v.1, (e _).trans v.2.1, (e _).trans v.2.2,
      k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide)⟩)
    (run_seq scopedRefs_eq scopedSems_eq defs main (fun _ => ops) main_eq (fun _ => ops_sub) m ρ)

end Cert.ReferenceIdeal.ValueP2

end
-- ==== Proof.RefValueA.lean ====
import proofs.«429206_j20933670601086_3_alg».proof.Proof.Gen.ReferenceIdeal
import proofs.«429206_j20933670601086_3_alg».proof.Proof.RefRead
import proofs.«429206_j20933670601086_3_alg».proof.Proof.Spec
import proofs.«429206_j20933670601086_3_alg».proof.Proof.SpecIdx
import Idealize.ShloMosaic.Lib.ValueIdx
import Idealize.ShloMosaic.Lib.Pipeline.Value
import Idealize.ShloMosaic.PureOps.Ideal.Laws
import Idealize.ShloMosaic.Lib.IdealHost
import Mathlib.Algebra.BigOperators.Fin

noncomputable section

namespace Cert.RefSide

open Cert.ReferenceIdeal Cert.ReferenceIdeal.Gen Cert.RefRead Idealize.ShloMosaic Idealize.ShloMosaic.ValueIdx
  Idealize.ShloMosaic.TcCoe Idealize.SL.Sem

theorem idx1_ext {n : Nat} {i j : (⟨1, ![n]⟩ : Shape).Idx} (e0 : (i 0).val = (j 0).val) : i = j :=
  funext fun d => Fin.ext (by match d with | ⟨0, _⟩ => exact e0)

theorem idx2_ext {n0 n1 : Nat} {i j : (⟨2, ![n0, n1]⟩ : Shape).Idx} (e0 : (i 0).val = (j 0).val)
    (e1 : (i 1).val = (j 1).val) : i = j :=
  funext fun d => Fin.ext (by match d with | ⟨0, _⟩ => exact e0 | ⟨1, _⟩ => exact e1)

theorem idx3_ext {n0 n1 n2 : Nat} {i j : (⟨3, ![n0, n1, n2]⟩ : Shape).Idx} (e0 : (i 0).val = (j 0).val)
    (e1 : (i 1).val = (j 1).val) (e2 : (i 2).val = (j 2).val) : i = j :=
  funext fun d => Fin.ext (by match d with | ⟨0, _⟩ => exact e0 | ⟨1, _⟩ => exact e1 | ⟨2, _⟩ => exact e2)

theorem ofBits_neg_inf : Ideal.ofBits .f32 0xFF800000#32 = ⊥ := by simp [Ideal.ofBits, Ideal.ieee]

theorem sum_halves {M : Type*} [AddCommMonoid M] (f : Fin 2048 → M) :
    ∑ k : Fin 2048, f k = (∑ k : Fin 1024, f (Spec.lo k)) + ∑ k : Fin 1024, f (Spec.hi k) :=
  Fin.sum_univ_add (a := 1024) (b := 1024) f

theorem rowmax_apply (x : FVec Ideal S1x2048 .f32) (p : Fin 1) :
    Host.reduce FloatOps.maximumf x (constant (F := Ideal) S_ .f32 0xFF800000#32) reducesTo_S1x2048_S1_d1 h_S_ (ix1 p)
      = Finset.univ.sup (fun k : Fin 2048 => x (ix2 p k)) := by
  rw [Host.reduce_eq_fold_single FloatOps.maximumf x _ reducesTo_S1x2048_S1_d1 (by decide) h_S_]
  show Finset.univ.fold max (Ideal.ofBits .f32 0xFF800000#32) _ = _
  rw [ofBits_neg_inf]
  have e : (x ∘ (by decide : S1x2048.Reduces [1] S1).lift (ix1 p)) = fun k : Fin 2048 => x (ix2 p k) :=
    funext fun k => congrArg x (funext fun a => Fin.ext (by match a with | ⟨0, _⟩ => rfl | ⟨1, _⟩ => rfl))
  rw [e]
  rfl

theorem cat_lo (a b : FVec Ideal S1x1024 .f32) (p : Fin 1) (k : Fin 1024) :
    concatenate S1x2048 1 [⟨S1x1024, a⟩, ⟨S1x1024, b⟩] concatenates_S1x1024_S1x1024_S1x2048_d1 (ix2 p (Spec.lo k)) = a (ix2 p k) :=
  concatenate_pair_apply_left (t := S1x2048) (s₁ := S1x1024) (s₂ := S1x1024) 1 a b concatenates_S1x1024_S1x1024_S1x2048_d1
    (ix2 p (Spec.lo k)) rfl (ix2 p k) (fun c => by
    match c with
    | ⟨0, _⟩ => rfl
    | ⟨1, _⟩ => rfl)

theorem cat_hi (a b : FVec Ideal S1x1024 .f32) (p : Fin 1) (k : Fin 1024) :
    concatenate S1x2048 1 [⟨S1x1024, a⟩, ⟨S1x1024, b⟩] concatenates_S1x1024_S1x1024_S1x2048_d1 (ix2 p (Spec.hi k)) = b (ix2 p k) :=
  concatenate_pair_apply_right (t := S1x2048) (s₁ := S1x1024) (s₂ := S1x1024) 1 a b concatenates_S1x1024_S1x1024_S1x2048_d1
    (ix2 p (Spec.hi k)) rfl rfl (ix2 p k)
    (fun c hc => by
      match c with
      | ⟨0, _⟩ => rfl
      | ⟨1, _⟩ => exact absurd rfl hc)
    (by show k.val + 1024 = 1024 + k.val; omega)

def embR (a0 : IVec S1 32) (a3 : FVec Ideal S50257x1024 .f32) : Fin 1024 → EReal :=
  fun k => val_main_v9 (F := Ideal) a0 a3 (ix2 0 k)

def LSr (x : FVec Ideal S1x50257 .f32) : FVec Ideal S1x50257 .f32 :=
  let shifted : FVec Ideal S1x50257 .f32 :=
    subf x (broadcastInDim S1x50257 ![0, 1] bcast_S1x1_S1x50257_0_1 (broadcastInDim S1x1 ![0] bcast_S1_S1x1_0
      (maximumf (broadcastInDim S1 ![] bcast_S_S1 (constant (F := Ideal) S_ .f32 0xFF800000#32))
        (Host.reduce FloatOps.maximumf x (constant (F := Ideal) S_ .f32 0xFF800000#32) reducesTo_S1x50257_S1_d1 h_S_))))
  subf shifted (broadcastInDim S1x50257 ![0, 1] bcast_S1x1_S1x50257_0_1 (Host.log (broadcastInDim S1x1 ![0] bcast_S1_S1x1_0
    (Host.reduceAdd (Host.exp shifted) (constant (F := Ideal) S_ .f32 0x00000000#32) reducesTo_S1x50257_S1_d1 h_S_))))

section Stages

variable (x0 : IVec S1 32) (x1 : FVec Ideal S1x1x1024 .f32) (x2 : FVec Ideal S2048x1024 .f32)
  (x3 : FVec Ideal S50257x1024 .f32) (x4 : FVec Ideal S2048x2048 .f32) (x5 : FVec Ideal S2048 .f32)
  (x6 : FVec Ideal S1024x2048 .f32) (x7 : FVec Ideal S1024 .f32) (x8 x9 : FVec Ideal S3072x1024 .f32)
  (x10 x11 : FVec Ideal S3072 .f32) (x12 : FVec Ideal S50257x1024 .f32) (x13 : FVec Ideal S50257 .f32)

local notation "E#" => embR x0 x3
local notation "H#" => Spec.hid x1
local notation "ENC#" => Spec.mat x2
local notation "AW#" => Spec.mat x4
local notation "AB#" => Spec.vec1 x5
local notation "CW#" => Spec.mat x6
local notation "CB#" => Spec.vec1 x7
local notation "WIH#" => Spec.mat x8
local notation "WHH#" => Spec.mat x9
local notation "BIH#" => Spec.vec1 x10
local notation "BHH#" => Spec.vec1 x11
local notation "OW#" => Spec.mat x12
local notation "OB#" => Spec.vec1 x13

theorem v9_at (p : Fin 1) (k : Fin 1024) : val_main_v9 (F := Ideal) x0 x3 (ix2 p k) = E# k := by
  obtain rfl : p = 0 := Subsingleton.elim _ _
  rfl

theorem v10_at (p : Fin 1) (k : Fin 1024) : val_main_v10 (F := Ideal) x1 (ix2 p k) = H# k := by
  have e : idx_main_v10 (ix2 p k) = ix3 0 0 k := idx3_ext rfl rfl (by
    show (p.val * 1024 + k.val) % 1024 = k.val
    have := p.isLt; have := k.isLt; omega)
  rw [val_main_v10_apply, e]
  rfl

theorem v11_lo (p : Fin 1) (k : Fin 1024) : val_main_v11 (F := Ideal) x0 x1 x3 (ix2 p (Spec.lo k)) = E# k := by
  unfold val_main_v11
  rw [cat_lo, v9_at]

theorem v11_hi (p : Fin 1) (k : Fin 1024) : val_main_v11 (F := Ideal) x0 x1 x3 (ix2 p (Spec.hi k)) = H# k := by
  unfold val_main_v11
  rw [cat_hi, v10_at]

theorem v12_at (a b : Fin 2048) : val_main_v12 (F := Ideal) x4 (ix2 a b) = AW# b a := by
  rw [val_main_v12_apply, show idx_main_v12 (ix2 a b) = ix2 b a from idx2_ext rfl rfl]
  rfl

theorem v13_at (p : Fin 1) (j : Fin 2048) :
    val_main_v13 (F := Ideal) x0 x1 x3 x4 (ix2 p j)
      = (∑ k : Fin 1024, E# k * AW# j (Spec.lo k)) + ∑ k : Fin 1024, H# k * AW# j (Spec.hi k) := by
  have hl : ∀ k, lidx_main_v13 (ix2 p j) k = ix2 p k := fun k => idx2_ext rfl rfl
  have hr : ∀ k, ridx_main_v13 (ix2 p j) k = ix2 k j := fun k => idx2_ext rfl rfl
  rw [val_main_v13_apply, sum_halves]
  simp only [hl, hr, v11_lo, v11_hi, v12_at]

theorem v14_at (p : Fin 1) (j : Fin 2048) : val_main_v14 (F := Ideal) x5 (ix2 p j) = AB# j := by
  rw [val_main_v14_apply, show idx_main_v14 (ix2 p j) = ix1 j from idx1_ext rfl]
  rfl

theorem v15_at (p : Fin 1) (j : Fin 2048) :
    val_main_v15 (F := Ideal) x0 x1 x3 x4 x5 (ix2 p j) = Spec.scores E# H# AW# AB# j := by
  rw [val_main_v15_apply, v13_at, v14_at]
  rfl

theorem v16_at (i : S1.Idx) : val_main_v16 (F := Ideal) x0 x1 x3 x4 x5 i = Spec.smax E# H# AW# AB# := by
  obtain ⟨p, rfl⟩ : ∃ p : Fin 1, i = ix1 p := ⟨i 0, eq_ix1 i⟩
  unfold val_main_v16 val_main_cst
  rw [rowmax_apply]
  unfold Spec.smax
  exact congrArg (Finset.sup Finset.univ) (funext fun k => v15_at x0 x1 x3 x4 x5 p k)

theorem v17_at (i : S1.Idx) : val_main_v17 (F := Ideal) i = ⊥ := by
  rw [val_main_v17_apply, val_main_cst_6_apply]
  exact ofBits_neg_inf

theorem v18_at (i : S1.Idx) : val_main_v18 (F := Ideal) x0 x1 x3 x4 x5 i = Spec.smax E# H# AW# AB# := by
  rw [val_main_v18_apply, v17_at, v16_at]
  exact max_eq_right bot_le

theorem v20_at (i : S1x2048.Idx) : val_main_v20 (F := Ideal) x0 x1 x3 x4 x5 i = Spec.smax E# H# AW# AB# := by
  rw [val_main_v20_apply, val_main_v19_apply, v18_at]

theorem v22_at (p : Fin 1) (j : Fin 2048) :
    val_main_v22 (F := Ideal) x0 x1 x3 x4 x5 (ix2 p j) = Spec.sexp E# H# AW# AB# j := by
  rw [val_main_v22_apply, val_main_v21_apply, v15_at, v20_at]
  rfl

theorem v23_at (i : S1.Idx) : val_main_v23 (F := Ideal) x0 x1 x3 x4 x5 i = Spec.ssum E# H# AW# AB# := by
  obtain ⟨p, rfl⟩ : ∃ p : Fin 1, i = ix1 p := ⟨i 0, eq_ix1 i⟩
  rw [val_main_v23_apply, val_main_cst_7_apply]
  show Ideal.ofBits .f32 0x00000000#32 + _ = _
  rw [Ideal.ofBits_zero_f32, zero_add]
  unfold Spec.ssum
  refine Finset.sum_congr rfl fun k _ => ?_
  rw [show idx_main_v23 (ix1 p) k = ix2 p k from idx2_ext rfl rfl, v22_at]

theorem v25_at (i : S1x2048.Idx) : val_main_v25 (F := Ideal) x0 x1 x3 x4 x5 i = Spec.ssum E# H# AW# AB# := by
  rw [val_main_v25_apply, val_main_v24_apply, v23_at]

theorem v26_at (p : Fin 1) (j : Fin 2048) :
    val_main_v26 (F := Ideal) x0 x1 x3 x4 x5 (ix2 p j) = Spec.attnw E# H# AW# AB# j := by
  rw [val_main_v26_apply, v22_at, v25_at]
  rfl

theorem v27_at (p : Fin 1) (q : Fin 1024) :
    val_main_v27 (F := Ideal) x0 x1 x2 x3 x4 x5 (ix2 p q) = Spec.ctx E# H# ENC# AW# AB# q := by
  rw [val_main_v27_apply]
  unfold Spec.ctx
  refine Finset.sum_congr rfl fun k _ => ?_
  rw [show lidx_main_v27 (ix2 p q) k = ix2 p k from idx2_ext rfl rfl,
    show ridx_main_v27 (ix2 p q) k = ix2 k q from idx2_ext rfl rfl, v26_at]
  rfl

theorem v28_lo (p : Fin 1) (k : Fin 1024) :
    val_main_v28 (F := Ideal) x0 x1 x2 x3 x4 x5 (ix2 p (Spec.lo k)) = E# k := by
  unfold val_main_v28
  rw [cat_lo, v9_at]

theorem v28_hi (p : Fin 1) (k : Fin 1024) :
    val_main_v28 (F := Ideal) x0 x1 x2 x3 x4 x5 (ix2 p (Spec.hi k)) = Spec.ctx E# H# ENC# AW# AB# k := by
  unfold val_main_v28
  rw [cat_hi, v27_at]

theorem v29_at (a : Fin 2048) (b : Fin 1024) : val_main_v29 (F := Ideal) x6 (ix2 a b) = CW# b a := by
  rw [val_main_v29_apply, show idx_main_v29 (ix2 a b) = ix2 b a from idx2_ext rfl rfl]
  rfl

theorem v30_at (p : Fin 1) (i : Fin 1024) :
    val_main_v30 (F := Ideal) x0 x1 x2 x3 x4 x5 x6 (ix2 p i)
      = (∑ k : Fin 1024, E# k * CW# i (Spec.lo k)) + ∑ k : Fin 1024, Spec.ctx E# H# ENC# AW# AB# k * CW# i (Spec.hi k) := by
  have hl : ∀ k, lidx_main_v30 (ix2 p i) k = ix2 p k := fun k => idx2_ext rfl rfl
  have hr : ∀ k, ridx_main_v30 (ix2 p i) k = ix2 k i := fun k => idx2_ext rfl rfl
  rw [val_main_v30_apply, sum_halves]
  simp only [hl, hr, v28_lo, v28_hi, v29_at]

theorem v31_at (p : Fin 1) (i : Fin 1024) : val_main_v31 (F := Ideal) x7 (ix2 p i) = CB# i := by
  rw [val_main_v31_apply, show idx_main_v31 (ix2 p i) = ix1 i from idx1_ext rfl]
  rfl

theorem call0_v0_at (i : S1x1024.Idx) : val_main_call0_v0 (F := Ideal) i = 0 := by
  rw [val_main_call0_v0_apply, val_main_call0_cst_apply]
  exact Ideal.ofBits_zero_f32

theorem v33_at (p : Fin 1) (i : Fin 1024) :
    val_main_v33 (F := Ideal) x0 x1 x2 x3 x4 x5 x6 x7 (ix2 p i) = Spec.xcomb E# H# ENC# AW# AB# CW# CB# i := by
  rw [val_main_v33_apply, val_main_v32_apply, v30_at, v31_at, call0_v0_at]
  rfl

end Stages

end Cert.RefSide

end
-- ==== Proof.RefValue.lean ====
import proofs.«429206_j20933670601086_3_alg».proof.Defs
import proofs.«429206_j20933670601086_3_alg».proof.Proof.Gen.ReferenceIdeal
import proofs.«429206_j20933670601086_3_alg».proof.Proof.RefRun
import proofs.«429206_j20933670601086_3_alg».proof.Proof.RefRead
import proofs.«429206_j20933670601086_3_alg».proof.Proof.Spec
import proofs.«429206_j20933670601086_3_alg».proof.Proof.SpecIdx
import proofs.«429206_j20933670601086_3_alg».proof.Proof.RefValueA

noncomputable section

namespace Cert.RefSide

open Cert.ReferenceIdeal Cert.ReferenceIdeal.Gen Cert.RefRead Idealize.ShloMosaic Idealize.ShloMosaic.ValueIdx
  Idealize.ShloMosaic.TcCoe Idealize.SL.Sem

section Stages

variable (x0 : IVec S1 32) (x1 : FVec Ideal S1x1x1024 .f32) (x2 : FVec Ideal S2048x1024 .f32)
  (x3 : FVec Ideal S50257x1024 .f32) (x4 : FVec Ideal S2048x2048 .f32) (x5 : FVec Ideal S2048 .f32)
  (x6 : FVec Ideal S1024x2048 .f32) (x7 : FVec Ideal S1024 .f32) (x8 x9 : FVec Ideal S3072x1024 .f32)
  (x10 x11 : FVec Ideal S3072 .f32) (x12 : FVec Ideal S50257x1024 .f32) (x13 : FVec Ideal S50257 .f32)

local notation "E#" => embR x0 x3
local notation "H#" => Spec.hid x1
local notation "ENC#" => Spec.mat x2
local notation "AW#" => Spec.mat x4
local notation "AB#" => Spec.vec1 x5
local notation "CW#" => Spec.mat x6
local notation "CB#" => Spec.vec1 x7
local notation "WIH#" => Spec.mat x8
local notation "WHH#" => Spec.mat x9
local notation "BIH#" => Spec.vec1 x10
local notation "BHH#" => Spec.vec1 x11
local notation "OW#" => Spec.mat x12
local notation "OB#" => Spec.vec1 x13

theorem v34_at (k : Fin 1024) (r : Fin 3072) : val_main_v34 (F := Ideal) x8 (ix2 k r) = WIH# r k := by
  rw [val_main_v34_apply, show idx_main_v34 (ix2 k r) = ix2 r k from idx2_ext rfl rfl]
  rfl

theorem v36_at (p : Fin 1) (r : Fin 3072) : val_main_v36 (F := Ideal) x10 (ix2 p r) = BIH# r := by
  rw [val_main_v36_apply, show idx_main_v36 (ix2 p r) = ix1 r from idx1_ext rfl]
  rfl

theorem v35_at (p : Fin 1) (r : Fin 3072) :
    val_main_v35 (F := Ideal) x0 x1 x2 x3 x4 x5 x6 x7 x8 (ix2 p r)
      = ∑ k : Fin 1024, Spec.xcomb E# H# ENC# AW# AB# CW# CB# k * WIH# r k := by
  rw [val_main_v35_apply]
  refine Finset.sum_congr rfl fun k _ => ?_
  rw [show lidx_main_v35 (ix2 p r) k = ix2 p k from idx2_ext rfl rfl,
    show ridx_main_v35 (ix2 p r) k = ix2 k r from idx2_ext rfl rfl, v33_at, v34_at]

theorem v37_at (p : Fin 1) (r : Fin 3072) :
    val_main_v37 (F := Ideal) x0 x1 x2 x3 x4 x5 x6 x7 x8 x10 (ix2 p r)
      = Spec.gi E# H# ENC# AW# AB# CW# CB# WIH# BIH# r := by
  rw [val_main_v37_apply, v35_at, v36_at]
  rfl

theorem v38_at (k : Fin 1024) (r : Fin 3072) : val_main_v38 (F := Ideal) x9 (ix2 k r) = WHH# r k := by
  rw [val_main_v38_apply, show idx_main_v38 (ix2 k r) = ix2 r k from idx2_ext rfl rfl]
  rfl

theorem v40_at (p : Fin 1) (r : Fin 3072) : val_main_v40 (F := Ideal) x11 (ix2 p r) = BHH# r := by
  rw [val_main_v40_apply, show idx_main_v40 (ix2 p r) = ix1 r from idx1_ext rfl]
  rfl

theorem v39_at (p : Fin 1) (r : Fin 3072) :
    val_main_v39 (F := Ideal) x1 x9 (ix2 p r) = ∑ k : Fin 1024, H# k * WHH# r k := by
  rw [val_main_v39_apply]
  refine Finset.sum_congr rfl fun k _ => ?_
  rw [show lidx_main_v39 (ix2 p r) k = ix2 p k from idx2_ext rfl rfl,
    show ridx_main_v39 (ix2 p r) k = ix2 k r from idx2_ext rfl rfl, v10_at, v38_at]

theorem v41_at (p : Fin 1) (r : Fin 3072) :
    val_main_v41 (F := Ideal) x1 x9 x11 (ix2 p r) = Spec.gh H# WHH# BHH# r := by
  rw [val_main_v41_apply, v39_at, v40_at]
  rfl

theorem v42_at (p : Fin 1) (i : Fin 1024) :
    val_main_v42 (F := Ideal) x0 x1 x2 x3 x4 x5 x6 x7 x8 x10 (ix2 p i)
      = Spec.gi E# H# ENC# AW# AB# CW# CB# WIH# BIH# (Spec.g0 i) := by
  rw [val_main_v42_apply, show idx_main_v42 (ix2 p i) = ix2 p (Spec.g0 i) from idx2_ext rfl rfl, v37_at]

theorem v43_at (p : Fin 1) (i : Fin 1024) :
    val_main_v43 (F := Ideal) x0 x1 x2 x3 x4 x5 x6 x7 x8 x10 (ix2 p i)
      = Spec.gi E# H# ENC# AW# AB# CW# CB# WIH# BIH# (Spec.g1 i) := by
  rw [val_main_v43_apply, show idx_main_v43 (ix2 p i) = ix2 p (Spec.g1 i) from idx2_ext rfl rfl, v37_at]

theorem v44_at (p : Fin 1) (i : Fin 1024) :
    val_main_v44 (F := Ideal) x0 x1 x2 x3 x4 x5 x6 x7 x8 x10 (ix2 p i)
      = Spec.gi E# H# ENC# AW# AB# CW# CB# WIH# BIH# (Spec.g2 i) := by
  rw [val_main_v44_apply, show idx_main_v44 (ix2 p i) = ix2 p (Spec.g2 i) from idx2_ext rfl rfl, v37_at]

theorem v45_at (p : Fin 1) (i : Fin 1024) :
    val_main_v45 (F := Ideal) x1 x9 x11 (ix2 p i) = Spec.gh H# WHH# BHH# (Spec.g0 i) := by
  rw [val_main_v45_apply, show idx_main_v45 (ix2 p i) = ix2 p (Spec.g0 i) from idx2_ext rfl rfl, v41_at]

theorem v46_at (p : Fin 1) (i : Fin 1024) :
    val_main_v46 (F := Ideal) x1 x9 x11 (ix2 p i) = Spec.gh H# WHH# BHH# (Spec.g1 i) := by
  rw [val_main_v46_apply, show idx_main_v46 (ix2 p i) = ix2 p (Spec.g1 i) from idx2_ext rfl rfl, v41_at]

theorem v47_at (p : Fin 1) (i : Fin 1024) :
    val_main_v47 (F := Ideal) x1 x9 x11 (ix2 p i) = Spec.gh H# WHH# BHH# (Spec.g2 i) := by
  rw [val_main_v47_apply, show idx_main_v47 (ix2 p i) = ix2 p (Spec.g2 i) from idx2_ext rfl rfl, v41_at]

theorem v54_at (p : Fin 1) (i : Fin 1024) :
    val_main_v54 (F := Ideal) x0 x1 x2 x3 x4 x5 x6 x7 x8 x9 x10 x11 (ix2 p i)
      = Spec.rg E# H# ENC# AW# AB# CW# CB# WIH# WHH# BIH# BHH# i := by
  rw [val_main_v54_apply, val_main_v53_apply, val_main_cst_9_apply, val_main_v52_apply, val_main_v51_apply,
    val_main_cst_8_apply, val_main_v50_apply, val_main_v49_apply, val_main_v48_apply, v42_at, v45_at,
    Ideal.ofBits_def, Ideal.ofBits_one_f32]
  rfl

theorem v61_at (p : Fin 1) (i : Fin 1024) :
    val_main_v61 (F := Ideal) x0 x1 x2 x3 x4 x5 x6 x7 x8 x9 x10 x11 (ix2 p i)
      = Spec.zg E# H# ENC# AW# AB# CW# CB# WIH# WHH# BIH# BHH# i := by
  rw [val_main_v61_apply, val_main_v60_apply, val_main_cst_11_apply, val_main_v59_apply, val_main_v58_apply,
    val_main_cst_10_apply, val_main_v57_apply, val_main_v56_apply, val_main_v55_apply, v43_at, v46_at,
    Ideal.ofBits_def, Ideal.ofBits_one_f32]
  rfl

theorem v64_at (p : Fin 1) (i : Fin 1024) :
    val_main_v64 (F := Ideal) x0 x1 x2 x3 x4 x5 x6 x7 x8 x9 x10 x11 (ix2 p i)
      = Spec.ng E# H# ENC# AW# AB# CW# CB# WIH# WHH# BIH# BHH# i := by
  rw [val_main_v64_apply, val_main_v63_apply, val_main_v62_apply, v44_at, v54_at, v47_at]
  rfl

theorem v69_at (p : Fin 1) (i : Fin 1024) :
    val_main_v69 (F := Ideal) x0 x1 x2 x3 x4 x5 x6 x7 x8 x9 x10 x11 (ix2 p i)
      = Spec.hnew E# H# ENC# AW# AB# CW# CB# WIH# WHH# BIH# BHH# i := by
  rw [val_main_v69_apply, val_main_v67_apply, val_main_v68_apply, val_main_v66_apply, val_main_v65_apply,
    val_main_cst_12_apply, v61_at, v64_at, v10_at, Ideal.ofBits_def, Ideal.ofBits_one_f32]
  rfl

theorem v70_at (k : Fin 1024) (v : Fin 50257) : val_main_v70 (F := Ideal) x12 (ix2 k v) = OW# v k := by
  rw [val_main_v70_apply, show idx_main_v70 (ix2 k v) = ix2 v k from idx2_ext rfl rfl]
  rfl

theorem v72_at (p : Fin 1) (v : Fin 50257) : val_main_v72 (F := Ideal) x13 (ix2 p v) = OB# v := by
  rw [val_main_v72_apply, show idx_main_v72 (ix2 p v) = ix1 v from idx1_ext rfl]
  rfl

theorem v71_at (p : Fin 1) (v : Fin 50257) :
    val_main_v71 (F := Ideal) x0 x1 x2 x3 x4 x5 x6 x7 x8 x9 x10 x11 x12 (ix2 p v)
      = ∑ k : Fin 1024, Spec.hnew E# H# ENC# AW# AB# CW# CB# WIH# WHH# BIH# BHH# k * OW# v k := by
  rw [val_main_v71_apply]
  refine Finset.sum_congr rfl fun k _ => ?_
  rw [show lidx_main_v71 (ix2 p v) k = ix2 p k from idx2_ext rfl rfl,
    show ridx_main_v71 (ix2 p v) k = ix2 k v from idx2_ext rfl rfl, v69_at, v70_at]

theorem v73_at (p : Fin 1) (v : Fin 50257) :
    val_main_v73 (F := Ideal) x0 x1 x2 x3 x4 x5 x6 x7 x8 x9 x10 x11 x12 x13 (ix2 p v)
      = Spec.logits E# H# ENC# AW# AB# CW# CB# WIH# WHH# BIH# BHH# OW# OB# v := by
  rw [val_main_v73_apply, v71_at, v72_at]
  rfl

theorem v73_eq :
    val_main_v73 (F := Ideal) x0 x1 x2 x3 x4 x5 x6 x7 x8 x9 x10 x11 x12 x13
      = Spec.unrow (Spec.logits E# H# ENC# AW# AB# CW# CB# WIH# WHH# BIH# BHH# OW# OB#) :=
  Spec.unrow_ext (v73_at x0 x1 x2 x3 x4 x5 x6 x7 x8 x9 x10 x11 x12 x13 0)

theorem v74_eq :
    val_main_v74 (F := Ideal) x0 x1 x2 x3 x4 x5 x6 x7 x8 x9 x10 x11 x12 x13
      = LSr (Spec.unrow (Spec.logits E# H# ENC# AW# AB# CW# CB# WIH# WHH# BIH# BHH# OW# OB#)) := by
  rw [← v73_eq x0 x1 x2 x3 x4 x5 x6 x7 x8 x9 x10 x11 x12 x13]
  rfl

theorem v75_eq :
    val_main_v75 (F := Ideal) x0 x1 x2 x3 x4 x5 x6 x7 x8 x9 x10 x11
      = Spec.unhid (Spec.hnew E# H# ENC# AW# AB# CW# CB# WIH# WHH# BIH# BHH#) := by
  funext j
  obtain ⟨a, b, i, rfl⟩ : ∃ (a b : Fin 1) (i : Fin 1024), j = ix3 a b i := ⟨j 0, j 1, j 2, eq_ix3 j⟩
  rw [val_main_v75_apply, show idx_main_v75 (ix3 a b i) = ix2 0 i from idx2_ext rfl rfl, v69_at]
  rfl

theorem v26_eq :
    val_main_v26 (F := Ideal) x0 x1 x3 x4 x5 = Spec.unrow (Spec.attnw E# H# AW# AB#) :=
  Spec.unrow_ext (v26_at x0 x1 x3 x4 x5 0)

end Stages

theorem frame_ri [Cert.Pre_finite_inputs.Facts] : Cert.frame_ReferenceIdeal := fun m ρ _ =>
  (θ_run Cert.ReferenceIdeal.defs _ _).mono (fun _ h c => (h c).2.2.2) (Cert.ReferenceIdeal.ValueP2.run (F := Ideal) m ρ)

theorem run_values (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ (fun r => ∀ c : Dev nD,
      r.2.mem ((c.tc : Thread nD τ).loc main_v74)
        = LSr (Spec.unrow (Spec.logits (embR (m' ((c.tc : Thread nD τ).loc main_arg0)) (m' ((c.tc : Thread nD τ).loc main_arg3)))
            (Spec.hid (m' ((c.tc : Thread nD τ).loc main_arg1))) (Spec.mat (m' ((c.tc : Thread nD τ).loc main_arg2)))
            (Spec.mat (m' ((c.tc : Thread nD τ).loc main_arg4))) (Spec.vec1 (m' ((c.tc : Thread nD τ).loc main_arg5)))
            (Spec.mat (m' ((c.tc : Thread nD τ).loc main_arg6))) (Spec.vec1 (m' ((c.tc : Thread nD τ).loc main_arg7)))
            (Spec.mat (m' ((c.tc : Thread nD τ).loc main_arg8))) (Spec.mat (m' ((c.tc : Thread nD τ).loc main_arg9)))
            (Spec.vec1 (m' ((c.tc : Thread nD τ).loc main_arg10))) (Spec.vec1 (m' ((c.tc : Thread nD τ).loc main_arg11)))
            (Spec.mat (m' ((c.tc : Thread nD τ).loc main_arg12))) (Spec.vec1 (m' ((c.tc : Thread nD τ).loc main_arg13)))))
      ∧ r.2.mem ((c.tc : Thread nD τ).loc main_v75)
        = Spec.unhid (Spec.hnew (embR (m' ((c.tc : Thread nD τ).loc main_arg0)) (m' ((c.tc : Thread nD τ).loc main_arg3)))
            (Spec.hid (m' ((c.tc : Thread nD τ).loc main_arg1))) (Spec.mat (m' ((c.tc : Thread nD τ).loc main_arg2)))
            (Spec.mat (m' ((c.tc : Thread nD τ).loc main_arg4))) (Spec.vec1 (m' ((c.tc : Thread nD τ).loc main_arg5)))
            (Spec.mat (m' ((c.tc : Thread nD τ).loc main_arg6))) (Spec.vec1 (m' ((c.tc : Thread nD τ).loc main_arg7)))
            (Spec.mat (m' ((c.tc : Thread nD τ).loc main_arg8))) (Spec.mat (m' ((c.tc : Thread nD τ).loc main_arg9)))
            (Spec.vec1 (m' ((c.tc : Thread nD τ).loc main_arg10))) (Spec.vec1 (m' ((c.tc : Thread nD τ).loc main_arg11))))
      ∧ r.2.mem ((c.tc : Thread nD τ).loc main_v26)
        = Spec.unrow (Spec.attnw (embR (m' ((c.tc : Thread nD τ).loc main_arg0)) (m' ((c.tc : Thread nD τ).loc main_arg3)))
            (Spec.hid (m' ((c.tc : Thread nD τ).loc main_arg1)))
            (Spec.mat (m' ((c.tc : Thread nD τ).loc main_arg4))) (Spec.vec1 (m' ((c.tc : Thread nD τ).loc main_arg5))))
      ∧ Cert.ReferenceIdeal.ValueP2.ArgsKept m' r.2.mem c) :=
  (θ_run Cert.ReferenceIdeal.defs _ _).mono (fun _ h c =>
    ⟨(h c).1.trans (v74_eq _ _ _ _ _ _ _ _ _ _ _ _ _ _),
      (h c).2.1.trans (v75_eq _ _ _ _ _ _ _ _ _ _ _ _),
      (h c).2.2.1.trans (v26_eq _ _ _ _ _),
      (h c).2.2.2⟩)
    (Cert.ReferenceIdeal.ValueP2.run (F := Ideal) m' ρ')

end Cert.RefSide

end
-- ==== Proof.EmbAgree.lean ====
import proofs.«429206_j20933670601086_3_alg».proof.Proof.HostValue
import proofs.«429206_j20933670601086_3_alg».proof.Proof.RefValueA

noncomputable section

namespace Cert.Agree

open Idealize.ShloMosaic Idealize.ShloMosaic.ValueIdx

theorem rowK_eq (a0 : IVec Cert.KernelIdeal.S1 32) (a3 : FVec Ideal Cert.KernelIdeal.S50257x1024 .f32) :
    Cert.KernelIdeal.HostValue.rowK (F := Ideal) a0 a3 = Cert.RefRead.val_main_v7 (F := Ideal) a0 a3 := rfl

theorem idx_round (k : Fin 1024) :
    Cert.RefRead.idx_main_v8 (Cert.RefRead.idx_main_v9 (ix2 (0 : Fin 1) k)) = ix2 (0 : Fin 1) k := by
  funext a
  match a with
  | ⟨0, _⟩ => exact Fin.ext rfl
  | ⟨1, _⟩ => exact Fin.ext (Nat.mod_eq_of_lt k.isLt)

theorem emb_agree (a0 : IVec Cert.KernelIdeal.S1 32) (a3 : FVec Ideal Cert.KernelIdeal.S50257x1024 .f32) :
    Cert.KernelIdeal.HostValue.embK (F := Ideal) a0 a3 = Cert.RefSide.embR a0 a3 := by
  funext k
  rw [Cert.KernelIdeal.HostValue.embK_eq_rowK, rowK_eq]
  unfold Cert.RefSide.embR
  rw [Cert.RefRead.val_main_v9_apply, Cert.RefRead.val_main_v8_apply, idx_round]

theorem ls_agree :
    (Cert.KernelIdeal.HostValue.LSk (F := Ideal) :
      FVec Ideal Cert.KernelIdeal.S1x50257 .f32 → FVec Ideal Cert.KernelIdeal.S1x50257 .f32) = Cert.RefSide.LSr := by
  funext x
  unfold Cert.KernelIdeal.HostValue.LSk Cert.RefSide.LSr
  rfl

end Cert.Agree

end
-- ==== Proof.lean ====
import proofs.«429206_j20933670601086_3_alg».proof.Defs
import proofs.«429206_j20933670601086_3_alg».proof.Proof.Gen.Kernel
import proofs.«429206_j20933670601086_3_alg».proof.Proof.Gen.KernelIdeal
import proofs.«429206_j20933670601086_3_alg».proof.Proof.Gen.ReferenceIdeal
import proofs.«429206_j20933670601086_3_alg».proof.Proof.Gen.Pre_finite_inputs
import proofs.«429206_j20933670601086_3_alg».proof.Proof.BRunMain
import proofs.«429206_j20933670601086_3_alg».proof.Proof.RunMain
import proofs.«429206_j20933670601086_3_alg».proof.Proof.KValue
import proofs.«429206_j20933670601086_3_alg».proof.Proof.RefValue
import proofs.«429206_j20933670601086_3_alg».proof.Proof.EmbAgree
import Idealize.ShloMosaic.Adequacy
import Idealize.ShloMosaic.Init

noncomputable section

namespace Cert.Proof

open Idealize.ShloMosaic Idealize.SL.Sem

theorem frame_k : Cert.frame_Kernel :=
  fun m ρ _ => Cert.Kernel.Run.frame (F := Bits) m ρ

theorem frame_ki : Cert.frame_KernelIdeal :=
  fun m ρ _ => Cert.KernelIdeal.Run.frame (F := Ideal) m ρ

set_option maxHeartbeats 1000000 in

theorem algebraic : Cert.algebraic_KernelIdeal_ReferenceIdeal := by
  intro m ρ m' ρ' hpre hagree
  refine ⟨fun c => Cert.KernelIdeal.HostValue.LSk (F := Ideal) (Spec.unrow (Spec.logits (Cert.KernelIdeal.KValue.emb m c) (Cert.KernelIdeal.KValue.h0 m c) (Cert.KernelIdeal.KValue.enc m c) (Cert.KernelIdeal.KValue.aW m c) (Cert.KernelIdeal.KValue.ab m c) (Cert.KernelIdeal.KValue.cW m c) (Cert.KernelIdeal.KValue.cb m c) (Cert.KernelIdeal.KValue.Wih m c) (Cert.KernelIdeal.KValue.Whh m c) (Cert.KernelIdeal.KValue.bih m c) (Cert.KernelIdeal.KValue.bhh m c) (Cert.KernelIdeal.KValue.oW m c) (Cert.KernelIdeal.KValue.ob m c))),
    fun c => Spec.unhid (Spec.hnew (Cert.KernelIdeal.KValue.emb m c) (Cert.KernelIdeal.KValue.h0 m c) (Cert.KernelIdeal.KValue.enc m c) (Cert.KernelIdeal.KValue.aW m c) (Cert.KernelIdeal.KValue.ab m c) (Cert.KernelIdeal.KValue.cW m c) (Cert.KernelIdeal.KValue.cb m c) (Cert.KernelIdeal.KValue.Wih m c) (Cert.KernelIdeal.KValue.Whh m c) (Cert.KernelIdeal.KValue.bih m c) (Cert.KernelIdeal.KValue.bhh m c)),
    fun c => Spec.unrow (Spec.attnw (Cert.KernelIdeal.KValue.emb m c) (Cert.KernelIdeal.KValue.h0 m c) (Cert.KernelIdeal.KValue.aW m c) (Cert.KernelIdeal.KValue.ab m c)), ?_, ?_⟩
  · refine (θ_run (Cert.KernelIdeal.defs (F := Ideal)) _ _).mono (fun r h c => ?_) (Cert.KernelIdeal.Run.run_values (F := Ideal) m ρ)
    obtain ⟨X, hX, h19, h20, h15, hargs⟩ := h c
    obtain ⟨k19, k20, k15⟩ := Cert.KernelIdeal.KValue.kernel_values m c X hpre hX
    exact ⟨h19.trans k19, h20.trans k20, h15.trans k15, hargs⟩
  · refine (θ_run (Cert.ReferenceIdeal.defs (F := Ideal)) _ _).mono (fun r h c => ?_) (Cert.RefSide.run_values m' ρ')
    obtain ⟨h74, h75, h26, hargs⟩ := h c
    obtain ⟨a0, a1, a2, a3, a4, a5, a6, a7, a8, a9, a10, a11, a12, a13⟩ := hagree c
    refine ⟨h74.trans ?_, h75.trans ?_, h26.trans ?_, hargs⟩
    · rw [a0, a1, a2, a3, a4, a5, a6, a7, a8, a9, a10, a11, a12, a13, ← Cert.Agree.emb_agree, ← Cert.Agree.ls_agree]
    · rw [a0, a1, a2, a3, a4, a5, a6, a7, a8, a9, a10, a11, ← Cert.Agree.emb_agree]
    · rw [a0, a1, a3, a4, a5, ← Cert.Agree.emb_agree]

theorem claim : Cert.Claim :=
  ⟨Cert.Kernel.Gen.facts, Cert.KernelIdeal.Gen.facts, Cert.ReferenceIdeal.Gen.facts, Cert.Pre_finite_inputs.Gen.facts,
    frame_k, frame_ki, Cert.RefSide.frame_ri, trivial, algebraic⟩

end Cert.Proof

end
